-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v213)) (v1 : (c : Dev Cert.KernelIdeal.nD) → Buf (Elt Ideal) ((c.tc : Thread Cert.KernelIdeal.nD Cert.KernelIdeal.τ).loc Cert.KernelIdeal.main_v153)) (v2 : (c : Dev Cert.KernelIdeal.nD) → Buf (Elt Ideal) ((c.tc : Thread Cert.KernelIdeal.nD Cert.KernelIdeal.τ).loc Cert.KernelIdeal.main_v154)) (v3 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v213) = v0 c
          ∧ r.2.mem ((c.tc : Thread Cert.KernelIdeal.nD Cert.KernelIdeal.τ).loc Cert.KernelIdeal.main_v153) = v1 c
          ∧ r.2.mem ((c.tc : Thread Cert.KernelIdeal.nD Cert.KernelIdeal.τ).loc Cert.KernelIdeal.main_v154) = v2 c
          ∧ r.2.mem ((c.tc : Thread Cert.KernelIdeal.nD Cert.KernelIdeal.τ).loc Cert.KernelIdeal.main_v155) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v323) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v169) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S64x32 : Shape := ⟨2, ![64, 32]⟩
abbrev S32 : Shape := ⟨1, ![32]⟩
abbrev S_ : Shape := ⟨0, ![]⟩
abbrev S1x800000 : Shape := ⟨2, ![1, 800000]⟩
abbrev S50000 : Shape := ⟨1, ![50000]⟩
abbrev S800000x1 : Shape := ⟨2, ![800000, 1]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x800000_S1x800000_1_0 : S2x800000.Slices ![1, 0] S1x800000
  shapeCasts_S1x800000_S800000 : S1x800000.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  reducesTo_S50000_S_d0 : S50000.ReducesTo [0] S_
  scatter_S50000_S800000x1_S800000_n_0_0_1_wf : ScatterDims.WF S50000 S800000x1 S800000 [] [0] [0] 1

variable [Facts]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def fn_part7 {F : FTy → Type} [FloatOps F] (main_arg5 : IVec S2x800000 32) (main_arg8 : FVec F S800000 .f32) (main_v109 : IVec S_ 1) (main_v119 : IVec S_ 1) : IVec S_ 1 :=
  let main_v120 : IVec S_ 1 := andi main_v109 main_v119
  let main_v121 : IVec S1x800000 32 := (extractStridedSlice S1x800000 ![1, 0] · slices_S2x800000_S1x800000_1_0) main_arg5
  let main_v122 : IVec S800000 32 := shapeCast S800000 main_v121 shapeCasts_S1x800000_S800000
  let main_cst_46 : FVec F S_ .f32 := constant S_ .f32 0x00000000#32
  let main_v123 : FVec F S50000 .f32 := broadcastInDim S50000 ![] bcast_S_S50000 main_cst_46
  let main_v124 : IVec S800000x1 32 := broadcastInDim S800000x1 ![0] bcast_S800000_S800000x1_0 main_v122
  let main_v125 : FVec F S50000 .f32 := (fun x i u => Host.scatterAdd scatter_S50000_S800000x1_S800000_n_0_0_1 x i u) main_v123 main_v124 main_arg8
  let main_cst_47 : FVec F S_ .f32 := constant S_ .f32 0x3F800000#32
  let main_v126 : FVec F S50000 .f32 := broadcastInDim S50000 ![] bcast_S_S50000 main_cst_47
  let main_v127 : FVec F S50000 .f32 := addf main_v125 main_v126
  let main_cst_48 : FVec F S_ .f32 := constant S_ .f32 0x00000000#32
  let main_v128 : FVec F S50000 .f32 := broadcastInDim S50000 ![] bcast_S_S50000 main_cst_48
  let main_v129 : IVec S50000 1 := cmpf .ogt main_v127 main_v128
  let main_c_49 : IVec S_ 1 := constantI S_ 1 1#1
  let main_v130 : IVec S_ 1 := (fun x v => Host.reduce IntOp.andi x v reducesTo_S50000_S_d0 h_S_) main_v129 main_c_49
  let main_v131 : IVec S_ 1 := andi main_v120 main_v130
  main_v131

def fn_part6 {F : FTy → Type} [FloatOps F] (main_arg4 : IVec S2x800000 32) (main_arg5 : IVec S2x800000 32) (main_arg6 : FVec F S800000 .f32) (main_arg7 : FVec F S800000 .f32) (main_arg8 : FVec F S800000 .f32) (main_v98 : IVec S_ 1) (main_v101 : FVec F S50000 .f32) (main_v102 : IVec S800000x1 32) : IVec S_ 1 :=
  let main_v103 : FVec F S50000 .f32 := (fun x i u => Host.scatterAdd scatter_S50000_S800000x1_S800000_n_0_0_1 x i u) main_v101 main_v102 main_arg6
  let main_cst_39 : FVec F S_ .f32 := constant S_ .f32 0x3F800000#32
  let main_v104 : FVec F S50000 .f32 := broadcastInDim S50000 ![] bcast_S_S50000 main_cst_39
  let main_v105 : FVec F S50000 .f32 := addf main_v103 main_v104
  let main_cst_40 : FVec F S_ .f32 := constant S_ .f32 0x00000000#32
  let main_v106 : FVec F S50000 .f32 := broadcastInDim S50000 ![] bcast_S_S50000 main_cst_40
  let main_v107 : IVec S50000 1 := cmpf .ogt main_v105 main_v106
  let main_c_41 : IVec S_ 1 := constantI S_ 1 1#1
  let main_v108 : IVec S_ 1 := (fun x v => Host.reduce IntOp.andi x v reducesTo_S50000_S_d0 h_S_) main_v107 main_c_41
  let main_v109 : IVec S_ 1 := andi main_v98 main_v108
  let main_v110 : IVec S1x800000 32 := (extractStridedSlice S1x800000 ![1, 0] · slices_S2x800000_S1x800000_1_0) main_arg4
  let main_v111 : IVec S800000 32 := shapeCast S800000 main_v110 shapeCasts_S1x800000_S800000
  let main_cst_42 : FVec F S_ .f32 := constant S_ .f32 0x00000000#32
  let main_v112 : FVec F S50000 .f32 := broadcastInDim S50000 ![] bcast_S_S50000 main_cst_42
  let main_v113 : IVec S800000x1 32 := broadcastInDim S800000x1 ![0] bcast_S800000_S800000x1_0 main_v111
  let main_v114 : FVec F S50000 .f32 := (fun x i u => Host.scatterAdd scatter_S50000_S800000x1_S800000_n_0_0_1 x i u) main_v112 main_v113 main_arg7
  let main_cst_43 : FVec F S_ .f32 := constant S_ .f32 0x3F800000#32
  let main_v115 : FVec F S50000 .f32 := broadcastInDim S50000 ![] bcast_S_S50000 main_cst_43
  let main_v116 : FVec F S50000 .f32 := addf main_v114 main_v115
  let main_cst_44 : FVec F S_ .f32 := constant S_ .f32 0x00000000#32
  let main_v117 : FVec F S50000 .f32 := broadcastInDim S50000 ![] bcast_S_S50000 main_cst_44
  let main_v118 : IVec S50000 1 := cmpf .ogt main_v116 main_v117
  let main_c_45 : IVec S_ 1 := constantI S_ 1 1#1
  let main_v119 : IVec S_ 1 := (fun x v => Host.reduce IntOp.andi x v reducesTo_S50000_S_d0 h_S_) main_v118 main_c_45
  fn_part7 (F := F) main_arg5 main_arg8 main_v109 main_v119

def fn_part5 {F : FTy → Type} [FloatOps F] (main_arg3 : IVec S2x800000 32) (main_arg4 : IVec S2x800000 32) (main_arg5 : IVec S2x800000 32) (main_arg6 : FVec F S800000 .f32) (main_arg7 : FVec F S800000 .f32) (main_arg8 : FVec F S800000 .f32) (main_arg21 : FVec F S32 .f32) (main_arg22 : FVec F S32 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg21
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg22
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : IVec S1x800000 32 := (extractStridedSlice S1x800000 ![1, 0] · slices_S2x800000_S1x800000_1_0) main_arg3
  let main_v100 : IVec S800000 32 := shapeCast S800000 main_v99 shapeCasts_S1x800000_S800000
  let main_cst_38 : FVec F S_ .f32 := constant S_ .f32 0x00000000#32
  let main_v101 : FVec F S50000 .f32 := broadcastInDim S50000 ![] bcast_S_S50000 main_cst_38
  let main_v102 : IVec S800000x1 32 := broadcastInDim S800000x1 ![0] bcast_S800000_S800000x1_0 main_v100
  fn_part6 (F := F) main_arg4 main_arg5 main_arg6 main_arg7 main_arg8 main_v98 main_v101 main_v102

def fn_part4 {F : FTy → Type} [FloatOps F] (main_arg3 : IVec S2x800000 32) (main_arg4 : IVec S2x800000 32) (main_arg5 : IVec S2x800000 32) (main_arg6 : FVec F S800000 .f32) (main_arg7 : FVec F S800000 .f32) (main_arg8 : FVec F S800000 .f32) (main_arg17 : FVec F S64x32 .f32) (main_arg18 : FVec F S64x32 .f32) (main_arg19 : FVec F S64x32 .f32) (main_arg20 : FVec F S32 .f32) (main_arg21 : FVec F S32 .f32) (main_arg22 : FVec F S32 .f32) (main_v63 : IVec S_ 1) (main_v67 : IVec S_ 1) : IVec S_ 1 :=
  let main_v68 : IVec S_ 1 := andi main_v63 main_v67
  let main_v69 : FVec F S64x32 .f32 := Host.absf main_arg17
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S64x32 .f32 := Host.absf main_arg18
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S64x32 .f32 := Host.absf main_arg19
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg20
  let main_cst_32 : FVec F S_ .f32 := constant S_ .f32 0x7F800000#32
  fn_part5 (F := F) main_arg3 main_arg4 main_arg5 main_arg6 main_arg7 main_arg8 main_arg21 main_arg22 main_v83 main_v84 main_cst_32

def fn_part3 {F : FTy → Type} [FloatOps F] (main_arg3 : IVec S2x800000 32) (main_arg4 : IVec S2x800000 32) (main_arg5 : IVec S2x800000 32) (main_arg6 : FVec F S800000 .f32) (main_arg7 : FVec F S800000 .f32) (main_arg8 : FVec F S800000 .f32) (main_arg14 : FVec F S64 .f32) (main_arg15 : FVec F S64x1 .f32) (main_arg16 : FVec F S1 .f32) (main_arg17 : FVec F S64x32 .f32) (main_arg18 : FVec F S64x32 .f32) (main_arg19 : FVec F S64x32 .f32) (main_arg20 : FVec F S32 .f32) (main_arg21 : FVec F S32 .f32) (main_arg22 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg15
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg16
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg3 main_arg4 main_arg5 main_arg6 main_arg7 main_arg8 main_arg17 main_arg18 main_arg19 main_arg20 main_arg21 main_arg22 main_v63 main_v67

def fn_part2 {F : FTy → Type} [FloatOps F] (main_arg3 : IVec S2x800000 32) (main_arg4 : IVec S2x800000 32) (main_arg5 : IVec S2x800000 32) (main_arg6 : FVec F S800000 .f32) (main_arg7 : FVec F S800000 .f32) (main_arg8 : FVec F S800000 .f32) (main_arg10 : FVec F S256x64 .f32) (main_arg11 : FVec F S256x64 .f32) (main_arg12 : FVec F S64 .f32) (main_arg13 : FVec F S64 .f32) (main_arg14 : FVec F S64 .f32) (main_arg15 : FVec F S64x1 .f32) (main_arg16 : FVec F S1 .f32) (main_arg17 : FVec F S64x32 .f32) (main_arg18 : FVec F S64x32 .f32) (main_arg19 : FVec F S64x32 .f32) (main_arg20 : FVec F S32 .f32) (main_arg21 : FVec F S32 .f32) (main_arg22 : FVec F S32 .f32) (main_v33 : IVec S_ 1) : IVec S_ 1 :=
  let main_v34 : FVec F S256x64 .f32 := Host.absf main_arg10
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x64 .f32 := Host.absf main_arg11
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg3 main_arg4 main_arg5 main_arg6 main_arg7 main_arg8 main_arg14 main_arg15 main_arg16 main_arg17 main_arg18 main_arg19 main_arg20 main_arg21 main_arg22 main_v48 main_v49 main_v50

def fn_part1 {F : FTy → Type} [FloatOps F] (main_arg3 : IVec S2x800000 32) (main_arg4 : IVec S2x800000 32) (main_arg5 : IVec S2x800000 32) (main_arg6 : FVec F S800000 .f32) (main_arg7 : FVec F S800000 .f32) (main_arg8 : FVec F S800000 .f32) (main_arg9 : FVec F S256x64 .f32) (main_arg10 : FVec F S256x64 .f32) (main_arg11 : FVec F S256x64 .f32) (main_arg12 : FVec F S64 .f32) (main_arg13 : FVec F S64 .f32) (main_arg14 : FVec F S64 .f32) (main_arg15 : FVec F S64x1 .f32) (main_arg16 : FVec F S1 .f32) (main_arg17 : FVec F S64x32 .f32) (main_arg18 : FVec F S64x32 .f32) (main_arg19 : FVec F S64x32 .f32) (main_arg20 : FVec F S32 .f32) (main_arg21 : FVec F S32 .f32) (main_arg22 : FVec F S32 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S800000 .f32 := Host.absf main_arg7
  let main_cst_6 : FVec F S_ .f32 := constant S_ .f32 0x7F800000#32
  let main_v20 : FVec F S800000 .f32 := broadcastInDim S800000 ![] bcast_S_S800000 main_cst_6
  let main_v21 : IVec S800000 1 := cmpf .olt main_v19 main_v20
  let main_c_7 : IVec S_ 1 := constantI S_ 1 1#1
  let main_v22 : IVec S_ 1 := (fun x v => Host.reduce IntOp.andi x v reducesTo_S800000_S_d0 h_S_) main_v21 main_c_7
  let main_v23 : IVec S_ 1 := andi main_v18 main_v22
  let main_v24 : FVec F S800000 .f32 := Host.absf main_arg8
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  let main_v29 : FVec F S256x64 .f32 := Host.absf main_arg9
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg3 main_arg4 main_arg5 main_arg6 main_arg7 main_arg8 main_arg10 main_arg11 main_arg12 main_arg13 main_arg14 main_arg15 main_arg16 main_arg17 main_arg18 main_arg19 main_arg20 main_arg21 main_arg22 main_v33

def fn {F : FTy → Type} [FloatOps F] (main_arg0 : FVec F S50000x256 .f32) (main_arg1 : FVec F S50000x256 .f32) (main_arg2 : FVec F S50000x256 .f32) (main_arg3 : IVec S2x800000 32) (main_arg4 : IVec S2x800000 32) (main_arg5 : IVec S2x800000 32) (main_arg6 : FVec F S800000 .f32) (main_arg7 : FVec F S800000 .f32) (main_arg8 : FVec F S800000 .f32) (main_arg9 : FVec F S256x64 .f32) (main_arg10 : FVec F S256x64 .f32) (main_arg11 : FVec F S256x64 .f32) (main_arg12 : FVec F S64 .f32) (main_arg13 : FVec F S64 .f32) (main_arg14 : FVec F S64 .f32) (main_arg15 : FVec F S64x1 .f32) (main_arg16 : FVec F S1 .f32) (main_arg17 : FVec F S64x32 .f32) (main_arg18 : FVec F S64x32 .f32) (main_arg19 : FVec F S64x32 .f32) (main_arg20 : FVec F S32 .f32) (main_arg21 : FVec F S32 .f32) (main_arg22 : FVec F S32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S800000 .f32 := Host.absf main_arg6
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg3 main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S64x32 : Shape := ⟨2, ![64, 32]⟩
abbrev S32 : Shape := ⟨1, ![32]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x3 : Shape := ⟨2, ![50000, 3]⟩
abbrev S1x50000x256 : Shape := ⟨3, ![1, 50000, 256]⟩
abbrev S3x50000x256 : Shape := ⟨3, ![3, 50000, 256]⟩
abbrev S1x256x64 : Shape := ⟨3, ![1, 256, 64]⟩
abbrev S3x256x64 : Shape := ⟨3, ![3, 256, 64]⟩
abbrev S3x50000x64 : Shape := ⟨3, ![3, 50000, 64]⟩
abbrev S1x2000x256 : Shape := ⟨3, ![1, 2000, 256]⟩
abbrev S1x2000x64 : Shape := ⟨3, ![1, 2000, 64]⟩
abbrev S2000x256 : Shape := ⟨2, ![2000, 256]⟩
abbrev S2000x64 : Shape := ⟨2, ![2000, 64]⟩
abbrev S1x50000x64 : Shape := ⟨3, ![1, 50000, 64]⟩
abbrev S50000x64 : Shape := ⟨2, ![50000, 64]⟩
abbrev S800000x64 : Shape := ⟨2, ![800000, 64]⟩
abbrev S1x64 : Shape := ⟨2, ![1, 64]⟩
abbrev S1x1 : Shape := ⟨2, ![1, 1]⟩
abbrev S50000x96 : Shape := ⟨2, ![50000, 96]⟩
abbrev S2000x3 : Shape := ⟨2, ![2000, 3]⟩
abbrev S2000x96 : Shape := ⟨2, ![2000, 96]⟩
abbrev S2000x1 : Shape := ⟨2, ![2000, 1]⟩
abbrev S2000x32 : Shape := ⟨2, ![2000, 32]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 274
  | .vmem => 51
  | .smem => 0
  | _ => 0

abbrev hbmTy0_0 (i : Nat) : BufTy := match i % 128 with
  | 0 => ⟨S50000x256, .f32⟩
  | 1 => ⟨S50000x256, .f32⟩
  | 2 => ⟨S50000x256, .f32⟩
  | 3 => ⟨S2x800000, .i32⟩
  | 4 => ⟨S2x800000, .i32⟩
  | 5 => ⟨S2x800000, .i32⟩
  | 6 => ⟨S800000, .f32⟩
  | 7 => ⟨S800000, .f32⟩
  | 8 => ⟨S800000, .f32⟩
  | 9 => ⟨S256x64, .f32⟩
  | 10 => ⟨S256x64, .f32⟩
  | 11 => ⟨S256x64, .f32⟩
  | 12 => ⟨S64, .f32⟩
  | 13 => ⟨S64, .f32⟩
  | 14 => ⟨S64, .f32⟩
  | 15 => ⟨S64x1, .f32⟩
  | 16 => ⟨S1, .f32⟩
  | 17 => ⟨S64x32, .f32⟩
  | 18 => ⟨S64x32, .f32⟩
  | 19 => ⟨S64x32, .f32⟩
  | 20 => ⟨S32, .f32⟩
  | 21 => ⟨S32, .f32⟩
  | 22 => ⟨S32, .f32⟩
  | 23 => ⟨S1x800000, .i32⟩
  | 24 => ⟨S800000, .i32⟩
  | 25 => ⟨S1x800000, .i32⟩
  | 26 => ⟨S800000, .i32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S1x800000, .i32⟩
  | 56 => ⟨S800000, .i32⟩
  | 57 => ⟨S1x800000, .i32⟩
  | 58 => ⟨S800000, .i32⟩
  | 59 => ⟨S_, .f32⟩
  | 60 => ⟨S50000, .f32⟩
  | 61 => ⟨S800000x1, .i32⟩
  | 62 => ⟨S50000, .f32⟩
  | 63 => ⟨S_, .f32⟩
  | 64 => ⟨S50000, .f32⟩
  | 65 => ⟨S50000, .f32⟩
  | 66 => ⟨S50000, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000, .f32⟩
  | 76 => ⟨S800000, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000, .f32⟩
  | 86 => ⟨S800000, .f32⟩
  | 87 => ⟨S1x800000, .i32⟩
  | 88 => ⟨S800000, .i32⟩
  | 89 => ⟨S1x800000, .i32⟩
  | 90 => ⟨S800000, .i32⟩
  | 91 => ⟨S_, .f32⟩
  | 92 => ⟨S50000, .f32⟩
  | 93 => ⟨S800000x1, .i32⟩
  | 94 => ⟨S50000, .f32⟩
  | 95 => ⟨S_, .f32⟩
  | 96 => ⟨S50000, .f32⟩
  | 97 => ⟨S50000, .f32⟩
  | 98 => ⟨S50000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S800000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S800000, .f32⟩
  | 119 => ⟨S50000x1, .f32⟩
  | 120 => ⟨S50000x1, .f32⟩
  | 121 => ⟨S50000x1, .f32⟩
  | 122 => ⟨S50000x3, .f32⟩
  | 123 => ⟨S1x50000x256, .f32⟩
  | 124 => ⟨S1x50000x256, .f32⟩
  | 125 => ⟨S1x50000x256, .f32⟩
  | 126 => ⟨S3x50000x256, .f32⟩
  | 127 => ⟨S1x256x64, .f32⟩
  | _ => ⟨S50000x256, .f32⟩

abbrev hbmTy0_1 (i : Nat) : BufTy := match i % 128 with
  | 0 => ⟨S1x256x64, .f32⟩
  | 1 => ⟨S1x256x64, .f32⟩
  | 2 => ⟨S3x256x64, .f32⟩
  | 3 => ⟨S3x50000x64, .f32⟩
  | 4 => ⟨S1x50000x64, .f32⟩
  | 5 => ⟨S50000x64, .f32⟩
  | 6 => ⟨S1x50000x64, .f32⟩
  | 7 => ⟨S50000x64, .f32⟩
  | 8 => ⟨S1x50000x64, .f32⟩
  | 9 => ⟨S50000x64, .f32⟩
  | 10 => ⟨S1x800000, .i32⟩
  | 11 => ⟨S800000, .i32⟩
  | 12 => ⟨S1x800000, .i32⟩
  | 13 => ⟨S800000, .i32⟩
  | 14 => ⟨S800000x1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S800000x64, .f32⟩
  | 25 => ⟨S800000x64, .f32⟩
  | 26 => ⟨S_, .f32⟩
  | 27 => ⟨S50000x64, .f32⟩
  | 28 => ⟨S800000x1, .i32⟩
  | 29 => ⟨S50000x64, .f32⟩
  | 30 => ⟨S1x800000, .i32⟩
  | 31 => ⟨S800000, .i32⟩
  | 32 => ⟨S1x800000, .i32⟩
  | 33 => ⟨S800000, .i32⟩
  | 34 => ⟨S800000x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S800000x64, .f32⟩
  | 45 => ⟨S800000x64, .f32⟩
  | 46 => ⟨S_, .f32⟩
  | 47 => ⟨S50000x64, .f32⟩
  | 48 => ⟨S800000x1, .i32⟩
  | 49 => ⟨S50000x64, .f32⟩
  | 50 => ⟨S1x800000, .i32⟩
  | 51 => ⟨S800000, .i32⟩
  | 52 => ⟨S1x800000, .i32⟩
  | 53 => ⟨S800000, .i32⟩
  | 54 => ⟨S800000x1, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x64, .f32⟩
  | 65 => ⟨S800000x64, .f32⟩
  | 66 => ⟨S_, .f32⟩
  | 67 => ⟨S50000x64, .f32⟩
  | 68 => ⟨S800000x1, .i32⟩
  | 69 => ⟨S50000x64, .f32⟩
  | 70 => ⟨S1x64, .f32⟩
  | 71 => ⟨S1x64, .f32⟩
  | 72 => ⟨S1x64, .f32⟩
  | 73 => ⟨S1x1, .f32⟩
  | 74 => ⟨S50000x3, .f32⟩
  | 75 => ⟨S50000x96, .f32⟩
  | 76 => ⟨S50000x1, .f32⟩
  | 77 => ⟨S50000x1, .f32⟩
  | 78 => ⟨S50000x1, .f32⟩
  | 79 => ⟨S50000x32, .f32⟩
  | 80 => ⟨S50000x32, .f32⟩
  | 81 => ⟨S50000x32, .f32⟩
  | 82 => ⟨S1x800000, .i32⟩
  | 83 => ⟨S800000, .i32⟩
  | 84 => ⟨S1x800000, .i32⟩
  | 85 => ⟨S800000, .i32⟩
  | 86 => ⟨S800000x1, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x32, .f32⟩
  | 96 => ⟨S800000x32, .f32⟩
  | 97 => ⟨S800000x32, .f32⟩
  | 98 => ⟨S_, .f32⟩
  | 99 => ⟨S50000x32, .f32⟩
  | 100 => ⟨S800000x1, .i32⟩
  | 101 => ⟨S50000x32, .f32⟩
  | 102 => ⟨S1x800000, .i32⟩
  | 103 => ⟨S800000, .i32⟩
  | 104 => ⟨S1x800000, .i32⟩
  | 105 => ⟨S800000, .i32⟩
  | 106 => ⟨S800000x1, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x32, .f32⟩
  | 116 => ⟨S800000x32, .f32⟩
  | 117 => ⟨S800000x32, .f32⟩
  | 118 => ⟨S_, .f32⟩
  | 119 => ⟨S50000x32, .f32⟩
  | 120 => ⟨S800000x1, .i32⟩
  | 121 => ⟨S50000x32, .f32⟩
  | 122 => ⟨S1x800000, .i32⟩
  | 123 => ⟨S800000, .i32⟩
  | 124 => ⟨S1x800000, .i32⟩
  | 125 => ⟨S800000, .i32⟩
  | 126 => ⟨S800000x1, .f32⟩
  | 127 => ⟨S_, .i32⟩
  | _ => ⟨S50000x256, .f32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x32, .f32⟩
  | 8 => ⟨S800000x32, .f32⟩
  | 9 => ⟨S800000x32, .f32⟩
  | 10 => ⟨S_, .f32⟩
  | 11 => ⟨S50000x32, .f32⟩
  | 12 => ⟨S800000x1, .i32⟩
  | 13 => ⟨S50000x32, .f32⟩
  | 14 => ⟨S1x32, .f32⟩
  | 15 => ⟨S1x32, .f32⟩
  | 16 => ⟨S1x32, .f32⟩
  | 17 => ⟨S50000x32, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S1x2000x256, .f32⟩
  | .local _ .vmem, ⟨1, _⟩ => ⟨S1x2000x256, .f32⟩
  | .local _ .vmem, ⟨2, _⟩ => ⟨S1x256x64, .f32⟩
  | .local _ .vmem, ⟨3, _⟩ => ⟨S1x256x64, .f32⟩
  | .local _ .vmem, ⟨4, _⟩ => ⟨S1x2000x64, .f32⟩
  | .local _ .vmem, ⟨5, _⟩ => ⟨S1x2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x3, .f32⟩
  | .local _ .vmem, ⟨19, _⟩ => ⟨S2000x3, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S64x1, .f32⟩
  | .local _ .vmem, ⟨24, _⟩ => ⟨S1x1, .f32⟩
  | .local _ .vmem, ⟨25, _⟩ => ⟨S64x32, .f32⟩
  | .local _ .vmem, ⟨26, _⟩ => ⟨S64x32, .f32⟩
  | .local _ .vmem, ⟨27, _⟩ => ⟨S64x32, .f32⟩
  | .local _ .vmem, ⟨28, _⟩ => ⟨S2000x3, .f32⟩
  | .local _ .vmem, ⟨29, _⟩ => ⟨S2000x3, .f32⟩
  | .local _ .vmem, ⟨30, _⟩ => ⟨S2000x96, .f32⟩
  | .local _ .vmem, ⟨31, _⟩ => ⟨S2000x96, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S2000x32, .f32⟩
  | .local _ .vmem, ⟨36, _⟩ => ⟨S2000x32, .f32⟩
  | .local _ .vmem, ⟨37, _⟩ => ⟨S2000x32, .f32⟩
  | .local _ .vmem, ⟨38, _⟩ => ⟨S2000x32, .f32⟩
  | .local _ .vmem, ⟨39, _⟩ => ⟨S2000x32, .f32⟩
  | .local _ .vmem, ⟨40, _⟩ => ⟨S2000x32, .f32⟩
  | .local _ .vmem, ⟨41, _⟩ => ⟨S2000x32, .f32⟩
  | .local _ .vmem, ⟨42, _⟩ => ⟨S2000x32, .f32⟩
  | .local _ .vmem, ⟨43, _⟩ => ⟨S2000x32, .f32⟩
  | .local _ .vmem, ⟨44, _⟩ => ⟨S2000x3, .f32⟩
  | .local _ .vmem, ⟨45, _⟩ => ⟨S2000x3, .f32⟩
  | .local _ .vmem, ⟨46, _⟩ => ⟨S1x32, .f32⟩
  | .local _ .vmem, ⟨47, _⟩ => ⟨S1x32, .f32⟩
  | .local _ .vmem, ⟨48, _⟩ => ⟨S1x32, .f32⟩
  | .local _ .vmem, ⟨49, _⟩ => ⟨S2000x32, .f32⟩
  | .local _ .vmem, ⟨50, _⟩ => ⟨S2000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c : Ref sig .tc := ⟨.hbm, 35, rfl⟩
abbrev main_v10 : Ref sig .tc := ⟨.hbm, 36, rfl⟩
abbrev main_v11 : Ref sig .tc := ⟨.hbm, 37, rfl⟩
abbrev main_c_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_6 : Ref sig .tc := ⟨.hbm, 67, rfl⟩
abbrev main_v36 : Ref sig .tc := ⟨.hbm, 68, rfl⟩
abbrev main_v37 : Ref sig .tc := ⟨.hbm, 69, rfl⟩
abbrev main_c_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_8 : Ref sig .tc := ⟨.hbm, 77, rfl⟩
abbrev main_v44 : Ref sig .tc := ⟨.hbm, 78, rfl⟩
abbrev main_v45 : Ref sig .tc := ⟨.hbm, 79, rfl⟩
abbrev main_c_9 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_10 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_12 : Ref sig .tc := ⟨.hbm, 99, rfl⟩
abbrev main_v62 : Ref sig .tc := ⟨.hbm, 100, rfl⟩
abbrev main_v63 : Ref sig .tc := ⟨.hbm, 101, rfl⟩
abbrev main_c_13 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_14 : Ref sig .tc := ⟨.hbm, 109, rfl⟩
abbrev main_v70 : Ref sig .tc := ⟨.hbm, 110, rfl⟩
abbrev main_v71 : Ref sig .tc := ⟨.hbm, 111, rfl⟩
abbrev main_c_15 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_16 : Ref sig .tc := ⟨.hbm, 143, rfl⟩
abbrev main_v102 : Ref sig .tc := ⟨.hbm, 144, rfl⟩
abbrev main_v103 : Ref sig .tc := ⟨.hbm, 145, rfl⟩
abbrev main_c_17 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_18 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_19 : Ref sig .tc := ⟨.hbm, 163, rfl⟩
abbrev main_v119 : Ref sig .tc := ⟨.hbm, 164, rfl⟩
abbrev main_v120 : Ref sig .tc := ⟨.hbm, 165, rfl⟩
abbrev main_c_20 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_21 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_22 : Ref sig .tc := ⟨.hbm, 183, rfl⟩
abbrev main_v136 : Ref sig .tc := ⟨.hbm, 184, rfl⟩
abbrev main_v137 : Ref sig .tc := ⟨.hbm, 185, rfl⟩
abbrev main_c_23 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_24 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152_0 : Ref sig .tc := ⟨.hbm, 202, rfl⟩
abbrev main_v152_1 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_c_25 : Ref sig .tc := ⟨.hbm, 215, rfl⟩
abbrev main_v164 : Ref sig .tc := ⟨.hbm, 216, rfl⟩
abbrev main_v165 : Ref sig .tc := ⟨.hbm, 217, rfl⟩
abbrev main_c_26 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_27 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_c_28 : Ref sig .tc := ⟨.hbm, 235, rfl⟩
abbrev main_v181 : Ref sig .tc := ⟨.hbm, 236, rfl⟩
abbrev main_v182 : Ref sig .tc := ⟨.hbm, 237, rfl⟩
abbrev main_c_29 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_cst_30 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_c_31 : Ref sig .tc := ⟨.hbm, 255, rfl⟩
abbrev main_v198 : Ref sig .tc := ⟨.hbm, 256, rfl⟩
abbrev main_v199 : Ref sig .tc := ⟨.hbm, 257, rfl⟩
abbrev main_c_32 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_cst_33 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg15_0 : Ref sig .tc := ⟨.vmem, 28, rfl⟩
abbrev cc1_stg15_1 : Ref sig .tc := ⟨.vmem, 29, rfl⟩
abbrev cc1_stg16_0 : Ref sig .tc := ⟨.vmem, 30, rfl⟩
abbrev cc1_stg16_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg10_0 : Ref sig .tc := ⟨.vmem, 49, rfl⟩
abbrev cc2_stg10_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem15_1 : DmaSem sig := 29
abbrev cc1_sem16_0 : DmaSem sig := 30
abbrev cc1_sem16_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem8_0 : DmaSem sig := 47
abbrev cc2_sem9_0 : DmaSem sig := 48
abbrev cc2_sem10_0 : DmaSem sig := 49
abbrev cc2_sem10_1 : DmaSem sig := 50

abbrev nD : Nat := 1
abbrev τ : Topo := Topo.v7x

variable {F : FTy → Type} [FloatOps F]

abbrev grid0 : Pipeline.Grid := ⟨2, ![3, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x32 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x32 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S64x32 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2000x3 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S2000x96 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x3 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S50000_S50000x1_0 : S50000.BroadcastsInDim S50000x1 (![0] : Fin 1 → Fin S50000x1.rank)
  concatenates_S50000x1_S50000x1_S50000x1_S50000x3_d1 : Shape.Concatenates [S50000x1, S50000x1, S50000x1] S50000x3 1
  bcast_S50000x256_S1x50000x256_1_2 : S50000x256.BroadcastsInDim S1x50000x256 (![1, 2] : Fin 2 → Fin S1x50000x256.rank)
  concatenates_S1x50000x256_S1x50000x256_S1x50000x256_S3x50000x256_d0 : Shape.Concatenates [S1x50000x256, S1x50000x256, S1x50000x256] S3x50000x256 0
  bcast_S256x64_S1x256x64_1_2 : S256x64.BroadcastsInDim S1x256x64 (![1, 2] : Fin 2 → Fin S1x256x64.rank)
  concatenates_S1x256x64_S1x256x64_S1x256x64_S3x256x64_d0 : Shape.Concatenates [S1x256x64, S1x256x64, S1x256x64] S3x256x64 0
  inb_S1x2000x256_S1x2000x256_0_0_0 : ∀ a, (![0, 0, 0] : Fin 3 → Nat) a + S1x2000x256.size a ≤ S1x2000x256.size a
  h_S1x2000x256 : 0 < S1x2000x256.numel
  shapeCasts_S1x2000x256_S2000x256 : S1x2000x256.ShapeCasts S2000x256
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2000x64_S1x2000x64_0_0_0 : ∀ a, (![0, 0, 0] : Fin 3 → Nat) a + S1x2000x64.size a ≤ S1x2000x64.size a
  h_S1x2000x64 : 0 < S1x2000x64.numel
  shapeCasts_S1x2000x64_S2000x64 : S1x2000x64.ShapeCasts S2000x64
  shapeCasts_S2000x64_S1x2000x64 : S2000x64.ShapeCasts S1x2000x64
  slices_S3x50000x64_S1x50000x64_0_0_0 : S3x50000x64.Slices ![0, 0, 0] S1x50000x64
  shapeCasts_S1x50000x64_S50000x64 : S1x50000x64.ShapeCasts S50000x64
  slices_S3x50000x64_S1x50000x64_1_0_0 : S3x50000x64.Slices ![1, 0, 0] S1x50000x64
  slices_S3x50000x64_S1x50000x64_2_0_0 : S3x50000x64.Slices ![2, 0, 0] S1x50000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S1_S1x1 : S1.ShapeCasts S1x1
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  concatenates_S2000x1_S2000x1_S2000x1_S2000x3_d1 : Shape.Concatenates [S2000x1, S2000x1, S2000x1] S2000x3 1
  inb_S64x32_S64x32_0_0 : ∀ a, (![0, 0] : Fin 2 → Nat) a + S64x32.size a ≤ S64x32.size a
  h_S64x32 : 0 < S64x32.numel
  concatenates_S2000x32_S2000x32_S2000x32_S2000x96_d1 : Shape.Concatenates [S2000x32, S2000x32, S2000x32] S2000x96 1
  inb_S2000x96_S2000x96_0_0 : ∀ a, (![0, 0] : Fin 2 → Nat) a + S2000x96.size a ≤ S2000x96.size a
  h_S2000x96 : 0 < S2000x96.numel
  slices_S50000x3_S50000x1_0_0 : S50000x3.Slices ![0, 0] S50000x1
  slices_S50000x3_S50000x1_0_1 : S50000x3.Slices ![0, 1] S50000x1
  slices_S50000x3_S50000x1_0_2 : S50000x3.Slices ![0, 2] S50000x1
  slices_S50000x96_S50000x32_0_0 : S50000x96.Slices ![0, 0] S50000x32
  slices_S50000x96_S50000x32_0_32 : S50000x96.Slices ![0, 32] S50000x32
  slices_S50000x96_S50000x32_0_64 : S50000x96.Slices ![0, 64] S50000x32
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  shapeCasts_S32_S1x32 : S32.ShapeCasts S1x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x1_S2000x1_1_0_0_1_n_n_wf : DotDims.WF S2000x64 S64x1 S2000x1 [1] [0] [0] [1] [] []
  dot_S2000x64_S64x32_S2000x32_1_0_0_1_n_n_wf : DotDims.WF S2000x64 S64x32 S2000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x256.size a ≤ S3x50000x256.size a
  hwx0_0 : ∀ i : grid0.Coords, EltTy.bits .f32 = 32 ∨ (Rect.block (s := S3x50000x256) S1x2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S3x256x64.size a
  hwx0_1 : ∀ i : grid0.Coords, EltTy.bits .f32 = 32 ∨ (Rect.block (s := S3x256x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x64.size a ≤ S3x50000x64.size a
  hwx0_2 : ∀ i : grid0.Coords, EltTy.bits .f32 = 32 ∨ (Rect.block (s := S3x50000x64) S1x2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x3.size a ≤ S50000x3.size a
  hwx1_6 : ∀ i : grid1.Coords, EltTy.bits .f32 = 32 ∨ (Rect.block (s := S50000x3) S2000x3.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x1.size a ≤ S64x1.size a
  hwx1_10 : ∀ i : grid1.Coords, EltTy.bits .f32 = 32 ∨ (Rect.block (s := S64x1) S64x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x32.size a ≤ S64x32.size a
  hwx1_12 : ∀ i : grid1.Coords, EltTy.bits .f32 = 32 ∨ (Rect.block (s := S64x32) S64x32.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64x32.size a ≤ S64x32.size a
  hwx1_13 : ∀ i : grid1.Coords, EltTy.bits .f32 = 32 ∨ (Rect.block (s := S64x32) S64x32.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S64x32.size a ≤ S64x32.size a
  hwx1_14 : ∀ i : grid1.Coords, EltTy.bits .f32 = 32 ∨ (Rect.block (s := S64x32) S64x32.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x3.size a ≤ S50000x3.size a
  hwx1_15 : ∀ i : grid1.Coords, EltTy.bits .f32 = 32 ∨ (Rect.block (s := S50000x3) S2000x3.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S2000x96.size a ≤ S50000x96.size a
  hwx1_16 : ∀ i : grid1.Coords, EltTy.bits .f32 = 32 ∨ (Rect.block (s := S50000x96) S2000x96.size (cc1_transform_16 i) (hinb1_16 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S50000x32.size a
  hwx2_0 : ∀ i : grid2.Coords, EltTy.bits .f32 = 32 ∨ (Rect.block (s := S50000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S50000x32.size a
  hwx2_1 : ∀ i : grid2.Coords, EltTy.bits .f32 = 32 ∨ (Rect.block (s := S50000x32) S2000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S50000x32.size a
  hwx2_2 : ∀ i : grid2.Coords, EltTy.bits .f32 = 32 ∨ (Rect.block (s := S50000x32) S2000x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S50000x32.size a
  hwx2_3 : ∀ i : grid2.Coords, EltTy.bits .f32 = 32 ∨ (Rect.block (s := S50000x32) S2000x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x32.size a ≤ S50000x32.size a
  hwx2_4 : ∀ i : grid2.Coords, EltTy.bits .f32 = 32 ∨ (Rect.block (s := S50000x32) S2000x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x32.size a ≤ S50000x32.size a
  hwx2_5 : ∀ i : grid2.Coords, EltTy.bits .f32 = 32 ∨ (Rect.block (s := S50000x32) S2000x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x3.size a ≤ S50000x3.size a
  hwx2_6 : ∀ i : grid2.Coords, EltTy.bits .f32 = 32 ∨ (Rect.block (s := S50000x3) S2000x3.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x32.size a ≤ S50000x32.size a
  hwx2_10 : ∀ i : grid2.Coords, EltTy.bits .f32 = 32 ∨ (Rect.block (s := S50000x32) S2000x32.size (cc2_transform_10 i) (hinb2_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_v85) S1x2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v89) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v90) S1x2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v113) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v92) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v130) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v94) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v147) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v96) S2000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v81) S2000x3.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v148) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v149) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v150) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg15) S64x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v151) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg17) S64x32.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg18) S64x32.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg19) S64x32.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v152_0) S2000x3.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v152_1) S2000x96.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev win2_0 : Pipeline.Window sig grid2 :=
  Pipeline.Window.ofSpec (Memref.whole main_v175) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v156) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v192) S2000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v157) S2000x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v209) S2000x32.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v158) S2000x32.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v81) S2000x3.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v210) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v211) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v212) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v213) S2000x32.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S64x32 : Shape := ⟨2, ![64, 32]⟩
abbrev S32 : Shape := ⟨1, ![32]⟩
abbrev S50000x64 : Shape := ⟨2, ![50000, 64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S1x1 : Shape := ⟨2, ![1, 1]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 428
  | .vmem => 0
  | .smem => 0
  | _ => 0

abbrev hbmTy0_0 (i : Nat) : BufTy := match i % 128 with
  | 0 => ⟨S50000x256, .f32⟩
  | 1 => ⟨S50000x256, .f32⟩
  | 2 => ⟨S50000x256, .f32⟩
  | 3 => ⟨S2x800000, .i32⟩
  | 4 => ⟨S2x800000, .i32⟩
  | 5 => ⟨S2x800000, .i32⟩
  | 6 => ⟨S800000, .f32⟩
  | 7 => ⟨S800000, .f32⟩
  | 8 => ⟨S800000, .f32⟩
  | 9 => ⟨S256x64, .f32⟩
  | 10 => ⟨S256x64, .f32⟩
  | 11 => ⟨S256x64, .f32⟩
  | 12 => ⟨S64, .f32⟩
  | 13 => ⟨S64, .f32⟩
  | 14 => ⟨S64, .f32⟩
  | 15 => ⟨S64x1, .f32⟩
  | 16 => ⟨S1, .f32⟩
  | 17 => ⟨S64x32, .f32⟩
  | 18 => ⟨S64x32, .f32⟩
  | 19 => ⟨S64x32, .f32⟩
  | 20 => ⟨S32, .f32⟩
  | 21 => ⟨S32, .f32⟩
  | 22 => ⟨S32, .f32⟩
  | 23 => ⟨S50000x64, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S800000x1, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S800000x64, .f32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S50000, .f32⟩
  | 73 => ⟨S50000x1, .f32⟩
  | 74 => ⟨S50000x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S50000x64, .f32⟩
  | 84 => ⟨S1x800000, .i32⟩
  | 85 => ⟨S800000, .i32⟩
  | 86 => ⟨S1x800000, .i32⟩
  | 87 => ⟨S800000, .i32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .f32⟩
  | 95 => ⟨S50000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000, .f32⟩
  | 105 => ⟨S800000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000, .f32⟩
  | 115 => ⟨S800000, .f32⟩
  | 116 => ⟨S800000x1, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S800000x64, .f32⟩
  | 127 => ⟨S800000x64, .f32⟩
  | _ => ⟨S50000x256, .f32⟩

abbrev hbmTy0_1 (i : Nat) : BufTy := match i % 128 with
  | 0 => ⟨S_, .f32⟩
  | 1 => ⟨S50000x64, .f32⟩
  | 2 => ⟨S800000x1, .i32⟩
  | 3 => ⟨S50000x64, .f32⟩
  | 4 => ⟨S50000, .f32⟩
  | 5 => ⟨S50000x1, .f32⟩
  | 6 => ⟨S50000x64, .f32⟩
  | 7 => ⟨S50000x64, .f32⟩
  | 8 => ⟨S50000x64, .f32⟩
  | 9 => ⟨S1x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S50000x64, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000, .f32⟩
  | 65 => ⟨S50000x1, .f32⟩
  | 66 => ⟨S50000x64, .f32⟩
  | 67 => ⟨S50000x64, .f32⟩
  | 68 => ⟨S50000x64, .f32⟩
  | 69 => ⟨S1x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S50000x1, .f32⟩
  | 76 => ⟨S1x1, .f32⟩
  | 77 => ⟨S50000x1, .f32⟩
  | 78 => ⟨S50000x1, .f32⟩
  | 79 => ⟨S_, .f32⟩
  | 80 => ⟨S_, .f32⟩
  | 81 => ⟨S50000x1, .f32⟩
  | 82 => ⟨S50000x1, .i1⟩
  | 83 => ⟨S_, .f32⟩
  | 84 => ⟨S50000x1, .f32⟩
  | 85 => ⟨S50000x1, .f32⟩
  | 86 => ⟨S50000x1, .f32⟩
  | 87 => ⟨S50000x1, .f32⟩
  | 88 => ⟨S50000x1, .f32⟩
  | 89 => ⟨S1x1, .f32⟩
  | 90 => ⟨S50000x1, .f32⟩
  | 91 => ⟨S50000x1, .f32⟩
  | 92 => ⟨S_, .f32⟩
  | 93 => ⟨S_, .f32⟩
  | 94 => ⟨S50000x1, .f32⟩
  | 95 => ⟨S50000x1, .i1⟩
  | 96 => ⟨S_, .f32⟩
  | 97 => ⟨S50000x1, .f32⟩
  | 98 => ⟨S50000x1, .f32⟩
  | 99 => ⟨S50000x1, .f32⟩
  | 100 => ⟨S50000x1, .f32⟩
  | 101 => ⟨S50000x1, .f32⟩
  | 102 => ⟨S1x1, .f32⟩
  | 103 => ⟨S50000x1, .f32⟩
  | 104 => ⟨S50000x1, .f32⟩
  | 105 => ⟨S_, .f32⟩
  | 106 => ⟨S_, .f32⟩
  | 107 => ⟨S50000x1, .f32⟩
  | 108 => ⟨S50000x1, .i1⟩
  | 109 => ⟨S_, .f32⟩
  | 110 => ⟨S50000x1, .f32⟩
  | 111 => ⟨S50000x1, .f32⟩
  | 112 => ⟨S50000x1, .f32⟩
  | 113 => ⟨S50000x1, .f32⟩
  | 114 => ⟨S50000x1, .f32⟩
  | 115 => ⟨S50000x1, .f32⟩
  | 116 => ⟨S50000x1, .f32⟩
  | 117 => ⟨S50000x1, .f32⟩
  | 118 => ⟨S50000x1, .f32⟩
  | 119 => ⟨S50000x64, .f32⟩
  | 120 => ⟨S50000x64, .f32⟩
  | 121 => ⟨S50000x64, .f32⟩
  | 122 => ⟨S50000x64, .f32⟩
  | 123 => ⟨S50000x64, .f32⟩
  | 124 => ⟨S50000x64, .f32⟩
  | 125 => ⟨S50000x64, .f32⟩
  | 126 => ⟨S50000x64, .f32⟩
  | 127 => ⟨S50000x32, .f32⟩
  | _ => ⟨S50000x256, .f32⟩

abbrev hbmTy0_2 (i : Nat) : BufTy := match i % 128 with
  | 0 => ⟨S1x800000, .i32⟩
  | 1 => ⟨S800000, .i32⟩
  | 2 => ⟨S1x800000, .i32⟩
  | 3 => ⟨S800000, .i32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S50000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S800000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S800000, .f32⟩
  | 32 => ⟨S800000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x32, .f32⟩
  | 42 => ⟨S800000x32, .f32⟩
  | 43 => ⟨S800000x32, .f32⟩
  | 44 => ⟨S_, .f32⟩
  | 45 => ⟨S50000x32, .f32⟩
  | 46 => ⟨S800000x1, .i32⟩
  | 47 => ⟨S50000x32, .f32⟩
  | 48 => ⟨S50000, .f32⟩
  | 49 => ⟨S50000x1, .f32⟩
  | 50 => ⟨S50000x32, .f32⟩
  | 51 => ⟨S50000x32, .f32⟩
  | 52 => ⟨S50000x32, .f32⟩
  | 53 => ⟨S1x32, .f32⟩
  | 54 => ⟨S50000x32, .f32⟩
  | 55 => ⟨S50000x32, .f32⟩
  | 56 => ⟨S50000x32, .f32⟩
  | 57 => ⟨S1x800000, .i32⟩
  | 58 => ⟨S800000, .i32⟩
  | 59 => ⟨S1x800000, .i32⟩
  | 60 => ⟨S800000, .i32⟩
  | 61 => ⟨S_, .f32⟩
  | 62 => ⟨S50000, .f32⟩
  | 63 => ⟨S800000x1, .i32⟩
  | 64 => ⟨S50000, .f32⟩
  | 65 => ⟨S_, .f32⟩
  | 66 => ⟨S50000, .f32⟩
  | 67 => ⟨S50000, .f32⟩
  | 68 => ⟨S50000, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000, .f32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S800000x1, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x32, .f32⟩
  | 99 => ⟨S800000x32, .f32⟩
  | 100 => ⟨S800000x32, .f32⟩
  | 101 => ⟨S_, .f32⟩
  | 102 => ⟨S50000x32, .f32⟩
  | 103 => ⟨S800000x1, .i32⟩
  | 104 => ⟨S50000x32, .f32⟩
  | 105 => ⟨S50000, .f32⟩
  | 106 => ⟨S50000x1, .f32⟩
  | 107 => ⟨S50000x32, .f32⟩
  | 108 => ⟨S50000x32, .f32⟩
  | 109 => ⟨S50000x32, .f32⟩
  | 110 => ⟨S1x32, .f32⟩
  | 111 => ⟨S50000x32, .f32⟩
  | 112 => ⟨S50000x32, .f32⟩
  | 113 => ⟨S50000x32, .f32⟩
  | 114 => ⟨S1x800000, .i32⟩
  | 115 => ⟨S800000, .i32⟩
  | 116 => ⟨S1x800000, .i32⟩
  | 117 => ⟨S800000, .i32⟩
  | 118 => ⟨S_, .f32⟩
  | 119 => ⟨S50000, .f32⟩
  | 120 => ⟨S800000x1, .i32⟩
  | 121 => ⟨S50000, .f32⟩
  | 122 => ⟨S_, .f32⟩
  | 123 => ⟨S50000, .f32⟩
  | 124 => ⟨S50000, .f32⟩
  | 125 => ⟨S50000, .f32⟩
  | 126 => ⟨S_, .i32⟩
  | 127 => ⟨S800000, .i32⟩
  | _ => ⟨S50000x256, .f32⟩

abbrev hbmTy0_3 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S800000, .f32⟩
  | 18 => ⟨S800000x1, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x32, .f32⟩
  | 28 => ⟨S800000x32, .f32⟩
  | 29 => ⟨S800000x32, .f32⟩
  | 30 => ⟨S_, .f32⟩
  | 31 => ⟨S50000x32, .f32⟩
  | 32 => ⟨S800000x1, .i32⟩
  | 33 => ⟨S50000x32, .f32⟩
  | 34 => ⟨S50000, .f32⟩
  | 35 => ⟨S50000x1, .f32⟩
  | 36 => ⟨S50000x32, .f32⟩
  | 37 => ⟨S50000x32, .f32⟩
  | 38 => ⟨S50000x32, .f32⟩
  | 39 => ⟨S1x32, .f32⟩
  | 40 => ⟨S50000x32, .f32⟩
  | 41 => ⟨S50000x32, .f32⟩
  | 42 => ⟨S50000x32, .f32⟩
  | 43 => ⟨S50000x32, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c : Ref sig .tc := ⟨.hbm, 36, rfl⟩
abbrev main_v11 : Ref sig .tc := ⟨.hbm, 37, rfl⟩
abbrev main_v12 : Ref sig .tc := ⟨.hbm, 38, rfl⟩
abbrev main_c_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_c_3 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_4 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_6 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call0_cst : Ref sig .tc := ⟨.hbm, 80, rfl⟩
abbrev main_call0_v0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_7 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_8 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_9 : Ref sig .tc := ⟨.hbm, 96, rfl⟩
abbrev main_v60 : Ref sig .tc := ⟨.hbm, 97, rfl⟩
abbrev main_v61 : Ref sig .tc := ⟨.hbm, 98, rfl⟩
abbrev main_c_10 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_11 : Ref sig .tc := ⟨.hbm, 106, rfl⟩
abbrev main_v68 : Ref sig .tc := ⟨.hbm, 107, rfl⟩
abbrev main_v69 : Ref sig .tc := ⟨.hbm, 108, rfl⟩
abbrev main_c_12 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_13 : Ref sig .tc := ⟨.hbm, 117, rfl⟩
abbrev main_v77 : Ref sig .tc := ⟨.hbm, 118, rfl⟩
abbrev main_v78 : Ref sig .tc := ⟨.hbm, 119, rfl⟩
abbrev main_c_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_15 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_call1_cst : Ref sig .tc := ⟨.hbm, 140, rfl⟩
abbrev main_call1_v0 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_16 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_17 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_c_18 : Ref sig .tc := ⟨.hbm, 156, rfl⟩
abbrev main_v109 : Ref sig .tc := ⟨.hbm, 157, rfl⟩
abbrev main_v110 : Ref sig .tc := ⟨.hbm, 158, rfl⟩
abbrev main_c_19 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_c_20 : Ref sig .tc := ⟨.hbm, 166, rfl⟩
abbrev main_v117 : Ref sig .tc := ⟨.hbm, 167, rfl⟩
abbrev main_v118 : Ref sig .tc := ⟨.hbm, 168, rfl⟩
abbrev main_c_21 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_c_22 : Ref sig .tc := ⟨.hbm, 177, rfl⟩
abbrev main_v126 : Ref sig .tc := ⟨.hbm, 178, rfl⟩
abbrev main_v127 : Ref sig .tc := ⟨.hbm, 179, rfl⟩
abbrev main_c_23 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_24 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_call2_cst : Ref sig .tc := ⟨.hbm, 200, rfl⟩
abbrev main_call2_v0 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_25 : Ref sig .tc := ⟨.hbm, 207, rfl⟩
abbrev main_call3_cst : Ref sig .tc := ⟨.hbm, 208, rfl⟩
abbrev main_call3_v0 : Ref sig .tc := ⟨.hbm, 209, rfl⟩
abbrev main_call3_v1 : Ref sig .tc := ⟨.hbm, 210, rfl⟩
abbrev main_call3_v2 : Ref sig .tc := ⟨.hbm, 211, rfl⟩
abbrev main_call3_v3 : Ref sig .tc := ⟨.hbm, 212, rfl⟩
abbrev main_call3_v4 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_cst_26 : Ref sig .tc := ⟨.hbm, 220, rfl⟩
abbrev main_call4_cst : Ref sig .tc := ⟨.hbm, 221, rfl⟩
abbrev main_call4_v0 : Ref sig .tc := ⟨.hbm, 222, rfl⟩
abbrev main_call4_v1 : Ref sig .tc := ⟨.hbm, 223, rfl⟩
abbrev main_call4_v2 : Ref sig .tc := ⟨.hbm, 224, rfl⟩
abbrev main_call4_v3 : Ref sig .tc := ⟨.hbm, 225, rfl⟩
abbrev main_call4_v4 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_cst_27 : Ref sig .tc := ⟨.hbm, 233, rfl⟩
abbrev main_call5_cst : Ref sig .tc := ⟨.hbm, 234, rfl⟩
abbrev main_call5_v0 : Ref sig .tc := ⟨.hbm, 235, rfl⟩
abbrev main_call5_v1 : Ref sig .tc := ⟨.hbm, 236, rfl⟩
abbrev main_call5_v2 : Ref sig .tc := ⟨.hbm, 237, rfl⟩
abbrev main_call5_v3 : Ref sig .tc := ⟨.hbm, 238, rfl⟩
abbrev main_call5_v4 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_cst_28 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_cst_29 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_c_30 : Ref sig .tc := ⟨.hbm, 268, rfl⟩
abbrev main_v189 : Ref sig .tc := ⟨.hbm, 269, rfl⟩
abbrev main_v190 : Ref sig .tc := ⟨.hbm, 270, rfl⟩
abbrev main_c_31 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_c_32 : Ref sig .tc := ⟨.hbm, 278, rfl⟩
abbrev main_v197 : Ref sig .tc := ⟨.hbm, 279, rfl⟩
abbrev main_v198 : Ref sig .tc := ⟨.hbm, 280, rfl⟩
abbrev main_c_33 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_c_34 : Ref sig .tc := ⟨.hbm, 289, rfl⟩
abbrev main_v206 : Ref sig .tc := ⟨.hbm, 290, rfl⟩
abbrev main_v207 : Ref sig .tc := ⟨.hbm, 291, rfl⟩
abbrev main_c_35 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_cst_36 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_cst_37 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_cst_38 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_c_39 : Ref sig .tc := ⟨.hbm, 325, rfl⟩
abbrev main_v237 : Ref sig .tc := ⟨.hbm, 326, rfl⟩
abbrev main_v238 : Ref sig .tc := ⟨.hbm, 327, rfl⟩
abbrev main_c_40 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_c_41 : Ref sig .tc := ⟨.hbm, 335, rfl⟩
abbrev main_v245 : Ref sig .tc := ⟨.hbm, 336, rfl⟩
abbrev main_v246 : Ref sig .tc := ⟨.hbm, 337, rfl⟩
abbrev main_c_42 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_c_43 : Ref sig .tc := ⟨.hbm, 346, rfl⟩
abbrev main_v254 : Ref sig .tc := ⟨.hbm, 347, rfl⟩
abbrev main_v255 : Ref sig .tc := ⟨.hbm, 348, rfl⟩
abbrev main_c_44 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_v261 : Ref sig .tc := ⟨.hbm, 355, rfl⟩
abbrev main_v262 : Ref sig .tc := ⟨.hbm, 356, rfl⟩
abbrev main_cst_45 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_v267 : Ref sig .tc := ⟨.hbm, 362, rfl⟩
abbrev main_v268 : Ref sig .tc := ⟨.hbm, 363, rfl⟩
abbrev main_v269 : Ref sig .tc := ⟨.hbm, 364, rfl⟩
abbrev main_v270 : Ref sig .tc := ⟨.hbm, 365, rfl⟩
abbrev main_v271 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_v278 : Ref sig .tc := ⟨.hbm, 373, rfl⟩
abbrev main_cst_46 : Ref sig .tc := ⟨.hbm, 374, rfl⟩
abbrev main_v279 : Ref sig .tc := ⟨.hbm, 375, rfl⟩
abbrev main_v280 : Ref sig .tc := ⟨.hbm, 376, rfl⟩
abbrev main_v281 : Ref sig .tc := ⟨.hbm, 377, rfl⟩
abbrev main_cst_47 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_c_48 : Ref sig .tc := ⟨.hbm, 382, rfl⟩
abbrev main_v285 : Ref sig .tc := ⟨.hbm, 383, rfl⟩
abbrev main_v286 : Ref sig .tc := ⟨.hbm, 384, rfl⟩
abbrev main_c_49 : Ref sig .tc := ⟨.hbm, 385, rfl⟩
abbrev main_v287 : Ref sig .tc := ⟨.hbm, 386, rfl⟩
abbrev main_v288 : Ref sig .tc := ⟨.hbm, 387, rfl⟩
abbrev main_v289 : Ref sig .tc := ⟨.hbm, 388, rfl⟩
abbrev main_v290 : Ref sig .tc := ⟨.hbm, 389, rfl⟩
abbrev main_v291 : Ref sig .tc := ⟨.hbm, 390, rfl⟩
abbrev main_v292 : Ref sig .tc := ⟨.hbm, 391, rfl⟩
abbrev main_c_50 : Ref sig .tc := ⟨.hbm, 392, rfl⟩
abbrev main_v293 : Ref sig .tc := ⟨.hbm, 393, rfl⟩
abbrev main_v294 : Ref sig .tc := ⟨.hbm, 394, rfl⟩
abbrev main_c_51 : Ref sig .tc := ⟨.hbm, 395, rfl⟩
abbrev main_v295 : Ref sig .tc := ⟨.hbm, 396, rfl⟩
abbrev main_v296 : Ref sig .tc := ⟨.hbm, 397, rfl⟩
abbrev main_v297 : Ref sig .tc := ⟨.hbm, 398, rfl⟩
abbrev main_v298 : Ref sig .tc := ⟨.hbm, 399, rfl⟩
abbrev main_v299 : Ref sig .tc := ⟨.hbm, 400, rfl⟩
abbrev main_v300 : Ref sig .tc := ⟨.hbm, 401, rfl⟩
abbrev main_v301 : Ref sig .tc := ⟨.hbm, 402, rfl⟩
abbrev main_c_52 : Ref sig .tc := ⟨.hbm, 403, rfl⟩
abbrev main_v302 : Ref sig .tc := ⟨.hbm, 404, rfl⟩
abbrev main_v303 : Ref sig .tc := ⟨.hbm, 405, rfl⟩
abbrev main_c_53 : Ref sig .tc := ⟨.hbm, 406, rfl⟩
abbrev main_v304 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev main_v308 : Ref sig .tc := ⟨.hbm, 411, rfl⟩
abbrev main_v309 : Ref sig .tc := ⟨.hbm, 412, rfl⟩
abbrev main_v310 : Ref sig .tc := ⟨.hbm, 413, rfl⟩
abbrev main_cst_54 : Ref sig .tc := ⟨.hbm, 414, rfl⟩
abbrev main_v311 : Ref sig .tc := ⟨.hbm, 415, rfl⟩
abbrev main_v312 : Ref sig .tc := ⟨.hbm, 416, rfl⟩
abbrev main_v313 : Ref sig .tc := ⟨.hbm, 417, rfl⟩
abbrev main_v314 : Ref sig .tc := ⟨.hbm, 418, rfl⟩
abbrev main_v315 : Ref sig .tc := ⟨.hbm, 419, rfl⟩
abbrev main_v316 : Ref sig .tc := ⟨.hbm, 420, rfl⟩
abbrev main_v317 : Ref sig .tc := ⟨.hbm, 421, rfl⟩
abbrev main_v318 : Ref sig .tc := ⟨.hbm, 422, rfl⟩
abbrev main_v319 : Ref sig .tc := ⟨.hbm, 423, rfl⟩
abbrev main_v320 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x256_S256x64_S50000x64_1_0_0_1_n_n_wf : DotDims.WF S50000x256 S256x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x1_S50000x1_1_0_0_1_n_n_wf : DotDims.WF S50000x64 S64x1 S50000x1 [1] [0] [0] [1] [] []
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.KI.R0.lean ====
import proofs.«145333_j32066225832361_2_alg».proof.Proof.Gen.KernelIdeal.Launch
import proofs.«145333_j32066225832361_2_alg».proof.Proof.Gen.KernelIdeal.Skeleton
import proofs.«145333_j32066225832361_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1x2000x256 := Rect.unit (s := S1x2000x256) ![0, 0, 0] S1x2000x256.size inb_S1x2000x256_S1x2000x256_0_0_0
abbrev r0_w : Rect S1x256x64 := Rect.unit (s := S1x256x64) ![0, 0, 0] S1x256x64.size inb_S1x256x64_S1x256x64_0_0_0
abbrev r0_o : Rect S1x2000x64 := Rect.unit (s := S1x2000x64) ![0, 0, 0] S1x2000x64.size inb_S1x2000x64_S1x2000x64_0_0_0

def out0_2 (x0 : Vec F S1x2000x256 .f32) (x1 : Vec F S1x256x64 .f32) : Vec F S1x2000x64 .f32 :=
  View.canon [⟨r0_o, k0_pay1 (View.ld x0 r0_x) (View.ld x1 r0_w)⟩]

set_option maxHeartbeats 1000000 in

theorem sound_kernel0 (c : Dev nD) (E : Set ℕ) (i : grid0.Coords)
    (arg0 : Memref sig .tc .vmem S1x2000x256 .f32) (harg0 : arg0.IsWhole)
    (arg1 : Memref sig .tc .vmem S1x256x64 .f32) (harg1 : arg1.IsWhole)
    (arg2 : Memref sig .tc .vmem S1x2000x64 .f32) (harg2 : arg2.IsWhole)
    (x0 : Vec F S1x2000x256 .f32) (x1 : Vec F S1x256x64 .f32) (K : PUnit → sProp 𝕄) :
    iprop(owns c.tc arg0 fullShare x0 ∗ owns c.tc arg1 fullShare x1
        ∗ (∃ d, owns c.tc arg2 fullShare d)
        ∗ (iprop(owns c.tc arg0 fullShare x0 ∗ owns c.tc arg1 fullShare x1
            ∗ owns c.tc arg2 fullShare (out0_2 x0 x1)) -∗ K ⟨⟩))
      ⊢ wp frame (wpE (defs₀ (F := F)) Variants.none c none) E (cc0__stacked_matmul_kernel i arg0 harg0 arg1 harg1 arg2 harg2) K := by
  simp only [cc0__stacked_matmul_kernel_eq_skeleton]; unfold cc0__stacked_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1x2000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem before0 (c : Dev nD) (w : Fin 3) (hw : w ≠ 2) (t : Fin cfg0.N) (d) : (dat0 V c).before w t d = (dat0 V c).after w t := by
  fin_cases w <;> first
    | exact absurd rfl hw
    | exact (Dat.before_in_eq_fetched _ _ rfl (fun _ => rfl) (fun _ _ _ => rfl) (fun _ => by dsimp only [dat0, Dat.blockOf, iblk0]) t d).trans rfl

theorem body_obligation0 (c : Dev nD) : BodyObligation (dat0 (F := F) V c) (defs₀ (F := F)) Variants.none () Set.univ := fun t => by
  rw [bigSep_W0, bigSep_W0]
  change _ ⊢ wp _ _ _ (bodyAt0 t) _
  simp (config := {decide := true}) only [before0]
  rw [show (dat0 V c).Φ t.succ = (dat0 V c).Φ t.castSucc from rfl,
    show (dat0 V c).owesAt () t.succ = (dat0 V c).owesAt () t.castSucc from rfl,
    show (dat0 V c).after 2 t = out0_2 ((dat0 V c).after 0 t) ((dat0 V c).after 1 t) by dsimp only [dat0]]
  iintro ⟨HΦ, Ho, ⟨%d0, H0⟩, ⟨%d1, H1⟩, ⟨%d2, H2⟩⟩
  iapply (sound_kernel0 c Set.univ _ _ _ _ _ _ _ ((dat0 V c).after 0 t) ((dat0 V c).after 1 t) _)
  isplitl [H0]; · iexact H0
  isplitl [H1]; · iexact H1
  isplitl [H2]; · iexists _; iexact H2
  iintro H
  isplitl [HΦ]; · iexact HΦ
  isplitl [Ho]; · iexact Ho
  iexact H

end Cert.KernelIdeal.Hand

end
-- ==== Proof.KI.R1.lean ====
import proofs.«145333_j32066225832361_2_alg».proof.Proof.Gen.KernelIdeal.Launch
import proofs.«145333_j32066225832361_2_alg».proof.Proof.Gen.KernelIdeal.Skeleton
import proofs.«145333_j32066225832361_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_n : Rect S2000x64 := Rect.unit (s := S2000x64) ![0, 0] S2000x64.size inb_S2000x64_S2000x64_0_0
abbrev r1_d : Rect S2000x3 := Rect.unit (s := S2000x3) ![0, 0] S2000x3.size inb_S2000x3_S2000x3_0_0
abbrev r1_b : Rect S1x64 := Rect.unit (s := S1x64) ![0, 0] S1x64.size inb_S1x64_S1x64_0_0
abbrev r1_fw : Rect S64x1 := Rect.unit (s := S64x1) ![0, 0] S64x1.size inb_S64x1_S64x1_0_0
abbrev r1_fb : Rect S1x1 := Rect.unit (s := S1x1) ![0, 0] S1x1.size inb_S1x1_S1x1_0_0
abbrev r1_w : Rect S64x32 := Rect.unit (s := S64x32) ![0, 0] S64x32.size inb_S64x32_S64x32_0_0
abbrev r1_h : Rect S2000x96 := Rect.unit (s := S2000x96) ![0, 0] S2000x96.size inb_S2000x96_S2000x96_0_0

section Body
variable (x0 x1 x2 x3 x4 x5 : Vec F S2000x64 .f32) (x6 : Vec F S2000x3 .f32) (x7 x8 x9 : Vec F S1x64 .f32)
  (x10 : Vec F S64x1 .f32) (x11 : Vec F S1x1 .f32) (x12 x13 x14 : Vec F S64x32 .f32)

def v1blk := k1_pay6 (View.ld x6 r1_d) (View.ld x0 r1_n) (View.ld x1 r1_n) (View.ld x7 r1_b)
def v2blk := k1_pay7 (View.ld x6 r1_d) (View.ld x2 r1_n) (View.ld x3 r1_n) (View.ld x8 r1_b)
def v3blk := k1_pay8 (View.ld x6 r1_d) (View.ld x4 r1_n) (View.ld x5 r1_n)
def b3blk := k1_pay9 (View.ld x9 r1_b)
def e1blk := k1_pay10 (v1blk x0 x1 x6 x7)
def e2blk := k1_pay11 (v2blk x2 x3 x6 x8)
def e3blk := k1_pay12 (v3blk x4 x5 x6) (b3blk x9)
def c2blk := k1_pay15 (v2blk x2 x3 x6 x8) (View.ld x10 r1_fw) (View.ld x11 r1_fb)
def c3blk := k1_pay16 (v3blk x4 x5 x6) (b3blk x9) (View.ld x10 r1_fw) (View.ld x11 r1_fb)
def icdblk := k1_pay17 (v1blk x0 x1 x6 x7) (v2blk x2 x3 x6 x8) (v3blk x4 x5 x6) (b3blk x9) (View.ld x10 r1_fw) (View.ld x11 r1_fb)
def coef1blk := k1_pay18 (v1blk x0 x1 x6 x7) (v2blk x2 x3 x6 x8) (v3blk x4 x5 x6) (b3blk x9) (View.ld x10 r1_fw) (View.ld x11 r1_fb)

def out1_15 : Vec F S2000x3 .f32 :=
  View.canon [⟨r1_d, k1_pay3 (c2blk x2 x3 x6 x8 x10 x11) (c3blk x4 x5 x6 x9 x10 x11)
    (icdblk x0 x1 x2 x3 x4 x5 x6 x7 x8 x9 x10 x11) (coef1blk x0 x1 x2 x3 x4 x5 x6 x7 x8 x9 x10 x11)⟩]

def out1_16 : Vec F S2000x96 .f32 :=
  View.canon [⟨r1_h, k1_pay4 (e1blk x0 x1 x6 x7) (e2blk x2 x3 x6 x8) (e3blk x4 x5 x6 x9)
    (c2blk x2 x3 x6 x8 x10 x11) (c3blk x4 x5 x6 x9 x10 x11)
    (icdblk x0 x1 x2 x3 x4 x5 x6 x7 x8 x9 x10 x11) (coef1blk x0 x1 x2 x3 x4 x5 x6 x7 x8 x9 x10 x11)
    (View.ld x12 r1_w) (View.ld x13 r1_w) (View.ld x14 r1_w)⟩]

theorem cover1_15 (p0 : Vec F S2000x3 .f32) (y : S2000x3.Idx) :
    ∃ pc ∈ ([⟨r1_d, p0⟩] : List (View.Piece (Elt F) S2000x3 .f32)), y ∈ pc.1.set :=
  View.cover_of_tiled [⟨r1_d, p0⟩] S2000x3.size (by rfl) y
theorem cover1_16 (p0 : Vec F S2000x96 .f32) (y : S2000x96.Idx) :
    ∃ pc ∈ ([⟨r1_h, p0⟩] : List (View.Piece (Elt F) S2000x96 .f32)), y ∈ pc.1.set :=
  View.cover_of_tiled [⟨r1_h, p0⟩] S2000x96.size (by rfl) y

set_option maxHeartbeats 4000000 in
theorem sound_kernel1 (c : Dev nD) (E : Set ℕ) (i : grid1.Coords)
    {m0 m1 m2 m3 m4 m5 : Memref sig .tc .vmem S2000x64 .f32} {m6 m15 : Memref sig .tc .vmem S2000x3 .f32}
    {m7 m8 m9 : Memref sig .tc .vmem S1x64 .f32} {m10 : Memref sig .tc .vmem S64x1 .f32} {m11 : Memref sig .tc .vmem S1x1 .f32}
    {m12 m13 m14 : Memref sig .tc .vmem S64x32 .f32} {m16 : Memref sig .tc .vmem S2000x96 .f32}
    (hm0 : m0.IsWhole) (hm1 : m1.IsWhole) (hm2 : m2.IsWhole) (hm3 : m3.IsWhole) (hm4 : m4.IsWhole) (hm5 : m5.IsWhole) (hm6 : m6.IsWhole) (hm7 : m7.IsWhole) (hm8 : m8.IsWhole) (hm9 : m9.IsWhole) (hm10 : m10.IsWhole) (hm11 : m11.IsWhole) (hm12 : m12.IsWhole) (hm13 : m13.IsWhole) (hm14 : m14.IsWhole) (hm15 : m15.IsWhole) (hm16 : m16.IsWhole) (K : PUnit → sProp 𝕄) :
    iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7 ∗ owns (c : Thread nD τ) m8 fullShare x8 ∗ owns (c : Thread nD τ) m9 fullShare x9 ∗ owns (c : Thread nD τ) m10 fullShare x10 ∗ owns (c : Thread nD τ) m11 fullShare x11 ∗ owns (c : Thread nD τ) m12 fullShare x12 ∗ owns (c : Thread nD τ) m13 fullShare x13 ∗ owns (c : Thread nD τ) m14 fullShare x14
        ∗ (∃ d, owns (c : Thread nD τ) m15 fullShare d) ∗ (∃ d, owns (c : Thread nD τ) m16 fullShare d)
        ∗ (iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7 ∗ owns (c : Thread nD τ) m8 fullShare x8 ∗ owns (c : Thread nD τ) m9 fullShare x9 ∗ owns (c : Thread nD τ) m10 fullShare x10 ∗ owns (c : Thread nD τ) m11 fullShare x11 ∗ owns (c : Thread nD τ) m12 fullShare x12 ∗ owns (c : Thread nD τ) m13 fullShare x13 ∗ owns (c : Thread nD τ) m14 fullShare x14
            ∗ owns (c : Thread nD τ) m15 fullShare (out1_15 x0 x1 x2 x3 x4 x5 x6 x7 x8 x9 x10 x11) ∗ owns (c : Thread nD τ) m16 fullShare (out1_16 x0 x1 x2 x3 x4 x5 x6 x7 x8 x9 x10 x11 x12 x13 x14)) -∗ K ⟨⟩))
      ⊢ wp frame (wpE (defs₀ (F := F)) Variants.none c none) E (cc1__fused_finalize_attn_kernel i m0 hm0 m1 hm1 m2 hm2 m3 hm3 m4 hm4 m5 hm5 m6 hm6 m7 hm7 m8 hm8 m9 hm9 m10 hm10 m11 hm11 m12 hm12 m13 hm13 m14 hm14 m15 hm15 m16 hm16) K := by
  simp only [cc1__fused_finalize_attn_kernel_eq_skeleton]; unfold cc1__fused_finalize_attn_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    exact View.read_writes_eq_canon _ _ _ (cover1_15 _)
  iexists _; isplitr
  swap; · iexact H16
  ipureintro
  try dsimp only
  exact View.read_writes_eq_canon _ _ _ (cover1_16 _)

end Body

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 17, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := rfl

theorem before1 (c : Dev nD) (w : Fin 17) (hw : (cfg1.win w).isOut = false) (t : Fin cfg1.N) (d) :
    (dat1 V c).before w t d = (dat1 V c).after w t := by
  fin_cases w <;> first
    | exact absurd hw (by decide)
    | exact (dat1 V c).before_in_eq_fetched _ rfl (fun _ => rfl) (fun _ _ _ => rfl) (fun _ => rfl) t d

theorem body_obligation1 (c : Dev nD) : BodyObligation (dat1 (F := F) V c) (defs₀ (F := F)) Variants.none () Set.univ := fun t => by
  show iprop((dat1 V c).Φ t.castSucc ∗ (dat1 V c).owesAt () t.castSucc
      ∗ bigSep Finset.univ fun w : Fin 17 => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.castSucc ∗ (dat1 V c).owesAt () t.castSucc
        ∗ bigSep Finset.univ fun w : Fin 17 => owns (c : Thread nD τ) ((cfg1.win w).stage (cfg1.slots t w)) fullShare ((dat1 V c).after w t))
  rw [bigSep_W1, bigSep_W1]
  simp only [before1 V c 0 rfl, before1 V c 1 rfl, before1 V c 2 rfl, before1 V c 3 rfl, before1 V c 4 rfl, before1 V c 5 rfl, before1 V c 6 rfl, before1 V c 7 rfl, before1 V c 8 rfl, before1 V c 9 rfl, before1 V c 10 rfl, before1 V c 11 rfl, before1 V c 12 rfl, before1 V c 13 rfl, before1 V c 14 rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 _ _ _ _ _ _ _ _ _ _ _ _ _ _ _ c Set.univ _ _ _ _ _ _ _ _ _ _ _ _ _ _ _ _ _ _ _)
  iframe H0 H1 H2 H3 H4 H5 H6 H7 H8 H9 H10 H11 H12 H13 H14
  isplitl [H15]; · iexists _; iexact H15
  isplitl [H16]; · iexists _; iexact H16
  iintro ⟨H0, H1, H2, H3, H4, H5, H6, H7, H8, H9, H10, H11, H12, H13, H14, H15, H16⟩
  iframe

end Region1
end Cert.KernelIdeal.Hand
end
-- ==== Proof.KI.R2.lean ====
import proofs.«145333_j32066225832361_2_alg».proof.Proof.Gen.KernelIdeal.Launch
import proofs.«145333_j32066225832361_2_alg».proof.Proof.Gen.KernelIdeal.Skeleton
import proofs.«145333_j32066225832361_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S2000x32 := Rect.unit (s := S2000x32) ![0, 0] S2000x32.size inb_S2000x32_S2000x32_0_0
abbrev r2_d : Rect S2000x3 := Rect.unit (s := S2000x3) ![0, 0] S2000x3.size inb_S2000x3_S2000x3_0_0
abbrev r2_b : Rect S1x32 := Rect.unit (s := S1x32) ![0, 0] S1x32.size inb_S1x32_S1x32_0_0

def out2_10 (x0 x1 x2 x3 x4 x5 : Vec F S2000x32 .f32) (x6 : Vec F S2000x3 .f32) (x7 x8 x9 : Vec F S1x32 .f32) : Vec F S2000x32 .f32 :=
  View.canon [⟨r2_a, k2_pay1 (k2_pay3 (View.ld x6 r2_d) (View.ld x0 r2_a) (View.ld x1 r2_a) (View.ld x7 r2_b))
    (k2_pay4 (View.ld x6 r2_d) (View.ld x2 r2_a) (View.ld x3 r2_a) (View.ld x8 r2_b))
    (k2_pay5 (View.ld x6 r2_d) (View.ld x4 r2_a) (View.ld x5 r2_a))
    (k2_pay6 (View.ld x9 r2_b))⟩]

set_option maxHeartbeats 4000000 in

theorem sound_kernel2 (c : Dev nD) (E : Set ℕ) (i : grid2.Coords) (arg1 arg2 arg3 arg4 arg5 arg6 arg11 : Memref sig .tc .vmem S2000x32 .f32) (arg7 : Memref sig .tc .vmem S2000x3 .f32) (arg8 arg9 arg10 : Memref sig .tc .vmem S1x32 .f32)
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)
    (x0 x1 x2 x3 x4 x5 : Vec F S2000x32 .f32) (x6 : Vec F S2000x3 .f32) (x7 x8 x9 : Vec F S1x32 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ (∃ d, owns c.tc arg11 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare (out2_10 x0 x1 x2 x3 x4 x5 x6 x7 x8 x9)) -∗ K ⟨⟩))
      ⊢ wp frame (wpE (defs₀ (F := F)) Variants.none c none) E (cc2__finalize_sum_kernel i arg1 harg1 arg2 harg2 arg3 harg3 arg4 harg4 arg5 harg5 arg6 harg6 arg7 harg7 arg8 harg8 arg9 harg9 arg10 harg10 arg11 harg11) K := by
  simp only [cc2__finalize_sum_kernel_eq_skeleton]; unfold cc2__finalize_sum_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (View.cover_of_tiled _ S2000x32.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem before2 (c : Dev nD) (w : Fin 11) (hw : w ≠ 10) (t : Fin cfg2.N) (d) : (dat2 V c).before w t d = (dat2 V c).after w t := by
  fin_cases w <;> first
    | exact absurd rfl hw
    | exact (Dat.before_in_eq_fetched _ _ rfl (fun _ => rfl) (fun _ _ _ => rfl) (fun _ => by dsimp only [dat2, Dat.blockOf, iblk2]) t d).trans rfl

theorem body_obligation2 (c : Dev nD) : BodyObligation (dat2 (F := F) V c) (defs₀ (F := F)) Variants.none () Set.univ := fun t => by
  rw [bigSep_W2, bigSep_W2]
  change _ ⊢ wp _ _ _ (bodyAt2 t) _
  simp (config := {decide := true}) only [before2]
  rw [show (dat2 V c).Φ t.succ = (dat2 V c).Φ t.castSucc from rfl,
    show (dat2 V c).owesAt () t.succ = (dat2 V c).owesAt () t.castSucc from rfl,
    show (dat2 V c).after 10 t = out2_10 ((dat2 V c).after 0 t) ((dat2 V c).after 1 t) ((dat2 V c).after 2 t) ((dat2 V c).after 3 t) ((dat2 V c).after 4 t) ((dat2 V c).after 5 t) ((dat2 V c).after 6 t) ((dat2 V c).after 7 t) ((dat2 V c).after 8 t) ((dat2 V c).after 9 t) by dsimp only [dat2]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ ((dat2 V c).after 0 t) ((dat2 V c).after 1 t) ((dat2 V c).after 2 t) ((dat2 V c).after 3 t) ((dat2 V c).after 4 t) ((dat2 V c).after 5 t) ((dat2 V c).after 6 t) ((dat2 V c).after 7 t) ((dat2 V c).after 8 t) ((dat2 V c).after 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro H
  isplitl [HΦ]; · iexact HΦ
  isplitl [Ho]; · iexact Ho
  iexact H

end Cert.KernelIdeal.Hand

end
-- ==== Proof.KI.KRun.lean ====
import proofs.«145333_j32066225832361_2_alg».proof.Proof.KI.R0
import proofs.«145333_j32066225832361_2_alg».proof.Proof.KI.R1
import proofs.«145333_j32066225832361_2_alg».proof.Proof.KI.R2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev V2 : (c : Dev nD) → (b : Ref sig .tc) → Buf (Elt F) ((c : Thread nD τ).loc b) := fun c b => W2 m ρ c b
def W3 (c : Dev nD) : Valuation τ sig (Elt F) :=
  Pipeline.withArrays spec0 c (W2 m ρ c) fun w => (dat0 (V2 m ρ) c).arrAt w cfg0.N
abbrev W4 : Dev nD → Valuation τ sig (Elt F) := fun c => StableHlo.after main_part1_ops1 (W3 m ρ c)
abbrev W5 : Dev nD → Valuation τ sig (Elt F) := fun c => StableHlo.after main_part2_ops0 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
abbrev W7 : Dev nD → Valuation τ sig (Elt F) := fun c => StableHlo.after main_part3_ops0 (W6 m ρ c)
abbrev W8 : Dev nD → Valuation τ sig (Elt F) := fun c => StableHlo.after main_part4_ops0 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec2 c (W8 m ρ c) fun w => (dat2 (V8 m ρ) c).arrAt w cfg2.N

abbrev argRefs : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19, main_arg20, main_arg21, main_arg22]

abbrev Quiet (op : HloOp τ sig (Elt F)) : Prop :=
  op.fresh = ∅ ∧ ∀ r ∈ argRefs, (Proc.devRef .tc r : DevRef τ sig) ∉ op.writes

theorem arg_lt : ∀ r ∈ argRefs, r.idx.val < 23 := by decide
theorem not_arg {y : Ref sig .tc} (h : 23 ≤ y.idx.val) : ∀ r ∈ argRefs, (Proc.devRef .tc r : DevRef τ sig) ≠ Proc.devRef .tc y :=
  fun r hr => StableHlo.devRef_ne_of_ne fun e => absurd (e ▸ arg_lt r hr) (Nat.not_lt.mpr h)

theorem quiet : ([main_part0_ops0, main_part1_ops0, main_part1_ops1, main_part2_ops0, main_part3_ops0, main_part4_ops0] :
    List (List (HloOp τ sig (Elt F)))).Forall fun ops => ops.Forall Quiet := by
  simp only [List.Forall, Quiet, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first | rfl | exact not_arg (by decide)

abbrev Kept (c : Dev nD) (W : Valuation τ sig (Elt F)) : Prop :=
  ∀ r ∈ argRefs, W (Proc.devRef .tc r) = m ((c : Thread nD τ).loc r)

theorem kept_host {c : Dev nD} {W : Valuation τ sig (Elt F)} {ops : List (HloOp τ sig (Elt F))} (h : ops.Forall Quiet)
    (hW : Kept m c W) : Kept m c (StableHlo.after ops W) := fun r hr =>
  (StableHlo.after_of_forall_not_mem _ _ fun op hop => (List.forall_iff_forall_mem.mp h op hop).2 r hr).trans (hW r hr)

theorem kept_region {gr n : ℕ} (spec : Fin n → Pipeline.WinSpec sig gr) (hinj : Function.Injective (Pipeline.arrRef spec))
    {c : Dev nD} {W : Valuation τ sig (Elt F)} (A : (w : Fin n) → Buf (Elt F) ((spec w).arr.view.loc (c : Thread nD τ)))
    (hA : ∀ w, Pipeline.arrRef spec w ∈ argRefs → A w = W (Proc.devRef .tc (Pipeline.arrRef spec w)))
    (hW : Kept m c W) : Kept m c (Pipeline.withArrays spec c W A) := fun r hr => by
  by_cases h : ∃ w, Pipeline.arrRef spec w = r
  · obtain ⟨w, rfl⟩ := h
    exact (Pipeline.withArrays_arr spec hinj c W A w).trans ((hA w hr).trans (hW _ hr))
  · exact (Pipeline.withArrays_of_ne spec c W A r fun w e => h ⟨w, e⟩).trans (hW r hr)

theorem arg_win : (∀ w, Pipeline.arrRef spec0 w ∉ argRefs) ∧ (∀ w, Pipeline.arrRef spec1 w ∈ argRefs → (cfg1.win w).isOut = false)
    ∧ ∀ w, Pipeline.arrRef spec2 w ∉ argRefs := by decide
theorem arg_unscoped : ∀ a ∈ argRefs, ¬ (Proc.devRef .tc a : DevRef τ sig).isScoped := by decide

theorem in1 (c : Dev nD) (w : Fin cfg1.W) (h : (cfg1.win w).isOut = false) :
    (dat1 (V5 m ρ) c).arrAt w cfg1.N = W5 m ρ c (Proc.devRef .tc (Pipeline.arrRef spec1 w)) :=
  ((dat1 (V5 m ρ) c).arrAt_in w h _).trans (A_eq1 (V5 m ρ) c w)

theorem W3_arg (c : Dev nD) : Kept m c (W3 m ρ c) :=
  kept_region m spec0 launch0.win.arr_inj _ (fun w h => absurd h (arg_win.1 w)) (kept_host m quiet.2.1 (kept_host m quiet.1 fun _ _ => rfl))
theorem W6_arg (c : Dev nD) : Kept m c (W6 m ρ c) :=
  kept_region m spec1 launch1.win.arr_inj _ (fun w h => in1 m ρ c w (arg_win.2.1 w h))
    (kept_host m quiet.2.2.2.1 (kept_host m quiet.2.2.1 (W3_arg m ρ c)))
theorem W9_arg (c : Dev nD) : Kept m c (W9 m ρ c) :=
  kept_region m spec2 launch2.win.arr_inj _ (fun w h => absurd h (arg_win.2.2 w))
    (kept_host m quiet.2.2.2.2.2 (kept_host m quiet.2.2.2.2.1 (W6_arg m ρ c)))

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V5 m ρ) c
  | ⟨2, _⟩ => fun c => dat2 (V8 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg {ops : List (HloOp τ sig (Elt F))} (hsub : ops.Forall fun op => op.bufs ⊆ StableHlo.tcRefs τ sig)
    (hq : ops.Forall Quiet) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => ((List.forall_iff_forall_mem.mp hq) op h).1) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

set_option backward.isDefEq.respectTransparency.types false in
def reg (p : Fin 3) (lf : Pipeline.LaunchFacts (nD := nD) (τ := τ) cfgs p) (W W' : Dev nD → Valuation τ sig (Elt F))
    (hb : ∀ c, Pipeline.BodyObligationLoose (pdats m ρ p c) defs₀ 𝒱₀ () Set.univ)
    (hq : ∀ c w, (pdats m ρ p c).q w = fullShare)
    (hA : ∀ c w, (pdats m ρ p c).A w = W c (Pipeline.arrRef (Pipeline.pin (pcfgs (F := F)) adm p).spec w))
    (hΦ : ∀ c t, (pdats m ρ p c).Φ t = Pipeline.ΦA (Pipeline.pin (pcfgs (F := F)) adm p).spec c)
    (ho : ∀ c t, (pdats m ρ p c).owed t = 0) (hr : ∀ c, (pdats m ρ p c).recorded 0 = Set.univ)
    (hW' : ∀ c, W' c = Pipeline.withArrays (Pipeline.pin (pcfgs (F := F)) adm p).spec c (W c) fun w => (pdats m ρ p c).arrAt w (Pipeline.pin (pcfgs (F := F)) adm p).N) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => W c b
  hentry c := by
    unfold Pipeline.Dat.owesAt Pipeline.owesWithin
    rw [Pipeline.ownSems0_none, ho c]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%S, HO⟩; iexists S; isplitr; · ipureintro; exact fun _ _ => Or.inl ((hr c).symm ▸ trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hw : Pipeline.WinFacts (Pipeline.pin (pcfgs (F := F)) adm p).spec := lf.win
    have hjoin := Pipeline.unscopedBufs_of_arrays (p := p) (pcfgs (F := F)) adm (Ix := Unit) (Name := ℕ) (U := UR sig nD τ) (Lvl := ℕ)
      hw lf.arr_whole c (pdats m ρ) ((pdats m ρ p c).share_full (hq c))
      (fun b => W c b) (fun b => W' c b) ((pdats m ρ p c).arrAt · (Pipeline.pin (pcfgs (F := F)) adm p).N)
      (fun w => by rw [hW', Pipeline.withArrays_arr _ hw.arr_inj])
      (fun b hb => by rw [hW']; exact Pipeline.withArrays_of_ne _ c _ _ b fun w e => hb (Finset.mem_image.mpr ⟨w, Finset.mem_univ _, e⟩))
    rw [Pipeline.unscopedBufs_held] at hjoin
    unfold Pipeline.Dat.owesAt Pipeline.owesWithin
    rw [ho c]
    iintro ⟨Ha, HO, HY, Hrest⟩
    imodintro
    isplitl [Ha Hrest]
    · iapply hjoin; isplitl [Ha] <;> iassumption
    isplitl [HY]; · iexact HY
    icases HO with ⟨%S, -, HO⟩; iexists S; iexact HO

abbrev segs : List (Pipeline.Seg (pcfgs (F := F)) adm (pdats m ρ) () defs₀ 𝒱₀ L lv) :=
  [ .host (hseg main_part0_ops0_sub quiet.1 (W0 m ρ)),
    .host (hseg main_part1_ops0_sub quiet.2.1 (W1 m ρ)),
    .region (reg m ρ 0 launch0 (W2 m ρ) (W3 m ρ) (fun c => (body_obligation0 (V2 m ρ) c).loose)
      (fun _ _ => rfl) (fun _ _ => rfl) (fun _ _ => rfl) (fun _ _ => rfl) (fun _ => rfl) fun _ => rfl),
    .host (hseg main_part1_ops1_sub quiet.2.2.1 (W3 m ρ)),
    .host (hseg main_part2_ops0_sub quiet.2.2.2.1 (W4 m ρ)),
    .region (reg m ρ 1 launch1 (W5 m ρ) (W6 m ρ) (fun c => (body_obligation1 (V5 m ρ) c).loose)
      (fun _ _ => rfl) (fun _ _ => rfl) (fun _ _ => rfl) (fun _ _ => rfl) (fun _ => rfl) fun _ => rfl),
    .host (hseg main_part3_ops0_sub quiet.2.2.2.2.1 (W6 m ρ)),
    .host (hseg main_part4_ops0_sub quiet.2.2.2.2.2 (W7 m ρ)),
    .region (reg m ρ 2 launch2 (W8 m ρ) (W9 m ρ) (fun c => (body_obligation2 (V8 m ρ) c).loose)
      (fun _ _ => rfl) (fun _ _ => rfl) (fun _ _ => rfl) (fun _ _ => rfl) (fun _ => rfl) fun _ => rfl) ]
theorem main_run (c : Dev nD) : main (F := F) c = Pipeline.Seg.run (segs m ρ) := (main_chain_windows c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := Rounds.initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

theorem arg_kept (r : PUnit × MemSt nD τ sig (Elt F)) (h : ∀ c : Dev nD, ∀ b ∈ Pipeline.ucRefs τ sig, r.2.mem (((c : Thread nD τ)).1, b) = W9 m ρ c b)
    (c : Dev nD) : ∀ a ∈ argRefs, r.2.mem ((c.tc : Thread nD τ).loc a) = m ((c.tc : Thread nD τ).loc a) :=
  fun a ha => (h c _ (mem_uc a (arg_unscoped a ha))).trans (W9_arg m ρ c a ha)

end Cert.KernelIdeal.Hand

end
-- ==== Proof.Spec.lean ====
import proofs.«145333_j32066225832361_2_alg».proof.ReferenceIdeal
import Idealize.ShloMosaic.PureOps.Ideal

noncomputable section

namespace Cert.Spec

open Idealize.ShloMosaic Cert.ReferenceIdeal

variable {F : FTy → Type} [FloatOps F] [Cert.ReferenceIdeal.Facts₀]
open Cert.ReferenceIdeal.Facts₀

abbrev FA (S : Shape) := (⟨S, .f32⟩ : BufTy).Contents (Elt F)
abbrev IA (S : Shape) := (⟨S, .i32⟩ : BufTy).Contents (Elt F)

def srcRaw (ei : IA (F := F) S2x800000) : IA (F := F) S800000 :=
  fun i => shapeCast S800000 (extractStridedSlice S1x800000 ![0, 0] ei slices_S2x800000_S1x800000_0_0) shapeCasts_S1x800000_S800000 i
def dstRaw (ei : IA (F := F) S2x800000) : IA (F := F) S800000 :=
  fun i => shapeCast S800000 (extractStridedSlice S1x800000 ![1, 0] ei slices_S2x800000_S1x800000_1_0) shapeCasts_S1x800000_S800000 i

def wrapIdx (s : IA (F := F) S800000) : IA (F := F) S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def deg (ei : IA (F := F) S2x800000) (ew : FA (F := F) S800000) : FA (F := F) S50000 :=
  addf (Host.scatterAdd scatter_S50000_S800000x1_S800000_n_0_0_1
      (broadcastInDim S50000 ![] bcast_S_S50000 (constant S_ .f32 0x00000000#32))
      (broadcastInDim S800000x1 ![0] bcast_S800000_S800000x1_0 (dstRaw ei)) ew)
    (broadcastInDim S50000 ![] bcast_S_S50000 (constant S_ .f32 0x3F800000#32))

def dinv (ei : IA (F := F) S2x800000) (ew : FA (F := F) S800000) : FA (F := F) S50000 := Host.rsqrt (deg ei ew)

def norm (ei : IA (F := F) S2x800000) (ew : FA (F := F) S800000) : FA (F := F) S800000 :=
  mulf (mulf (Host.gather gather_S50000_S800000x1_S800000_n_0_n_n_0_1_1 (dinv ei ew) (wrapIdx (srcRaw ei))) ew)
    (Host.gather gather_S50000_S800000x1_S800000_n_0_n_n_0_1_1 (dinv ei ew) (wrapIdx (dstRaw ei)))

def agg64 (ei : IA (F := F) S2x800000) (nrm : FA (F := F) S800000) (h : FA (F := F) S50000x64) : FA (F := F) S50000x64 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dstRaw ei))
    (mulf (broadcastInDim S800000x64 ![0, 1] bcast_S800000x1_S800000x64_0_1 (broadcastInDim S800000x1 ![0] bcast_S800000_S800000x1_0 nrm))
      (Host.gather gather_S50000x64_S800000x1_S800000x64_1_0_n_n_0_1_164 h (wrapIdx (srcRaw ei))))

def agg32 (ei : IA (F := F) S2x800000) (nrm : FA (F := F) S800000) (h : FA (F := F) S50000x32) : FA (F := F) S50000x32 :=
  Host.scatterAdd scatter_S50000x32_S800000x1_S800000x32_1_0_0_1
    (broadcastInDim S50000x32 ![] bcast_S_S50000x32 (constant S_ .f32 0x00000000#32))
    (broadcastInDim S800000x1 ![0] bcast_S800000_S800000x1_0 (dstRaw ei))
    (mulf (broadcastInDim S800000x32 ![0, 1] bcast_S800000x1_S800000x32_0_1 (broadcastInDim S800000x1 ![0] bcast_S800000_S800000x1_0 nrm))
      (Host.gather gather_S50000x32_S800000x1_S800000x32_1_0_n_n_0_1_132 h (wrapIdx (srcRaw ei))))

def fin64 (a : FA (F := F) S50000x64) (dv : FA (F := F) S50000) (h : FA (F := F) S50000x64) (b : FA (F := F) S64) : FA (F := F) S50000x64 :=
  addf (addf a (mulf (broadcastInDim S50000x64 ![0, 1] bcast_S50000x1_S50000x64_0_1 (broadcastInDim S50000x1 ![0] bcast_S50000_S50000x1_0 (mulf dv dv))) h))
    (broadcastInDim S50000x64 ![0, 1] bcast_S1x64_S50000x64_0_1 (broadcastInDim S1x64 ![1] bcast_S64_S1x64_1 b))

def fin32 (a : FA (F := F) S50000x32) (dv : FA (F := F) S50000) (h : FA (F := F) S50000x32) (b : FA (F := F) S32) : FA (F := F) S50000x32 :=
  addf (addf a (mulf (broadcastInDim S50000x32 ![0, 1] bcast_S50000x1_S50000x32_0_1 (broadcastInDim S50000x1 ![0] bcast_S50000_S50000x1_0 (mulf dv dv))) h))
    (broadcastInDim S50000x32 ![0, 1] bcast_S1x32_S50000x32_0_1 (broadcastInDim S1x32 ![1] bcast_S32_S1x32_1 b))

def mm1 (x : FA (F := F) S50000x256) (W : FA (F := F) S256x64) : FA (F := F) S50000x64 :=
  Host.dotGeneral dot_S50000x256_S256x64_S50000x64_1_0_0_1_n_n none x W

def mm2 (x : FA (F := F) S50000x64) (W : FA (F := F) S64x32) : FA (F := F) S50000x32 :=
  Host.dotGeneral dot_S50000x64_S64x32_S50000x32_1_0_0_1_n_n none x W

def relu64 (v : FA (F := F) S50000x64) : FA (F := F) S50000x64 :=
  maximumf v (broadcastInDim S50000x64 ![] bcast_S_S50000x64 (constant S_ .f32 0x00000000#32))

def emb (x : FA (F := F) S50000x256) (ei : IA (F := F) S2x800000) (ew : FA (F := F) S800000) (W : FA (F := F) S256x64) (b : FA (F := F) S64) : FA (F := F) S50000x64 :=
  relu64 (fin64 (agg64 ei (norm ei ew) (mm1 x W)) (dinv ei ew) (mm1 x W) b)

def logit (e : FA (F := F) S50000x64) (fcw : FA (F := F) S64x1) (fcb : FA (F := F) S1) : FA (F := F) S50000x1 :=
  addf (Host.dotGeneral dot_S50000x64_S64x1_S50000x1_1_0_0_1_n_n none e fcw)
    (broadcastInDim S50000x1 ![0, 1] bcast_S1x1_S50000x1_0_1 (broadcastInDim S1x1 ![1] bcast_S1_S1x1_1 fcb))

def score (s : FA (F := F) S50000x1) : FA (F := F) S50000x1 :=
  Host.exp (select (cmpf .oge s (broadcastInDim S50000x1 ![] bcast_S_S50000x1 (constant S_ .f32 0x00000000#32))) s
    (mulf (broadcastInDim S50000x1 ![] bcast_S_S50000x1 (id (constant S_ .f32 0x3C23D70A#32))) s))

def total (c1 c2 c3 : FA (F := F) S50000x1) : FA (F := F) S50000x1 := addf (addf c1 c2) c3

def coef (c cd : FA (F := F) S50000x1) : FA (F := F) S50000x1 := Host.divf c cd

def combine (e1 e2 e3 : FA (F := F) S50000x64) (k1 k2 k3 : FA (F := F) S50000x1) : FA (F := F) S50000x64 :=
  addf (addf (mulf e1 (broadcastInDim S50000x64 ![0, 1] bcast_S50000x1_S50000x64_0_1 k1))
      (mulf e2 (broadcastInDim S50000x64 ![0, 1] bcast_S50000x1_S50000x64_0_1 k2)))
    (mulf e3 (broadcastInDim S50000x64 ![0, 1] bcast_S50000x1_S50000x64_0_1 k3))

def out2 (cmb : FA (F := F) S50000x64) (ei : IA (F := F) S2x800000) (ew : FA (F := F) S800000) (W : FA (F := F) S64x32) (b : FA (F := F) S32) : FA (F := F) S50000x32 :=
  fin32 (agg32 ei (norm ei ew) (mm2 cmb W)) (dinv ei ew) (mm2 cmb W) b

def C (x : FA (F := F) S50000x256) (ei : IA (F := F) S2x800000) (ew : FA (F := F) S800000) (W : FA (F := F) S256x64) (b : FA (F := F) S64)
    (fcw : FA (F := F) S64x1) (fcb : FA (F := F) S1) : FA (F := F) S50000x1 :=
  score (logit (emb x ei ew W b) fcw fcb)

section Results

variable (x1 x2 x3 : FA (F := F) S50000x256) (ei1 ei2 ei3 : IA (F := F) S2x800000) (ew1 ew2 ew3 : FA (F := F) S800000)
  (W1 W2 W3 : FA (F := F) S256x64) (b1 b2 b3 : FA (F := F) S64) (fcw : FA (F := F) S64x1) (fcb : FA (F := F) S1)
  (W11 W22 W33 : FA (F := F) S64x32) (b11 b22 b33 : FA (F := F) S32)

def T : FA (F := F) S50000x1 := total (C x1 ei1 ew1 W1 b1 fcw fcb) (C x2 ei2 ew2 W2 b2 fcw fcb) (C x3 ei3 ew3 W3 b3 fcw fcb)

def K1 : FA (F := F) S50000x1 := coef (C x1 ei1 ew1 W1 b1 fcw fcb) (T x1 x2 x3 ei1 ei2 ei3 ew1 ew2 ew3 W1 W2 W3 b1 b2 b3 fcw fcb)
def K2 : FA (F := F) S50000x1 := coef (C x2 ei2 ew2 W2 b2 fcw fcb) (T x1 x2 x3 ei1 ei2 ei3 ew1 ew2 ew3 W1 W2 W3 b1 b2 b3 fcw fcb)
def K3 : FA (F := F) S50000x1 := coef (C x3 ei3 ew3 W3 b3 fcw fcb) (T x1 x2 x3 ei1 ei2 ei3 ew1 ew2 ew3 W1 W2 W3 b1 b2 b3 fcw fcb)

def CMB : FA (F := F) S50000x64 :=
  combine (emb x1 ei1 ew1 W1 b1) (emb x2 ei2 ew2 W2 b2) (emb x3 ei3 ew3 W3 b3)
    (K1 x1 x2 x3 ei1 ei2 ei3 ew1 ew2 ew3 W1 W2 W3 b1 b2 b3 fcw fcb) (K2 x1 x2 x3 ei1 ei2 ei3 ew1 ew2 ew3 W1 W2 W3 b1 b2 b3 fcw fcb)
    (K3 x1 x2 x3 ei1 ei2 ei3 ew1 ew2 ew3 W1 W2 W3 b1 b2 b3 fcw fcb)

def OUT : FA (F := F) S50000x32 :=
  addf (addf (out2 (CMB x1 x2 x3 ei1 ei2 ei3 ew1 ew2 ew3 W1 W2 W3 b1 b2 b3 fcw fcb) ei1 ew1 W11 b11)
      (out2 (CMB x1 x2 x3 ei1 ei2 ei3 ew1 ew2 ew3 W1 W2 W3 b1 b2 b3 fcw fcb) ei2 ew2 W22 b22))
    (out2 (CMB x1 x2 x3 ei1 ei2 ei3 ew1 ew2 ew3 W1 W2 W3 b1 b2 b3 fcw fcb) ei3 ew3 W33 b33)

end Results

end Cert.Spec

end
-- ==== Proof.KI.KVA.lean ====
import proofs.«145333_j32066225832361_2_alg».proof.Proof.Gen.KernelIdeal.Launch
import proofs.«145333_j32066225832361_2_alg».proof.Proof.Gen.ReferenceIdeal
import proofs.«145333_j32066225832361_2_alg».proof.Proof.Spec
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.KernelIdeal.Facts₀

variable (V : Valuation τ sig (Elt Ideal))

abbrev evA : Valuation τ sig (Elt Ideal) := after main_part1_ops0 (after main_part0_ops0 V)

set_option maxHeartbeats 4000000 in
theorem evA_dinv1 : evA V (Proc.devRef .tc main_v9) = Cert.Spec.dinv (V (Proc.devRef .tc main_arg3)) (V (Proc.devRef .tc main_arg6)) := by
  after_results_simp
  rfl
set_option maxHeartbeats 4000000 in
theorem evA_dinv2 : evA V (Proc.devRef .tc main_v35) = Cert.Spec.dinv (V (Proc.devRef .tc main_arg4)) (V (Proc.devRef .tc main_arg7)) := by
  after_results_simp
  rfl
set_option maxHeartbeats 4000000 in
theorem evA_dinv3 : evA V (Proc.devRef .tc main_v61) = Cert.Spec.dinv (V (Proc.devRef .tc main_arg5)) (V (Proc.devRef .tc main_arg8)) := by
  after_results_simp
  rfl
set_option maxHeartbeats 4000000 in
theorem evA_norm1 : evA V (Proc.devRef .tc main_v25) = Cert.Spec.norm (V (Proc.devRef .tc main_arg3)) (V (Proc.devRef .tc main_arg6)) := by
  after_results_simp
  rfl
set_option maxHeartbeats 4000000 in
theorem evA_norm2 : evA V (Proc.devRef .tc main_v51) = Cert.Spec.norm (V (Proc.devRef .tc main_arg4)) (V (Proc.devRef .tc main_arg7)) := by
  after_results_simp
  rfl
set_option maxHeartbeats 4000000 in
theorem evA_norm3 : evA V (Proc.devRef .tc main_v77) = Cert.Spec.norm (V (Proc.devRef .tc main_arg5)) (V (Proc.devRef .tc main_arg8)) := by
  after_results_simp
  rfl

end Cert.KernelIdeal.Hand

end
-- ==== Proof.LibNary3.lean ====
import Idealize.ShloMosaic.Lib.StableHlo.Run

namespace Idealize.ShloMosaic.StableHlo

variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo
-- ==== Proof.KI.KVA2.lean ====
import proofs.«145333_j32066225832361_2_alg».proof.Proof.Gen.KernelIdeal.Launch
import proofs.«145333_j32066225832361_2_alg».proof.Proof.Gen.ReferenceIdeal
import proofs.«145333_j32066225832361_2_alg».proof.Proof.Spec
import Idealize.ShloMosaic.Lib.StableHlo.Run
import proofs.«145333_j32066225832361_2_alg».proof.Proof.KI.KVA
import proofs.«145333_j32066225832361_2_alg».proof.Proof.LibNary3
set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (V : Valuation τ sig (Elt Ideal))

def dcat (d1 d2 d3 : (⟨S50000, .f32⟩ : BufTy).Contents (Elt Ideal)) : (⟨S50000x3, .f32⟩ : BufTy).Contents (Elt Ideal) :=
  concatenate S50000x3 1 [⟨S50000x1, broadcastInDim S50000x1 ![0] bcast_S50000_S50000x1_0 d1⟩, ⟨S50000x1, broadcastInDim S50000x1 ![0] bcast_S50000_S50000x1_0 d2⟩,
    ⟨S50000x1, broadcastInDim S50000x1 ![0] bcast_S50000_S50000x1_0 d3⟩] concatenates_S50000x1_S50000x1_S50000x1_S50000x3_d1

def xcat (x1 x2 x3 : (⟨S50000x256, .f32⟩ : BufTy).Contents (Elt Ideal)) : (⟨S3x50000x256, .f32⟩ : BufTy).Contents (Elt Ideal) :=
  concatenate S3x50000x256 0 [⟨S1x50000x256, broadcastInDim S1x50000x256 ![1, 2] bcast_S50000x256_S1x50000x256_1_2 x1⟩,
    ⟨S1x50000x256, broadcastInDim S1x50000x256 ![1, 2] bcast_S50000x256_S1x50000x256_1_2 x2⟩,
    ⟨S1x50000x256, broadcastInDim S1x50000x256 ![1, 2] bcast_S50000x256_S1x50000x256_1_2 x3⟩] concatenates_S1x50000x256_S1x50000x256_S1x50000x256_S3x50000x256_d0

def wcat (w1 w2 w3 : (⟨S256x64, .f32⟩ : BufTy).Contents (Elt Ideal)) : (⟨S3x256x64, .f32⟩ : BufTy).Contents (Elt Ideal) :=
  concatenate S3x256x64 0 [⟨S1x256x64, broadcastInDim S1x256x64 ![1, 2] bcast_S256x64_S1x256x64_1_2 w1⟩,
    ⟨S1x256x64, broadcastInDim S1x256x64 ![1, 2] bcast_S256x64_S1x256x64_1_2 w2⟩,
    ⟨S1x256x64, broadcastInDim S1x256x64 ![1, 2] bcast_S256x64_S1x256x64_1_2 w3⟩] concatenates_S1x256x64_S1x256x64_S1x256x64_S3x256x64_d0

theorem after_take_drop (n : Nat) (l : List (HloOp τ sig (Elt Ideal))) (W : Valuation τ sig (Elt Ideal)) :
    after l W = after (l.drop n) (after (l.take n) W) := by
  induction l generalizing n W with
  | nil => cases n <;> rfl
  | cons op l ih =>
    cases n with
    | zero => rfl
    | succ n => simp only [List.take_succ_cons, List.drop_succ_cons, after_cons]; exact ih n _

abbrev tailOps : List (HloOp τ sig (Elt Ideal)) :=
  [ StableHlo.unary main_v9 main_v78 (broadcastInDim S50000x1 ![0] bcast_S50000_S50000x1_0 : (⟨S50000, .f32⟩ : BufTy).Contents (Elt Ideal) → (⟨S50000x1, .f32⟩ : BufTy).Contents (Elt Ideal)),
    StableHlo.unary main_v35 main_v79 (broadcastInDim S50000x1 ![0] bcast_S50000_S50000x1_0 : (⟨S50000, .f32⟩ : BufTy).Contents (Elt Ideal) → (⟨S50000x1, .f32⟩ : BufTy).Contents (Elt Ideal)),
    StableHlo.unary main_v61 main_v80 (broadcastInDim S50000x1 ![0] bcast_S50000_S50000x1_0 : (⟨S50000, .f32⟩ : BufTy).Contents (Elt Ideal) → (⟨S50000x1, .f32⟩ : BufTy).Contents (Elt Ideal)),
    StableHlo.nary ![main_v78, main_v79, main_v80] main_v81 (fun u => concatenate S50000x3 1 [⟨S50000x1, u 0⟩, ⟨S50000x1, u 1⟩, ⟨S50000x1, u 2⟩] concatenates_S50000x1_S50000x1_S50000x1_S50000x3_d1),
    StableHlo.unary main_arg0 main_v82 (broadcastInDim S1x50000x256 ![1, 2] bcast_S50000x256_S1x50000x256_1_2 : (⟨S50000x256, .f32⟩ : BufTy).Contents (Elt Ideal) → (⟨S1x50000x256, .f32⟩ : BufTy).Contents (Elt Ideal)),
    StableHlo.unary main_arg1 main_v83 (broadcastInDim S1x50000x256 ![1, 2] bcast_S50000x256_S1x50000x256_1_2 : (⟨S50000x256, .f32⟩ : BufTy).Contents (Elt Ideal) → (⟨S1x50000x256, .f32⟩ : BufTy).Contents (Elt Ideal)),
    StableHlo.unary main_arg2 main_v84 (broadcastInDim S1x50000x256 ![1, 2] bcast_S50000x256_S1x50000x256_1_2 : (⟨S50000x256, .f32⟩ : BufTy).Contents (Elt Ideal) → (⟨S1x50000x256, .f32⟩ : BufTy).Contents (Elt Ideal)),
    StableHlo.nary ![main_v82, main_v83, main_v84] main_v85 (fun u => concatenate S3x50000x256 0 [⟨S1x50000x256, u 0⟩, ⟨S1x50000x256, u 1⟩, ⟨S1x50000x256, u 2⟩] concatenates_S1x50000x256_S1x50000x256_S1x50000x256_S3x50000x256_d0),
    StableHlo.unary main_arg9 main_v86 (broadcastInDim S1x256x64 ![1, 2] bcast_S256x64_S1x256x64_1_2 : (⟨S256x64, .f32⟩ : BufTy).Contents (Elt Ideal) → (⟨S1x256x64, .f32⟩ : BufTy).Contents (Elt Ideal)),
    StableHlo.unary main_arg10 main_v87 (broadcastInDim S1x256x64 ![1, 2] bcast_S256x64_S1x256x64_1_2 : (⟨S256x64, .f32⟩ : BufTy).Contents (Elt Ideal) → (⟨S1x256x64, .f32⟩ : BufTy).Contents (Elt Ideal)),
    StableHlo.unary main_arg11 main_v88 (broadcastInDim S1x256x64 ![1, 2] bcast_S256x64_S1x256x64_1_2 : (⟨S256x64, .f32⟩ : BufTy).Contents (Elt Ideal) → (⟨S1x256x64, .f32⟩ : BufTy).Contents (Elt Ideal)),
    StableHlo.nary ![main_v86, main_v87, main_v88] main_v89 (fun u => concatenate S3x256x64 0 [⟨S1x256x64, u 0⟩, ⟨S1x256x64, u 1⟩, ⟨S1x256x64, u 2⟩] concatenates_S1x256x64_S1x256x64_S1x256x64_S3x256x64_d0) ]

theorem tail_eq : (main_part1_ops0 : List (HloOp τ sig (Elt Ideal))).drop 36 = tailOps := rfl

abbrev evP : Valuation τ sig (Elt Ideal) := after ((main_part1_ops0 : List (HloOp τ sig (Elt Ideal))).take 36) (after main_part0_ops0 V)

theorem evA_eq : evA V = after tailOps (evP V) := by
  show after main_part1_ops0 (after main_part0_ops0 V) = _
  rw [after_take_drop 36 main_part1_ops0, tail_eq]

abbrev tailW : List (Ref sig .tc) :=
  [main_v78, main_v79, main_v80, main_v81, main_v82, main_v83, main_v84, main_v85, main_v86, main_v87, main_v88, main_v89]
theorem tail_writes : (tailOps : List (HloOp τ sig (Elt Ideal))).Forall fun op => op.writes ⊆ (tailW.map (Proc.devRef (τ := τ) .tc)).toFinset := by
  simp only [List.Forall, unary_writes, nary_writes, Finset.singleton_subset_iff, List.mem_toFinset]
  repeat' apply And.intro
  all_goals exact List.mem_map_of_mem (by decide)

theorem evP_of {r : Ref sig .tc} (h : r ∉ tailW) : evP V (Proc.devRef .tc r) = evA V (Proc.devRef .tc r) := by
  rw [evA_eq]; exact (after_of_writes_sub tailOps _ tail_writes h).symm

theorem tail_v81 (W : Valuation τ sig (Elt Ideal)) :
    after tailOps W (Proc.devRef .tc main_v81) = dcat (W (Proc.devRef .tc main_v9)) (W (Proc.devRef .tc main_v35)) (W (Proc.devRef .tc main_v61)) := by
  simp only [after_cons, after_nil]
  rfl

theorem tail_v85 (W : Valuation τ sig (Elt Ideal)) :
    after tailOps W (Proc.devRef .tc main_v85) = xcat (W (Proc.devRef .tc main_arg0)) (W (Proc.devRef .tc main_arg1)) (W (Proc.devRef .tc main_arg2)) := by
  simp only [after_cons, after_nil]
  rfl

theorem tail_v89 (W : Valuation τ sig (Elt Ideal)) :
    after tailOps W (Proc.devRef .tc main_v89) = wcat (W (Proc.devRef .tc main_arg9)) (W (Proc.devRef .tc main_arg10)) (W (Proc.devRef .tc main_arg11)) := by
  simp only [after_cons, after_nil]
  rfl

abbrev catArgs : List (Ref sig .tc) := [main_arg0, main_arg1, main_arg2, main_arg9, main_arg10, main_arg11]

theorem part0_keeps : ∀ op ∈ (main_part0_ops0 : List (HloOp τ sig (Elt Ideal))), ∀ r ∈ catArgs, (Proc.devRef .tc r : DevRef τ sig) ∉ op.writes := by
  refine List.forall_iff_forall_mem.mp ?_
  simp only [main_part0_ops0, List.Forall, nullary_writes, unary_writes, binary_writes, ternary_writes, reshape_writes, nary_writes, Finset.mem_singleton]
  repeat' apply And.intro
  all_goals (intro r hr; exact devRef_ne_of_ne (by revert r; decide))

theorem part1_keeps : ∀ op ∈ (main_part1_ops0 : List (HloOp τ sig (Elt Ideal))), ∀ r ∈ catArgs, (Proc.devRef .tc r : DevRef τ sig) ∉ op.writes := by
  refine List.forall_iff_forall_mem.mp ?_
  simp only [main_part1_ops0, List.Forall, nullary_writes, unary_writes, binary_writes, ternary_writes, reshape_writes, nary_writes, Finset.mem_singleton]
  repeat' apply And.intro
  all_goals (intro r hr; exact devRef_ne_of_ne (by revert r; decide))

theorem evA_arg {r : Ref sig .tc} (hr : r ∈ catArgs) : evA V (Proc.devRef .tc r) = V (Proc.devRef .tc r) :=
  (after_of_forall_not_mem (b := Proc.devRef .tc r) main_part1_ops0 _ fun op hop => part1_keeps op hop r hr).trans
    (after_of_forall_not_mem (b := Proc.devRef .tc r) main_part0_ops0 _ fun op hop => part0_keeps op hop r hr)

theorem evA_dall : evA V (Proc.devRef .tc main_v81) = dcat (Cert.Spec.dinv (V (Proc.devRef .tc main_arg3)) (V (Proc.devRef .tc main_arg6))) (Cert.Spec.dinv (V (Proc.devRef .tc main_arg4)) (V (Proc.devRef .tc main_arg7))) (Cert.Spec.dinv (V (Proc.devRef .tc main_arg5)) (V (Proc.devRef .tc main_arg8))) := by
  rw [evA_eq, tail_v81, evP_of V (r := main_v9) (by decide), evP_of V (r := main_v35) (by decide), evP_of V (r := main_v61) (by decide),
    evA_dinv1, evA_dinv2, evA_dinv3]

theorem evA_xs : evA V (Proc.devRef .tc main_v85) = xcat (V (Proc.devRef .tc main_arg0)) (V (Proc.devRef .tc main_arg1)) (V (Proc.devRef .tc main_arg2)) := by
  rw [evA_eq, tail_v85, evP_of V (r := main_arg0) (by decide), evP_of V (r := main_arg1) (by decide), evP_of V (r := main_arg2) (by decide),
    evA_arg V (r := main_arg0) (by decide), evA_arg V (r := main_arg1) (by decide), evA_arg V (r := main_arg2) (by decide)]

theorem evA_ws : evA V (Proc.devRef .tc main_v89) = wcat (V (Proc.devRef .tc main_arg9)) (V (Proc.devRef .tc main_arg10)) (V (Proc.devRef .tc main_arg11)) := by
  rw [evA_eq, tail_v89, evP_of V (r := main_arg9) (by decide), evP_of V (r := main_arg10) (by decide), evP_of V (r := main_arg11) (by decide),
    evA_arg V (r := main_arg9) (by decide), evA_arg V (r := main_arg10) (by decide), evA_arg V (r := main_arg11) (by decide)]

end Cert.KernelIdeal.Hand

end
-- ==== Proof.KI.KVB.lean ====
import proofs.«145333_j32066225832361_2_alg».proof.Proof.Gen.KernelIdeal.Launch
import proofs.«145333_j32066225832361_2_alg».proof.Proof.Gen.ReferenceIdeal
import proofs.«145333_j32066225832361_2_alg».proof.Proof.Spec
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (V : Valuation τ sig (Elt Ideal))

abbrev evB : Valuation τ sig (Elt Ideal) := after main_part2_ops0 (after main_part1_ops1 V)

def hsl0 (X : (⟨S3x50000x64, .f32⟩ : BufTy).Contents (Elt Ideal)) : (⟨S50000x64, .f32⟩ : BufTy).Contents (Elt Ideal) :=
  fun i => shapeCast S50000x64 (extractStridedSlice S1x50000x64 ![0, 0, 0] X slices_S3x50000x64_S1x50000x64_0_0_0) shapeCasts_S1x50000x64_S50000x64 i
def hsl1 (X : (⟨S3x50000x64, .f32⟩ : BufTy).Contents (Elt Ideal)) : (⟨S50000x64, .f32⟩ : BufTy).Contents (Elt Ideal) :=
  fun i => shapeCast S50000x64 (extractStridedSlice S1x50000x64 ![1, 0, 0] X slices_S3x50000x64_S1x50000x64_1_0_0) shapeCasts_S1x50000x64_S50000x64 i
def hsl2 (X : (⟨S3x50000x64, .f32⟩ : BufTy).Contents (Elt Ideal)) : (⟨S50000x64, .f32⟩ : BufTy).Contents (Elt Ideal) :=
  fun i => shapeCast S50000x64 (extractStridedSlice S1x50000x64 ![2, 0, 0] X slices_S3x50000x64_S1x50000x64_2_0_0) shapeCasts_S1x50000x64_S50000x64 i

set_option maxHeartbeats 4000000 in
theorem evB_h1 : evB V (Proc.devRef .tc main_v92) = hsl0 (V (Proc.devRef .tc main_v90)) := by
  after_results_simp
  rfl

set_option maxHeartbeats 4000000 in
theorem evB_h2 : evB V (Proc.devRef .tc main_v94) = hsl1 (V (Proc.devRef .tc main_v90)) := by
  after_results_simp
  rfl

set_option maxHeartbeats 4000000 in
theorem evB_h3 : evB V (Proc.devRef .tc main_v96) = hsl2 (V (Proc.devRef .tc main_v90)) := by
  after_results_simp
  rfl

set_option maxHeartbeats 4000000 in
theorem evB_agg1 : evB V (Proc.devRef .tc main_v113) = Cert.Spec.agg64 (V (Proc.devRef .tc main_arg3)) (V (Proc.devRef .tc main_v25)) (hsl0 (V (Proc.devRef .tc main_v90))) := by
  after_results_simp
  rfl

set_option maxHeartbeats 4000000 in
theorem evB_agg2 : evB V (Proc.devRef .tc main_v130) = Cert.Spec.agg64 (V (Proc.devRef .tc main_arg4)) (V (Proc.devRef .tc main_v51)) (hsl1 (V (Proc.devRef .tc main_v90))) := by
  after_results_simp
  rfl

set_option maxHeartbeats 4000000 in
theorem evB_agg3 : evB V (Proc.devRef .tc main_v147) = Cert.Spec.agg64 (V (Proc.devRef .tc main_arg5)) (V (Proc.devRef .tc main_v77)) (hsl2 (V (Proc.devRef .tc main_v90))) := by
  after_results_simp
  rfl

set_option maxHeartbeats 4000000 in
theorem evB_b1 : evB V (Proc.devRef .tc main_v148) = fun i => shapeCast S1x64 (V (Proc.devRef .tc main_arg12)) shapeCasts_S64_S1x64 i := by
  after_results_simp
  rfl

set_option maxHeartbeats 4000000 in
theorem evB_b2 : evB V (Proc.devRef .tc main_v149) = fun i => shapeCast S1x64 (V (Proc.devRef .tc main_arg13)) shapeCasts_S64_S1x64 i := by
  after_results_simp
  rfl

set_option maxHeartbeats 4000000 in
theorem evB_b3 : evB V (Proc.devRef .tc main_v150) = fun i => shapeCast S1x64 (V (Proc.devRef .tc main_arg14)) shapeCasts_S64_S1x64 i := by
  after_results_simp
  rfl

set_option maxHeartbeats 4000000 in
theorem evB_fcb : evB V (Proc.devRef .tc main_v151) = fun i => shapeCast S1x1 (V (Proc.devRef .tc main_arg16)) shapeCasts_S1_S1x1 i := by
  after_results_simp
  rfl

set_option maxHeartbeats 4000000 in
theorem evB_dall : evB V (Proc.devRef .tc main_v81) = (V (Proc.devRef .tc main_v81)) := by
  after_results_simp

set_option maxHeartbeats 4000000 in
theorem evB_fcw : evB V (Proc.devRef .tc main_arg15) = (V (Proc.devRef .tc main_arg15)) := by
  after_results_simp

set_option maxHeartbeats 4000000 in
theorem evB_w11 : evB V (Proc.devRef .tc main_arg17) = (V (Proc.devRef .tc main_arg17)) := by
  after_results_simp

set_option maxHeartbeats 4000000 in
theorem evB_w22 : evB V (Proc.devRef .tc main_arg18) = (V (Proc.devRef .tc main_arg18)) := by
  after_results_simp

set_option maxHeartbeats 4000000 in
theorem evB_w33 : evB V (Proc.devRef .tc main_arg19) = (V (Proc.devRef .tc main_arg19)) := by
  after_results_simp

end Cert.KernelIdeal.Hand

end
-- ==== Proof.KI.KVC.lean ====
import proofs.«145333_j32066225832361_2_alg».proof.Proof.Gen.KernelIdeal.Launch
import proofs.«145333_j32066225832361_2_alg».proof.Proof.Gen.ReferenceIdeal
import proofs.«145333_j32066225832361_2_alg».proof.Proof.Spec
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (V : Valuation τ sig (Elt Ideal))

abbrev evC : Valuation τ sig (Elt Ideal) := after main_part4_ops0 (after main_part3_ops0 V)

def ksl0 (X : (⟨S50000x3, .f32⟩ : BufTy).Contents (Elt Ideal)) : (⟨S50000x1, .f32⟩ : BufTy).Contents (Elt Ideal) :=
  extractStridedSlice S50000x1 ![0, 0] X slices_S50000x3_S50000x1_0_0
def ksl1 (X : (⟨S50000x3, .f32⟩ : BufTy).Contents (Elt Ideal)) : (⟨S50000x1, .f32⟩ : BufTy).Contents (Elt Ideal) :=
  extractStridedSlice S50000x1 ![0, 1] X slices_S50000x3_S50000x1_0_1
def ksl2 (X : (⟨S50000x3, .f32⟩ : BufTy).Contents (Elt Ideal)) : (⟨S50000x1, .f32⟩ : BufTy).Contents (Elt Ideal) :=
  extractStridedSlice S50000x1 ![0, 2] X slices_S50000x3_S50000x1_0_2

def gsl0 (X : (⟨S50000x96, .f32⟩ : BufTy).Contents (Elt Ideal)) : (⟨S50000x32, .f32⟩ : BufTy).Contents (Elt Ideal) :=
  extractStridedSlice S50000x32 ![0, 0] X slices_S50000x96_S50000x32_0_0
def gsl1 (X : (⟨S50000x96, .f32⟩ : BufTy).Contents (Elt Ideal)) : (⟨S50000x32, .f32⟩ : BufTy).Contents (Elt Ideal) :=
  extractStridedSlice S50000x32 ![0, 32] X slices_S50000x96_S50000x32_0_32
def gsl2 (X : (⟨S50000x96, .f32⟩ : BufTy).Contents (Elt Ideal)) : (⟨S50000x32, .f32⟩ : BufTy).Contents (Elt Ideal) :=
  extractStridedSlice S50000x32 ![0, 64] X slices_S50000x96_S50000x32_0_64

set_option maxHeartbeats 4000000 in
theorem evC_k1 : evC V (Proc.devRef .tc main_v153) = ksl0 (V (Proc.devRef .tc main_v152_0)) := by
  after_results_simp
  rfl

set_option maxHeartbeats 4000000 in
theorem evC_k2 : evC V (Proc.devRef .tc main_v154) = ksl1 (V (Proc.devRef .tc main_v152_0)) := by
  after_results_simp
  rfl

set_option maxHeartbeats 4000000 in
theorem evC_k3 : evC V (Proc.devRef .tc main_v155) = ksl2 (V (Proc.devRef .tc main_v152_0)) := by
  after_results_simp
  rfl

set_option maxHeartbeats 4000000 in
theorem evC_g1 : evC V (Proc.devRef .tc main_v156) = gsl0 (V (Proc.devRef .tc main_v152_1)) := by
  after_results_simp
  rfl

set_option maxHeartbeats 4000000 in
theorem evC_g2 : evC V (Proc.devRef .tc main_v157) = gsl1 (V (Proc.devRef .tc main_v152_1)) := by
  after_results_simp
  rfl

set_option maxHeartbeats 4000000 in
theorem evC_g3 : evC V (Proc.devRef .tc main_v158) = gsl2 (V (Proc.devRef .tc main_v152_1)) := by
  after_results_simp
  rfl

set_option maxHeartbeats 4000000 in
theorem evC_agg1 : evC V (Proc.devRef .tc main_v175) = Cert.Spec.agg32 (V (Proc.devRef .tc main_arg3)) (V (Proc.devRef .tc main_v25)) (gsl0 (V (Proc.devRef .tc main_v152_1))) := by
  after_results_simp
  rfl

set_option maxHeartbeats 4000000 in
theorem evC_agg2 : evC V (Proc.devRef .tc main_v192) = Cert.Spec.agg32 (V (Proc.devRef .tc main_arg4)) (V (Proc.devRef .tc main_v51)) (gsl1 (V (Proc.devRef .tc main_v152_1))) := by
  after_results_simp
  rfl

set_option maxHeartbeats 4000000 in
theorem evC_agg3 : evC V (Proc.devRef .tc main_v209) = Cert.Spec.agg32 (V (Proc.devRef .tc main_arg5)) (V (Proc.devRef .tc main_v77)) (gsl2 (V (Proc.devRef .tc main_v152_1))) := by
  after_results_simp
  rfl

set_option maxHeartbeats 4000000 in
theorem evC_b1 : evC V (Proc.devRef .tc main_v210) = fun i => shapeCast S1x32 (V (Proc.devRef .tc main_arg20)) shapeCasts_S32_S1x32 i := by
  after_results_simp
  rfl

set_option maxHeartbeats 4000000 in
theorem evC_b2 : evC V (Proc.devRef .tc main_v211) = fun i => shapeCast S1x32 (V (Proc.devRef .tc main_arg21)) shapeCasts_S32_S1x32 i := by
  after_results_simp
  rfl

set_option maxHeartbeats 4000000 in
theorem evC_b3 : evC V (Proc.devRef .tc main_v212) = fun i => shapeCast S1x32 (V (Proc.devRef .tc main_arg22)) shapeCasts_S32_S1x32 i := by
  after_results_simp
  rfl

set_option maxHeartbeats 4000000 in
theorem evC_dall : evC V (Proc.devRef .tc main_v81) = (V (Proc.devRef .tc main_v81)) := by
  after_results_simp

end Cert.KernelIdeal.Hand

end
-- ==== Proof.KI.KVK.lean ====
import proofs.«145333_j32066225832361_2_alg».proof.Proof.Gen.KernelIdeal.Launch
import proofs.«145333_j32066225832361_2_alg».proof.Proof.Gen.ReferenceIdeal
import proofs.«145333_j32066225832361_2_alg».proof.Proof.Spec
import Idealize.ShloMosaic.Lib.StableHlo.Run
import proofs.«145333_j32066225832361_2_alg».proof.Proof.KI.KVB
import proofs.«145333_j32066225832361_2_alg».proof.Proof.KI.KVC
set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (V : Valuation τ sig (Elt Ideal))

set_option maxHeartbeats 4000000 in
theorem evB_norm1 : evB V (Proc.devRef .tc main_v25) = (V (Proc.devRef .tc main_v25)) := by
  after_results_simp

set_option maxHeartbeats 4000000 in
theorem evB_norm2 : evB V (Proc.devRef .tc main_v51) = (V (Proc.devRef .tc main_v51)) := by
  after_results_simp

set_option maxHeartbeats 4000000 in
theorem evB_norm3 : evB V (Proc.devRef .tc main_v77) = (V (Proc.devRef .tc main_v77)) := by
  after_results_simp

set_option maxHeartbeats 4000000 in
theorem evC_norm1 : evC V (Proc.devRef .tc main_v25) = (V (Proc.devRef .tc main_v25)) := by
  after_results_simp

set_option maxHeartbeats 4000000 in
theorem evC_norm2 : evC V (Proc.devRef .tc main_v51) = (V (Proc.devRef .tc main_v51)) := by
  after_results_simp

set_option maxHeartbeats 4000000 in
theorem evC_norm3 : evC V (Proc.devRef .tc main_v77) = (V (Proc.devRef .tc main_v77)) := by
  after_results_simp

end Cert.KernelIdeal.Hand

end
-- ==== Proof.KI.R0Val.lean ====
import proofs.«145333_j32066225832361_2_alg».proof.Proof.KI.R0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

theorem lhsIdx0 (r : Fin 2000) (n : Fin 64) (k : Fin 256) :
    dot_S2000x256_S256x64_S2000x64_1_0_0_1_n_n.lhsIdx (ix2 r n)
      ((contrEquiv1 dot_S2000x256_S256x64_S2000x64_1_0_0_1_n_n 256 rfl rfl).symm k) = ix2 r k := by
  have ck := contrEquiv1_symm_val dot_S2000x256_S256x64_S2000x64_1_0_0_1_n_n 256 rfl rfl k
  funext ax; apply Fin.ext
  match ax with
  | ⟨0, _⟩ => simp [DotDims.lhsIdx, dot_S2000x256_S256x64_S2000x64_1_0_0_1_n_n]; rfl
  | ⟨1, _⟩ => simp [DotDims.lhsIdx, dot_S2000x256_S256x64_S2000x64_1_0_0_1_n_n]; exact ck

theorem rhsIdx0 (r : Fin 2000) (n : Fin 64) (k : Fin 256) :
    dot_S2000x256_S256x64_S2000x64_1_0_0_1_n_n.rhsIdx (ix2 r n)
      ((contrEquiv1 dot_S2000x256_S256x64_S2000x64_1_0_0_1_n_n 256 rfl rfl).symm k) = ix2 k n := by
  have ck := contrEquiv1_symm_val dot_S2000x256_S256x64_S2000x64_1_0_0_1_n_n 256 rfl rfl k
  funext ax; apply Fin.ext
  match ax with
  | ⟨0, _⟩ => simp [DotDims.rhsIdx, dot_S2000x256_S256x64_S2000x64_1_0_0_1_n_n]; exact ck
  | ⟨1, _⟩ => simp [DotDims.rhsIdx, dot_S2000x256_S256x64_S2000x64_1_0_0_1_n_n]; rfl

theorem pay_apply (x0 : Vec Ideal S1x2000x256 .f32) (x1 : Vec Ideal S1x256x64 .f32) (u : Fin 1) (r : Fin 2000) (n : Fin 64) :
    k0_pay1 x0 x1 (ix3 u r n) = ∑ k : Fin 256, x0 (ix3 (0 : Fin 1) r k) * x1 (ix3 (0 : Fin 1) k n) := by
  unfold k0_pay1
  refine (shapeCast_ab_1ab_apply _ _ u r n).trans ?_
  refine (Ideal.matmul_constant_zero_apply _ _ _ _ _).trans ?_
  rw [← Equiv.sum_comp (contrEquiv1 dot_S2000x256_S256x64_S2000x64_1_0_0_1_n_n 256 rfl rfl).symm]
  refine Finset.sum_congr rfl fun k _ => ?_
  rw [lhsIdx0, rhsIdx0]
  rw [shapeCast_1ab_ab_apply, shapeCast_1ab_ab_apply]

def G0 (xs : FVec Ideal S3x50000x256 .f32) (ws : FVec Ideal S3x256x64 .f32) : S3x50000x64.Idx → EReal :=
  fun j => ∑ k : Fin 256, xs (ix3 (j 0) (j 1) k) * ws (ix3 (j 0) k (j 2))

theorem pay_eq_G0 (xs : FVec Ideal S3x50000x256 .f32) (ws : FVec Ideal S3x256x64 .f32)
    (x0 : Vec Ideal S1x2000x256 .f32) (x1 : Vec Ideal S1x256x64 .f32) (y : S1x2000x64.Idx) (J : S3x50000x64.Idx)
    (h0 : ∀ k : Fin 256, x0 (ix3 (0 : Fin 1) (y 1) k) = xs (ix3 (J 0) (J 1) k))
    (h1 : ∀ k : Fin 256, x1 (ix3 (0 : Fin 1) k (y 2)) = ws (ix3 (J 0) k (J 2))) :
    k0_pay1 x0 x1 y = G0 xs ws J := by
  refine ((congrArg (k0_pay1 x0 x1) (eq_ix3 y)).trans (pay_apply x0 x1 (y 0) (y 1) (y 2))).trans ?_
  unfold G0
  exact Finset.sum_congr rfl fun k _ => by rw [h0 k, h1 k]

theorem hz3 : (![0, 0, 0] : Fin 3 → Nat) = fun _ => 0 := funext fun a => by fin_cases a <;> rfl

theorem idx_facts0 : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 2
    ∧ win0_2.index t (1 : Fin 3) ≤ 24
    ∧ win0_2.index t (2 : Fin 3) = 0 :=
  (by decide +kernel : ∀ t : Fin grid0.N, _)

theorem idx_onto0 : ∀ (q0 : Fin 3) (q1 : Fin 25), ∃ t : Fin cfg0.N, win0_2.index t = ![q0.val, q1.val, 0] :=
  (by decide +kernel : ∀ (q0 : Fin 3) (q1 : Fin 25), ∃ t : Fin grid0.N, win0_2.index t = ![q0.val, q1.val, 0])

section Value
variable (V : (c : Dev nD) → (b : Ref sig .tc) → Buf (Elt Ideal) ((c : Thread nD τ).loc b))

theorem flushed0_eq (c : Dev nD) (xs : FVec Ideal S3x50000x256 .f32) (ws : FVec Ideal S3x256x64 .f32)
    (hx : V c (Pipeline.arrRef spec0 0) = xs) (hw : V c (Pipeline.arrRef spec0 1) = ws) (t : Fin cfg0.N) :
    (dat0 (F := Ideal) V c).flushed 2 t = ((cfg0.win 2).blk t).view.read (Elt Ideal) (G0 xs ws) := by
  show (cfg0.win 2).cut (grid0.coords t) ((dat0 V c).after 2 t) = _
  dsimp only [dat0, out0_2]
  rw [View.canon_unit_zero hz3]
  simp only [View.ld_unit_zero (S := S1x2000x256) hz3, View.ld_unit_zero (S := S1x256x64) hz3]
  funext y
  show k0_pay1 (iblk0 V c 0 t) (iblk0 V c 1 t) y = G0 xs ws (((cfg0.win 2).blk t).view.emb y)
  obtain ⟨e00, e01, e02, e10, e11, e12, b0, b1, e22⟩ := idx_facts0 t
  have hy0 : (y 0).val < 1 := (y 0).isLt
  refine pay_eq_G0 xs ws _ _ y _ (fun k => ?_) (fun k => ?_)
  · rw [← hx]
    refine congrArg (V c (Pipeline.arrRef spec0 0)) (funext fun a => Fin.ext ?_)
    match a with
    | ⟨0, _⟩ => show win0_0.index t (0 : Fin 3) * 1 + 1 * 0 = win0_2.index t (0 : Fin 3) * 1 + 1 * (y 0).val; omega
    | ⟨1, _⟩ => show win0_0.index t (1 : Fin 3) * 2000 + 1 * (y 1).val = win0_2.index t (1 : Fin 3) * 2000 + 1 * (y 1).val; omega
    | ⟨2, _⟩ => show win0_0.index t (2 : Fin 3) * 256 + 1 * k.val = k.val; omega
  · rw [← hw]
    refine congrArg (V c (Pipeline.arrRef spec0 1)) (funext fun a => Fin.ext ?_)
    match a with
    | ⟨0, _⟩ => show win0_1.index t (0 : Fin 3) * 1 + 1 * 0 = win0_2.index t (0 : Fin 3) * 1 + 1 * (y 0).val; omega
    | ⟨1, _⟩ => show win0_1.index t (1 : Fin 3) * 256 + 1 * k.val = k.val; omega
    | ⟨2, _⟩ => show win0_1.index t (2 : Fin 3) * 64 + 1 * (y 2).val = win0_2.index t (2 : Fin 3) * 64 + 1 * (y 2).val; omega

theorem mem_blk0 (t : Fin cfg0.N) (i : S3x50000x64.Idx) :
    i ∈ ((cfg0.win 2).blk t).view.set ↔ ∀ a : Fin 3, win0_2.index t a * S1x2000x64.size a ≤ (i a).val ∧ (i a).val < win0_2.index t a * S1x2000x64.size a + S1x2000x64.size a := by
  show i ∈ ((View.whole main_v90).slice (win0_2.rect t)).set ↔ _
  rw [View.set_slice_whole, Rect.mem_set_unit]
  exact Iff.rfl

theorem cover0 (i : S3x50000x64.Idx) :
    ∃ t : Fin cfg0.N, (cfg0.win 2).flush t = true ∧ i ∈ ((cfg0.win 2).blk t).view.set := by
  have hi0 : (i 0).val < 3 := (i 0).isLt
  have hi1 : (i 1).val < 50000 := (i 1).isLt
  have hi2 : (i 2).val < 64 := (i 2).isLt
  obtain ⟨t, ht⟩ := idx_onto0 ⟨(i 0).val, hi0⟩ ⟨(i 1).val / 2000, by omega⟩
  have q0 : win0_2.index t (0 : Fin 3) = (i 0).val := congrFun ht 0
  have q1 : win0_2.index t (1 : Fin 3) = (i 1).val / 2000 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2000 ≤ (i 1).val ∧ (i 1).val < win0_2.index t (1 : Fin 3) * 2000 + 2000; omega
  | ⟨2, _⟩ => show win0_2.index t (2 : Fin 3) * 64 ≤ (i 2).val ∧ (i 2).val < win0_2.index t (2 : Fin 3) * 64 + 64; omega

theorem val0 (c : Dev nD) (xs : FVec Ideal S3x50000x256 .f32) (ws : FVec Ideal S3x256x64 .f32)
    (hx : V c (Pipeline.arrRef spec0 0) = xs) (hw : V c (Pipeline.arrRef spec0 1) = ws) :
    (dat0 (F := Ideal) V c).arrAt 2 cfg0.N
      = fun j : S3x50000x64.Idx => ∑ k : Fin 256, xs (ix3 (j 0) (j 1) k) * ws (ix3 (j 0) k (j 2)) :=
  (dat0 (F := Ideal) V c).arrAt_eq_of_cover 2 (G0 xs ws) (fun t _ => flushed0_eq V c xs ws hx hw t) cover0

end Value
end Cert.KernelIdeal.Hand
end
-- ==== Proof.KI.R0Host.lean ====
import proofs.«145333_j32066225832361_2_alg».proof.Proof.KI.R0Val
import proofs.«145333_j32066225832361_2_alg».proof.Proof.Gen.ReferenceIdeal
import proofs.«145333_j32066225832361_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

theorem member_apply (A : S3x50000x64.Idx → EReal) (o : Nat) (ho : o < 3) (h : S3x50000x64.Slices ![o, 0, 0] S1x50000x64)
    (r : Fin 50000) (n : Fin 64) :
    shapeCast S50000x64 (extractStridedSlice S1x50000x64 ![o, 0, 0] A h) shapeCasts_S1x50000x64_S50000x64 (ix2 r n)
      = A (ix3 (⟨o, ho⟩ : Fin 3) r n) := by
  refine (shapeCast_1ab_ab_apply _ _ r n).trans ?_
  exact extractStridedSlice_apply _ A h _ (ix3 (⟨o, ho⟩ : Fin 3) r n) (fun a => match a with
    | ⟨0, _⟩ => rfl
    | ⟨1, _⟩ => (Nat.zero_add _).symm
    | ⟨2, _⟩ => (Nat.zero_add _).symm)

theorem bcast_unit_apply {α : Type} {a b : ℕ} (x : (⟨2, ![a, b]⟩ : Shape).Idx → α)
    (h : (⟨2, ![a, b]⟩ : Shape).BroadcastsInDim ⟨3, ![1, a, b]⟩ ![1, 2]) (ha : a ≠ 1) (hb : b ≠ 1)
    (u : Fin 1) (i : Fin a) (j : Fin b) :
    broadcastInDim ⟨3, ![1, a, b]⟩ ![1, 2] h x (ix3 u i j) = x (ix2 i j) :=
  broadcastInDim_apply _ h x _ (ix2 i j) (fun ax => match ax with
    | ⟨0, _⟩ => by show i.val = if a = 1 then 0 else i.val; rw [if_neg ha]
    | ⟨1, _⟩ => by show j.val = if b = 1 then 0 else j.val; rw [if_neg hb])

theorem stack3_apply {α : Type} {a b : ℕ} (y : Fin 3 → (⟨3, ![1, a, b]⟩ : Shape).Idx → α)
    (h : Shape.Concatenates [(⟨3, ![1, a, b]⟩ : Shape), ⟨3, ![1, a, b]⟩, ⟨3, ![1, a, b]⟩] ⟨3, ![3, a, b]⟩ 0)
    (o : Fin 3) (i : Fin a) (j : Fin b) :
    concatenate ⟨3, ![3, a, b]⟩ 0 [⟨⟨3, ![1, a, b]⟩, y 0⟩, ⟨⟨3, ![1, a, b]⟩, y 1⟩, ⟨⟨3, ![1, a, b]⟩, y 2⟩] h (ix3 o i j) = y o (ix3 (0 : Fin 1) i j) := by
  refine concatenate_apply_piece (t := ⟨3, ![3, a, b]⟩) 0 _ _ (ix3 o i j) o.val ?_ _ (y o) ?_ rfl o.val ?_ (ix3 (0 : Fin 1) i j)
    (fun ax hax => match ax, hax with
      | ⟨0, _⟩, hax => absurd rfl hax
      | ⟨1, _⟩, _ => rfl
      | ⟨2, _⟩, _ => rfl) rfl
  · exact o.isLt
  · fin_cases o <;> rfl
  · fin_cases o <;> rfl

theorem stackB_apply {α : Type} {a b : ℕ} (x : Fin 3 → (⟨2, ![a, b]⟩ : Shape).Idx → α)
    (hb : (⟨2, ![a, b]⟩ : Shape).BroadcastsInDim ⟨3, ![1, a, b]⟩ ![1, 2])
    (h : Shape.Concatenates [(⟨3, ![1, a, b]⟩ : Shape), ⟨3, ![1, a, b]⟩, ⟨3, ![1, a, b]⟩] ⟨3, ![3, a, b]⟩ 0)
    (ha : a ≠ 1) (hb1 : b ≠ 1) (o : Fin 3) (i : Fin a) (j : Fin b) :
    concatenate ⟨3, ![3, a, b]⟩ 0 [⟨⟨3, ![1, a, b]⟩, broadcastInDim ⟨3, ![1, a, b]⟩ ![1, 2] hb (x 0)⟩,
      ⟨⟨3, ![1, a, b]⟩, broadcastInDim ⟨3, ![1, a, b]⟩ ![1, 2] hb (x 1)⟩,
      ⟨⟨3, ![1, a, b]⟩, broadcastInDim ⟨3, ![1, a, b]⟩ ![1, 2] hb (x 2)⟩] h (ix3 o i j) = x o (ix2 i j) :=
  (stack3_apply (fun o => broadcastInDim ⟨3, ![1, a, b]⟩ ![1, 2] hb (x o)) h o i j).trans (bcast_unit_apply (x o) hb ha hb1 0 i j)

theorem lhsIdxR (r : Fin 50000) (n : Fin 64) (k : Fin 256) :
    Cert.ReferenceIdeal.dot_S50000x256_S256x64_S50000x64_1_0_0_1_n_n.lhsIdx (ix2 r n)
      ((contrEquiv1 Cert.ReferenceIdeal.dot_S50000x256_S256x64_S50000x64_1_0_0_1_n_n 256 rfl rfl).symm k) = ix2 r k := by
  have ck := contrEquiv1_symm_val Cert.ReferenceIdeal.dot_S50000x256_S256x64_S50000x64_1_0_0_1_n_n 256 rfl rfl k
  funext ax; apply Fin.ext
  match ax with
  | ⟨0, _⟩ => simp [DotDims.lhsIdx, Cert.ReferenceIdeal.dot_S50000x256_S256x64_S50000x64_1_0_0_1_n_n]; rfl
  | ⟨1, _⟩ => simp [DotDims.lhsIdx, Cert.ReferenceIdeal.dot_S50000x256_S256x64_S50000x64_1_0_0_1_n_n]; exact ck

theorem rhsIdxR (r : Fin 50000) (n : Fin 64) (k : Fin 256) :
    Cert.ReferenceIdeal.dot_S50000x256_S256x64_S50000x64_1_0_0_1_n_n.rhsIdx (ix2 r n)
      ((contrEquiv1 Cert.ReferenceIdeal.dot_S50000x256_S256x64_S50000x64_1_0_0_1_n_n 256 rfl rfl).symm k) = ix2 k n := by
  have ck := contrEquiv1_symm_val Cert.ReferenceIdeal.dot_S50000x256_S256x64_S50000x64_1_0_0_1_n_n 256 rfl rfl k
  funext ax; apply Fin.ext
  match ax with
  | ⟨0, _⟩ => simp [DotDims.rhsIdx, Cert.ReferenceIdeal.dot_S50000x256_S256x64_S50000x64_1_0_0_1_n_n]; exact ck
  | ⟨1, _⟩ => simp [DotDims.rhsIdx, Cert.ReferenceIdeal.dot_S50000x256_S256x64_S50000x64_1_0_0_1_n_n]; rfl

theorem mm1_apply (x : (⟨S50000x256, .f32⟩ : BufTy).Contents (Elt Ideal)) (W : (⟨S256x64, .f32⟩ : BufTy).Contents (Elt Ideal))
    (r : Fin 50000) (n : Fin 64) :
    Cert.Spec.mm1 x W (ix2 r n) = ∑ k : Fin 256, x (ix2 r k) * W (ix2 k n) := by
  unfold Cert.Spec.mm1
  refine (Ideal.dotGeneral_apply Cert.ReferenceIdeal.dot_S50000x256_S256x64_S50000x64_1_0_0_1_n_n none .single x W (ix2 r n)).trans ?_
  rw [← Equiv.sum_comp (contrEquiv1 Cert.ReferenceIdeal.dot_S50000x256_S256x64_S50000x64_1_0_0_1_n_n 256 rfl rfl).symm]
  refine Finset.sum_congr rfl fun k _ => ?_
  rw [lhsIdxR, rhsIdxR]

abbrev xstack (x1 x2 x3 : (⟨S50000x256, .f32⟩ : BufTy).Contents (Elt Ideal)) : FVec Ideal S3x50000x256 .f32 :=
  concatenate S3x50000x256 0 [⟨S1x50000x256, broadcastInDim S1x50000x256 ![1, 2] bcast_S50000x256_S1x50000x256_1_2 x1⟩,
    ⟨S1x50000x256, broadcastInDim S1x50000x256 ![1, 2] bcast_S50000x256_S1x50000x256_1_2 x2⟩,
    ⟨S1x50000x256, broadcastInDim S1x50000x256 ![1, 2] bcast_S50000x256_S1x50000x256_1_2 x3⟩]
    concatenates_S1x50000x256_S1x50000x256_S1x50000x256_S3x50000x256_d0

abbrev wstack (W1 W2 W3 : (⟨S256x64, .f32⟩ : BufTy).Contents (Elt Ideal)) : FVec Ideal S3x256x64 .f32 :=
  concatenate S3x256x64 0 [⟨S1x256x64, broadcastInDim S1x256x64 ![1, 2] bcast_S256x64_S1x256x64_1_2 W1⟩,
    ⟨S1x256x64, broadcastInDim S1x256x64 ![1, 2] bcast_S256x64_S1x256x64_1_2 W2⟩,
    ⟨S1x256x64, broadcastInDim S1x256x64 ![1, 2] bcast_S256x64_S1x256x64_1_2 W3⟩]
    concatenates_S1x256x64_S1x256x64_S1x256x64_S3x256x64_d0

section Members
variable (V : (c : Dev nD) → (b : Ref sig .tc) → Buf (Elt Ideal) ((c : Thread nD τ).loc b))

theorem val0_member (c : Dev nD) (x1 x2 x3 : (⟨S50000x256, .f32⟩ : BufTy).Contents (Elt Ideal))
    (W1 W2 W3 : (⟨S256x64, .f32⟩ : BufTy).Contents (Elt Ideal))
    (hx : V c (Pipeline.arrRef spec0 0) = xstack x1 x2 x3) (hw : V c (Pipeline.arrRef spec0 1) = wstack W1 W2 W3)
    (o : Fin 3) (h : S3x50000x64.Slices ![o.val, 0, 0] S1x50000x64) :
    (fun i => shapeCast S50000x64 (extractStridedSlice S1x50000x64 ![o.val, 0, 0] ((dat0 (F := Ideal) V c).arrAt 2 cfg0.N) h)
        shapeCasts_S1x50000x64_S50000x64 i) = Cert.Spec.mm1 (![x1, x2, x3] o) (![W1, W2, W3] o) := by
  rw [val0 V c _ _ hx hw]
  funext i
  obtain ⟨r, n, rfl⟩ : ∃ (r : Fin 50000) (n : Fin 64), i = ix2 r n := ⟨i 0, i 1, eq_ix2 i⟩
  refine (member_apply _ o.val o.isLt h r n).trans ?_
  rw [mm1_apply]
  refine Finset.sum_congr rfl fun k _ => ?_
  exact congrArg₂ (· * ·) (stackB_apply ![x1, x2, x3] _ _ (by decide) (by decide) o r k)
    (stackB_apply ![W1, W2, W3] _ _ (by decide) (by decide) o k n)

theorem val0_h0 (c : Dev nD) (x1 x2 x3 : (⟨S50000x256, .f32⟩ : BufTy).Contents (Elt Ideal))
    (W1 W2 W3 : (⟨S256x64, .f32⟩ : BufTy).Contents (Elt Ideal))
    (hx : V c (Pipeline.arrRef spec0 0) = xstack x1 x2 x3) (hw : V c (Pipeline.arrRef spec0 1) = wstack W1 W2 W3) :
    (fun i => shapeCast S50000x64 (extractStridedSlice S1x50000x64 ![0, 0, 0] ((dat0 (F := Ideal) V c).arrAt 2 cfg0.N)
        slices_S3x50000x64_S1x50000x64_0_0_0) shapeCasts_S1x50000x64_S50000x64 i) = Cert.Spec.mm1 x1 W1 :=
  val0_member V c x1 x2 x3 W1 W2 W3 hx hw 0 _

theorem val0_h1 (c : Dev nD) (x1 x2 x3 : (⟨S50000x256, .f32⟩ : BufTy).Contents (Elt Ideal))
    (W1 W2 W3 : (⟨S256x64, .f32⟩ : BufTy).Contents (Elt Ideal))
    (hx : V c (Pipeline.arrRef spec0 0) = xstack x1 x2 x3) (hw : V c (Pipeline.arrRef spec0 1) = wstack W1 W2 W3) :
    (fun i => shapeCast S50000x64 (extractStridedSlice S1x50000x64 ![1, 0, 0] ((dat0 (F := Ideal) V c).arrAt 2 cfg0.N)
        slices_S3x50000x64_S1x50000x64_1_0_0) shapeCasts_S1x50000x64_S50000x64 i) = Cert.Spec.mm1 x2 W2 :=
  val0_member V c x1 x2 x3 W1 W2 W3 hx hw 1 _

theorem val0_h2 (c : Dev nD) (x1 x2 x3 : (⟨S50000x256, .f32⟩ : BufTy).Contents (Elt Ideal))
    (W1 W2 W3 : (⟨S256x64, .f32⟩ : BufTy).Contents (Elt Ideal))
    (hx : V c (Pipeline.arrRef spec0 0) = xstack x1 x2 x3) (hw : V c (Pipeline.arrRef spec0 1) = wstack W1 W2 W3) :
    (fun i => shapeCast S50000x64 (extractStridedSlice S1x50000x64 ![2, 0, 0] ((dat0 (F := Ideal) V c).arrAt 2 cfg0.N)
        slices_S3x50000x64_S1x50000x64_2_0_0) shapeCasts_S1x50000x64_S50000x64 i) = Cert.Spec.mm1 x3 W3 :=
  val0_member V c x1 x2 x3 W1 W2 W3 hx hw 2 _

end Members

end Cert.KernelIdeal.Hand
end
-- ==== Proof.KI.KVal1.lean ====
import proofs.«145333_j32066225832361_2_alg».proof.Proof.KI.KRun
import proofs.«145333_j32066225832361_2_alg».proof.Proof.KI.KVA2
import proofs.«145333_j32066225832361_2_alg».proof.Proof.KI.KVK
import proofs.«145333_j32066225832361_2_alg».proof.Proof.KI.R0Host

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "X1" => m ((c : Thread nD τ).loc main_arg0)
local notation "X2" => m ((c : Thread nD τ).loc main_arg1)
local notation "X3" => m ((c : Thread nD τ).loc main_arg2)
local notation "EI1" => m ((c : Thread nD τ).loc main_arg3)
local notation "EI2" => m ((c : Thread nD τ).loc main_arg4)
local notation "EI3" => m ((c : Thread nD τ).loc main_arg5)
local notation "EW1" => m ((c : Thread nD τ).loc main_arg6)
local notation "EW2" => m ((c : Thread nD τ).loc main_arg7)
local notation "EW3" => m ((c : Thread nD τ).loc main_arg8)
local notation "WA1" => m ((c : Thread nD τ).loc main_arg9)
local notation "WA2" => m ((c : Thread nD τ).loc main_arg10)
local notation "WA3" => m ((c : Thread nD τ).loc main_arg11)

theorem W3_norm1 : W3 m ρ c (Proc.devRef .tc main_v25) = Cert.Spec.norm EI1 EW1 :=
  (Pipeline.withArrays_of_ne spec0 c _ _ main_v25 (by decide)).trans (evA_norm1 (W0 m ρ c))
theorem W3_norm2 : W3 m ρ c (Proc.devRef .tc main_v51) = Cert.Spec.norm EI2 EW2 :=
  (Pipeline.withArrays_of_ne spec0 c _ _ main_v51 (by decide)).trans (evA_norm2 (W0 m ρ c))
theorem W3_norm3 : W3 m ρ c (Proc.devRef .tc main_v77) = Cert.Spec.norm EI3 EW3 :=
  (Pipeline.withArrays_of_ne spec0 c _ _ main_v77 (by decide)).trans (evA_norm3 (W0 m ρ c))
theorem W6_norm1 : W6 m ρ c (Proc.devRef .tc main_v25) = Cert.Spec.norm EI1 EW1 :=
  (Pipeline.withArrays_of_ne spec1 c _ _ main_v25 (by decide)).trans ((evB_norm1 (W3 m ρ c)).trans (W3_norm1 m ρ c))
theorem W6_norm2 : W6 m ρ c (Proc.devRef .tc main_v51) = Cert.Spec.norm EI2 EW2 :=
  (Pipeline.withArrays_of_ne spec1 c _ _ main_v51 (by decide)).trans ((evB_norm2 (W3 m ρ c)).trans (W3_norm2 m ρ c))
theorem W6_norm3 : W6 m ρ c (Proc.devRef .tc main_v77) = Cert.Spec.norm EI3 EW3 :=
  (Pipeline.withArrays_of_ne spec1 c _ _ main_v77 (by decide)).trans ((evB_norm3 (W3 m ρ c)).trans (W3_norm3 m ρ c))

abbrev DALL : (⟨S50000x3, .f32⟩ : BufTy).Contents (Elt Ideal) := dcat (Cert.Spec.dinv EI1 EW1) (Cert.Spec.dinv EI2 EW2) (Cert.Spec.dinv EI3 EW3)
theorem W5_dall : W5 m ρ c (Proc.devRef .tc main_v81) = DALL m c :=
  (evB_dall (W3 m ρ c)).trans ((Pipeline.withArrays_of_ne spec0 c _ _ main_v81 (by decide)).trans (evA_dall (W0 m ρ c)))
theorem W8_dall : W8 m ρ c (Proc.devRef .tc main_v81) = DALL m c :=
  (evC_dall (W6 m ρ c)).trans ((Pipeline.withArrays_arr spec1 launch1.win.arr_inj c _ _ 6).trans ((in1 m ρ c 6 rfl).trans (W5_dall m ρ c)))

theorem H1_eq : hsl0 (W3 m ρ c (Proc.devRef .tc main_v90)) = Cert.Spec.mm1 X1 WA1 :=
  (congrArg hsl0 (Pipeline.withArrays_arr spec0 launch0.win.arr_inj c _ _ 2)).trans (val0_h0 (V2 m ρ) c _ _ _ _ _ _ (evA_xs (W0 m ρ c)) (evA_ws (W0 m ρ c)))
theorem H2_eq : hsl1 (W3 m ρ c (Proc.devRef .tc main_v90)) = Cert.Spec.mm1 X2 WA2 :=
  (congrArg hsl1 (Pipeline.withArrays_arr spec0 launch0.win.arr_inj c _ _ 2)).trans (val0_h1 (V2 m ρ) c _ _ _ _ _ _ (evA_xs (W0 m ρ c)) (evA_ws (W0 m ρ c)))
theorem H3_eq : hsl2 (W3 m ρ c (Proc.devRef .tc main_v90)) = Cert.Spec.mm1 X3 WA3 :=
  (congrArg hsl2 (Pipeline.withArrays_arr spec0 launch0.win.arr_inj c _ _ 2)).trans (val0_h2 (V2 m ρ) c _ _ _ _ _ _ (evA_xs (W0 m ρ c)) (evA_ws (W0 m ρ c)))

end Cert.KernelIdeal.Hand

end
-- ==== Proof.KI.R1Pay.lean ====
import proofs.«145333_j32066225832361_2_alg».proof.Proof.Gen.KernelIdeal.Skeleton
import proofs.«145333_j32066225832361_2_alg».proof.Proof.Gen.ReferenceIdeal
import proofs.«145333_j32066225832361_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx
open Cert.KernelIdeal.Facts₀

section Layout
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem concat3_apply0 {a m n : ℕ} (x0 x1 x2 : (⟨2, ![a, m]⟩ : Shape).Idx → α)
    (h : Shape.Concatenates [(⟨2, ![a, m]⟩ : Shape), ⟨2, ![a, m]⟩, ⟨2, ![a, m]⟩] ⟨2, ![a, n]⟩ 1)
    (p : Fin a) (q : Fin m) (c : Fin n) (hc : c.val = q.val) :
    concatenate ⟨2, ![a, n]⟩ 1 [⟨⟨2, ![a, m]⟩, x0⟩, ⟨⟨2, ![a, m]⟩, x1⟩, ⟨⟨2, ![a, m]⟩, x2⟩] h (ix2 p c) = x0 (ix2 p q) := by
  refine concatenate_apply_piece (t := ⟨2, ![a, n]⟩) (1 : Fin 2) [⟨⟨2, ![a, m]⟩, x0⟩, ⟨⟨2, ![a, m]⟩, x1⟩, ⟨⟨2, ![a, m]⟩, x2⟩] h (ix2 p c) 0 (by simp) _ x0 rfl rfl 0 rfl (ix2 p q) (fun b hb => ?_) ?_
  · match b with
    | ⟨0, _⟩ => rfl
    | ⟨1, _⟩ => exact absurd rfl hb
  · show 0 + q.val = c.val
    omega

theorem concat3_apply1 {a m n : ℕ} (x0 x1 x2 : (⟨2, ![a, m]⟩ : Shape).Idx → α)
    (h : Shape.Concatenates [(⟨2, ![a, m]⟩ : Shape), ⟨2, ![a, m]⟩, ⟨2, ![a, m]⟩] ⟨2, ![a, n]⟩ 1)
    (p : Fin a) (q : Fin m) (c : Fin n) (hc : c.val = m + q.val) :
    concatenate ⟨2, ![a, n]⟩ 1 [⟨⟨2, ![a, m]⟩, x0⟩, ⟨⟨2, ![a, m]⟩, x1⟩, ⟨⟨2, ![a, m]⟩, x2⟩] h (ix2 p c) = x1 (ix2 p q) := by
  refine concatenate_apply_piece (t := ⟨2, ![a, n]⟩) (1 : Fin 2) [⟨⟨2, ![a, m]⟩, x0⟩, ⟨⟨2, ![a, m]⟩, x1⟩, ⟨⟨2, ![a, m]⟩, x2⟩] h (ix2 p c) 1 (by simp) _ x1 rfl rfl (m + 0) rfl (ix2 p q) (fun b hb => ?_) ?_
  · match b with
    | ⟨0, _⟩ => rfl
    | ⟨1, _⟩ => exact absurd rfl hb
  · show m + 0 + q.val = c.val
    omega

theorem concat3_apply2 {a m n : ℕ} (x0 x1 x2 : (⟨2, ![a, m]⟩ : Shape).Idx → α)
    (h : Shape.Concatenates [(⟨2, ![a, m]⟩ : Shape), ⟨2, ![a, m]⟩, ⟨2, ![a, m]⟩] ⟨2, ![a, n]⟩ 1)
    (p : Fin a) (q : Fin m) (c : Fin n) (hc : c.val = m + m + q.val) :
    concatenate ⟨2, ![a, n]⟩ 1 [⟨⟨2, ![a, m]⟩, x0⟩, ⟨⟨2, ![a, m]⟩, x1⟩, ⟨⟨2, ![a, m]⟩, x2⟩] h (ix2 p c) = x2 (ix2 p q) := by
  refine concatenate_apply_piece (t := ⟨2, ![a, n]⟩) (1 : Fin 2) [⟨⟨2, ![a, m]⟩, x0⟩, ⟨⟨2, ![a, m]⟩, x1⟩, ⟨⟨2, ![a, m]⟩, x2⟩] h (ix2 p c) 2 (by simp) _ x2 rfl rfl (m + (m + 0)) rfl (ix2 p q) (fun b hb => ?_) ?_
  · match b with
    | ⟨0, _⟩ => rfl
    | ⟨1, _⟩ => exact absurd rfl hb
  · show m + (m + 0) + q.val = c.val
    omega

end Layout

section Matmul

theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply _ prec A B _).trans
    ((Ideal.dotGeneral_apply _ prec _ A B _).symm.trans (StackMember.dotGeneral_plain_apply prec A B a b))

theorem dot_64x1_eq_plain : dot_S2000x64_S64x1_S2000x1_1_0_0_1_n_n = DotDims.plain 2000 64 1 := rfl
theorem dot_64x32_eq_plain : dot_S2000x64_S64x32_S2000x32_1_0_0_1_n_n = DotDims.plain 2000 64 32 := rfl

end Matmul

section Pay

def leakyExp (s : EReal) : EReal :=
  Ideal.exp (Scalar.select (Ideal.cmp .oge s (Ideal.ofBits .f32 0x00000000#32)) s (Ideal.ofBits .f32 0x3C23D70A#32 * s))

theorem pay5_eq (dv : Vec Ideal S2000x3 .f32) : k1_pay5 dv = dv := shapeCast_self _ _
theorem pay9_eq (b : Vec Ideal S1x64 .f32) : k1_pay9 b = b := shapeCast_self _ _
theorem pay13_eq (fb : Vec Ideal S1x1 .f32) : k1_pay13 fb = fb := shapeCast_self _ _

theorem pay6_apply (dv : Vec Ideal S2000x3 .f32) (a h : Vec Ideal S2000x64 .f32) (b : Vec Ideal S1x64 .f32)
    (r : Fin 2000) (k : Fin 64) :
    k1_pay6 dv a h b (ix2 r k)
      = (a (ix2 r k) + (dv (ix2 r (0 : Fin 3)) * dv (ix2 r (0 : Fin 3))) * h (ix2 r k)) + b (ix2 (0 : Fin 1) k) := by
  unfold k1_pay6
  simp only [pay5_eq, shapeCast_self]
  rw [addf_apply, addf_apply, mulf_apply, broadcastTo_1b_ab_apply, broadcastTo_a1_ab_apply, mulf_apply,
    slice2_axis1_apply 0 dv _ r (0 : Fin 1) (0 : Fin 3) rfl]

theorem pay7_apply (dv : Vec Ideal S2000x3 .f32) (a h : Vec Ideal S2000x64 .f32) (b : Vec Ideal S1x64 .f32)
    (r : Fin 2000) (k : Fin 64) :
    k1_pay7 dv a h b (ix2 r k)
      = (a (ix2 r k) + (dv (ix2 r (1 : Fin 3)) * dv (ix2 r (1 : Fin 3))) * h (ix2 r k)) + b (ix2 (0 : Fin 1) k) := by
  unfold k1_pay7
  simp only [pay5_eq, shapeCast_self]
  rw [addf_apply, addf_apply, mulf_apply, broadcastTo_1b_ab_apply, broadcastTo_a1_ab_apply, mulf_apply,
    slice2_axis1_apply 1 dv _ r (0 : Fin 1) (1 : Fin 3) rfl]

theorem pay8_apply (dv : Vec Ideal S2000x3 .f32) (a h : Vec Ideal S2000x64 .f32) (r : Fin 2000) (k : Fin 64) :
    k1_pay8 dv a h (ix2 r k)
      = a (ix2 r k) + (dv (ix2 r (2 : Fin 3)) * dv (ix2 r (2 : Fin 3))) * h (ix2 r k) := by
  unfold k1_pay8
  simp only [pay5_eq, shapeCast_self]
  rw [addf_apply, mulf_apply, broadcastTo_a1_ab_apply, mulf_apply,
    slice2_axis1_apply 2 dv _ r (0 : Fin 1) (2 : Fin 3) rfl]

theorem pay10_apply (v : FVec Ideal S2000x64 .f32) (i : S2000x64.Idx) :
    k1_pay10 v i = max (v i) (Ideal.ofBits .f32 0x00000000#32) := rfl
theorem pay11_apply (v : FVec Ideal S2000x64 .f32) (i : S2000x64.Idx) :
    k1_pay11 v i = max (v i) (Ideal.ofBits .f32 0x00000000#32) := rfl

theorem pay12_apply (v : FVec Ideal S2000x64 .f32) (b : FVec Ideal S1x64 .f32) (r : Fin 2000) (k : Fin 64) :
    k1_pay12 v b (ix2 r k) = max (v (ix2 r k) + b (ix2 (0 : Fin 1) k)) (Ideal.ofBits .f32 0x00000000#32) := by
  unfold k1_pay12
  rw [maximumf_apply, addf_apply, broadcastTo_1b_ab_apply]
  rfl

end Pay

section Pay2

theorem exp_apply {s : Shape} {φ : FTy} (a : FVec Ideal s φ) (i : s.Idx) : exp a i = Ideal.exp (a i) := rfl

theorem pay14_apply (v : FVec Ideal S2000x64 .f32) (fcw : Vec Ideal S64x1 .f32) (fcb : Vec Ideal S1x1 .f32) (r : Fin 2000) :
    k1_pay14 v fcw fcb (ix2 r (0 : Fin 1))
      = leakyExp ((∑ k : Fin 64, max (v (ix2 r k)) (Ideal.ofBits .f32 0x00000000#32) * fcw (ix2 k (0 : Fin 1)))
          + fcb (ix2 (0 : Fin 1) (0 : Fin 1))) := by
  unfold k1_pay14
  simp only [pay13_eq, dot_64x1_eq_plain]
  rw [exp_apply, select_apply, cmpf_apply, mulf_apply, addf_apply, matmul_plain_zero_apply, broadcastTo_1b_ab_apply]
  simp only [pay10_apply]
  rfl

theorem pay15_apply (v : FVec Ideal S2000x64 .f32) (fcw : Vec Ideal S64x1 .f32) (fcb : Vec Ideal S1x1 .f32) (r : Fin 2000) :
    k1_pay15 v fcw fcb (ix2 r (0 : Fin 1))
      = leakyExp ((∑ k : Fin 64, max (v (ix2 r k)) (Ideal.ofBits .f32 0x00000000#32) * fcw (ix2 k (0 : Fin 1)))
          + fcb (ix2 (0 : Fin 1) (0 : Fin 1))) := pay14_apply v fcw fcb r

theorem pay16_apply (v : FVec Ideal S2000x64 .f32) (b : FVec Ideal S1x64 .f32) (fcw : Vec Ideal S64x1 .f32)
    (fcb : Vec Ideal S1x1 .f32) (r : Fin 2000) :
    k1_pay16 v b fcw fcb (ix2 r (0 : Fin 1))
      = leakyExp ((∑ k : Fin 64, max (v (ix2 r k) + b (ix2 (0 : Fin 1) k)) (Ideal.ofBits .f32 0x00000000#32) * fcw (ix2 k (0 : Fin 1)))
          + fcb (ix2 (0 : Fin 1) (0 : Fin 1))) := by
  unfold k1_pay16
  simp only [pay13_eq, dot_64x1_eq_plain]
  rw [exp_apply, select_apply, cmpf_apply, mulf_apply, addf_apply, matmul_plain_zero_apply, broadcastTo_1b_ab_apply]
  simp only [pay12_apply]
  rfl

theorem pay17_apply (v16 v28 v36 : FVec Ideal S2000x64 .f32) (v38 : FVec Ideal S1x64 .f32) (fcw : Vec Ideal S64x1 .f32)
    (fcb : Vec Ideal S1x1 .f32) (i : S2000x1.Idx) :
    k1_pay17 v16 v28 v36 v38 fcw fcb i
      = Ideal.div (Ideal.ofBits .f32 0x3F800000#32)
          ((k1_pay14 v16 fcw fcb i + k1_pay15 v28 fcw fcb i) + k1_pay16 v36 v38 fcw fcb i) := rfl

theorem pay18_apply (v16 v28 v36 : FVec Ideal S2000x64 .f32) (v38 : FVec Ideal S1x64 .f32) (fcw : Vec Ideal S64x1 .f32)
    (fcb : Vec Ideal S1x1 .f32) (i : S2000x1.Idx) :
    k1_pay18 v16 v28 v36 v38 fcw fcb i = k1_pay14 v16 fcw fcb i * k1_pay17 v16 v28 v36 v38 fcw fcb i := rfl

theorem pay1_apply (c inv : FVec Ideal S2000x1 .f32) (i : S2000x1.Idx) : k1_pay1 c inv i = c i * inv i := rfl
theorem pay2_apply (c inv : FVec Ideal S2000x1 .f32) (i : S2000x1.Idx) : k1_pay2 c inv i = c i * inv i := rfl

theorem pay3_apply0 (c2 c3 inv coef1 : FVec Ideal S2000x1 .f32) (r : Fin 2000) :
    k1_pay3 c2 c3 inv coef1 (ix2 r (0 : Fin 3)) = coef1 (ix2 r (0 : Fin 1)) := by
  unfold k1_pay3
  exact concat3_apply0 _ _ _ _ r (0 : Fin 1) (0 : Fin 3) rfl

theorem pay3_apply1 (c2 c3 inv coef1 : FVec Ideal S2000x1 .f32) (r : Fin 2000) :
    k1_pay3 c2 c3 inv coef1 (ix2 r (1 : Fin 3)) = c2 (ix2 r (0 : Fin 1)) * inv (ix2 r (0 : Fin 1)) := by
  unfold k1_pay3
  exact (concat3_apply1 _ _ _ _ r (0 : Fin 1) (1 : Fin 3) rfl).trans rfl

theorem pay3_apply2 (c2 c3 inv coef1 : FVec Ideal S2000x1 .f32) (r : Fin 2000) :
    k1_pay3 c2 c3 inv coef1 (ix2 r (2 : Fin 3)) = c3 (ix2 r (0 : Fin 1)) * inv (ix2 r (0 : Fin 1)) := by
  unfold k1_pay3
  exact (concat3_apply2 _ _ _ _ r (0 : Fin 1) (2 : Fin 3) rfl).trans rfl

end Pay2

section Pay4

def cmbRow (e1 e2 e3 : FVec Ideal S2000x64 .f32) (c2 c3 inv coef1 : FVec Ideal S2000x1 .f32) (r : Fin 2000) (k : Fin 64) :=
  (e1 (ix2 r k) * coef1 (ix2 r (0 : Fin 1)) + e2 (ix2 r k) * (c2 (ix2 r (0 : Fin 1)) * inv (ix2 r (0 : Fin 1))))
    + e3 (ix2 r k) * (c3 (ix2 r (0 : Fin 1)) * inv (ix2 r (0 : Fin 1)))

theorem pay4_apply (e1 e2 e3 : FVec Ideal S2000x64 .f32) (c2 c3 inv coef1 : FVec Ideal S2000x1 .f32)
    (w1 w2 w3 : Vec Ideal S64x32 .f32) (r : Fin 2000) (q : Fin 32) (c : Fin 96) (j : ℕ) (hc : c.val = 32 * j + q.val) :
    k1_pay4 e1 e2 e3 c2 c3 inv coef1 w1 w2 w3 (ix2 r c)
      = ∑ k : Fin 64, cmbRow e1 e2 e3 c2 c3 inv coef1 r k * (if j = 0 then w1 else if j = 1 then w2 else w3) (ix2 k q) := by
  unfold k1_pay4
  simp only [dot_64x32_eq_plain]
  obtain rfl | rfl | rfl : j = 0 ∨ j = 1 ∨ j = 2 := by have := c.isLt; omega
  · rw [if_pos rfl]
    refine (concat3_apply0 _ _ _ _ r q c (by omega)).trans ?_
    rw [matmul_plain_zero_apply]
    exact Finset.sum_congr rfl fun k _ => by
      simp only [cmbRow, addf_apply, mulf_apply, broadcastTo_a1_ab_apply, pay1_apply, pay2_apply]
  · rw [if_neg (by decide), if_pos rfl]
    refine (concat3_apply1 _ _ _ _ r q c (by omega)).trans ?_
    rw [matmul_plain_zero_apply]
    exact Finset.sum_congr rfl fun k _ => by
      simp only [cmbRow, addf_apply, mulf_apply, broadcastTo_a1_ab_apply, pay1_apply, pay2_apply]
  · rw [if_neg (by decide), if_neg (by decide)]
    refine (concat3_apply2 _ _ _ _ r q c (by omega)).trans ?_
    rw [matmul_plain_zero_apply]
    exact Finset.sum_congr rfl fun k _ => by
      simp only [cmbRow, addf_apply, mulf_apply, broadcastTo_a1_ab_apply, pay1_apply, pay2_apply]

end Pay4

end Cert.KernelIdeal.Hand

end
-- ==== Proof.KI.R1Spec.lean ====
import proofs.«145333_j32066225832361_2_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

set_option maxRecDepth 16384

noncomputable section

open scoped BigOperators

namespace Cert.Spec.R1

open Idealize.ShloMosaic Idealize.ShloMosaic.ValueIdx
open Cert.ReferenceIdeal Cert.Spec

section Layout
variable {α : Type}

theorem bc1 {a : ℕ} (p : Fin a) : p.val = if a = 1 then 0 else p.val := by
  split
  · have := p.isLt; omega
  · rfl

theorem bid_col_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ => exact bc1 p
  | ⟨1, _⟩ => rfl

theorem bid_row_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ => exact bc1 c

theorem bid_vec_col_apply {a : ℕ} (x : (⟨1, ![a]⟩ : Shape).Idx → α)
    (h : (⟨1, ![a]⟩ : Shape).BroadcastsInDim ⟨2, ![a, 1]⟩ ![0]) (p : Fin a) :
    broadcastInDim ⟨2, ![a, 1]⟩ ![0] h x (ix2 p (0 : Fin 1)) = x (ix1 p) := by
  refine broadcastInDim_apply _ h x (ix2 p (0 : Fin 1)) (ix1 p) fun ax => ?_
  match ax with
  | ⟨0, _⟩ => exact bc1 p

theorem bid_vec_row_apply {b : ℕ} (x : (⟨1, ![b]⟩ : Shape).Idx → α)
    (h : (⟨1, ![b]⟩ : Shape).BroadcastsInDim ⟨2, ![1, b]⟩ ![1]) (c : Fin b) :
    broadcastInDim ⟨2, ![1, b]⟩ ![1] h x (ix2 (0 : Fin 1) c) = x (ix1 c) := by
  refine broadcastInDim_apply _ h x (ix2 (0 : Fin 1) c) (ix1 c) fun ax => ?_
  match ax with
  | ⟨0, _⟩ => exact bc1 c

end Layout

section Stages
variable [Cert.ReferenceIdeal.Facts₀]
open Cert.ReferenceIdeal.Facts₀

theorem dot_64x1_eq_plain : dot_S50000x64_S64x1_S50000x1_1_0_0_1_n_n = DotDims.plain 50000 64 1 := rfl
theorem dot_64x32_eq_plain : dot_S50000x64_S64x32_S50000x32_1_0_0_1_n_n = DotDims.plain 50000 64 32 := rfl

theorem fin64_apply (a : FA (F := Ideal) S50000x64) (dv : FA (F := Ideal) S50000) (h : FA (F := Ideal) S50000x64)
    (b : FA (F := Ideal) S64) (n : Fin 50000) (k : Fin 64) :
    fin64 a dv h b (ix2 n k) = (a (ix2 n k) + (dv (ix1 n) * dv (ix1 n)) * h (ix2 n k)) + b (ix1 k) := by
  unfold fin64
  rw [addf_apply, addf_apply, mulf_apply, bid_col_apply, bid_vec_col_apply, mulf_apply, bid_row_apply, bid_vec_row_apply]

theorem relu64_apply (v : FA (F := Ideal) S50000x64) (i : S50000x64.Idx) :
    relu64 v i = max (v i) (Ideal.ofBits .f32 0x00000000#32) := rfl

theorem logit_apply (e : FA (F := Ideal) S50000x64) (fcw : FA (F := Ideal) S64x1) (fcb : FA (F := Ideal) S1) (n : Fin 50000) :
    logit e fcw fcb (ix2 n (0 : Fin 1)) = (∑ k : Fin 64, e (ix2 n k) * fcw (ix2 k (0 : Fin 1))) + fcb (ix1 (0 : Fin 1)) := by
  unfold logit
  rw [addf_apply, dot_64x1_eq_plain, StackMember.dotGeneral_plain_apply, bid_row_apply, bid_vec_row_apply]

theorem score_apply (s : FA (F := Ideal) S50000x1) (i : S50000x1.Idx) :
    score s i = Ideal.exp (Scalar.select (Ideal.cmp .oge (s i) (Ideal.ofBits .f32 0x00000000#32)) (s i)
      (Ideal.ofBits .f32 0x3C23D70A#32 * s i)) := rfl

theorem coef_apply (c cd : FA (F := Ideal) S50000x1) (i : S50000x1.Idx) : coef c cd i = Ideal.div (c i) (cd i) := rfl

theorem combine_apply (e1 e2 e3 : FA (F := Ideal) S50000x64) (k1 k2 k3 : FA (F := Ideal) S50000x1) (n : Fin 50000) (k : Fin 64) :
    combine e1 e2 e3 k1 k2 k3 (ix2 n k)
      = (e1 (ix2 n k) * k1 (ix2 n (0 : Fin 1)) + e2 (ix2 n k) * k2 (ix2 n (0 : Fin 1))) + e3 (ix2 n k) * k3 (ix2 n (0 : Fin 1)) := by
  unfold combine
  rw [addf_apply, addf_apply, mulf_apply, mulf_apply, mulf_apply, bid_col_apply, bid_col_apply, bid_col_apply]

theorem mm2_apply (x : FA (F := Ideal) S50000x64) (W : FA (F := Ideal) S64x32) (n : Fin 50000) (q : Fin 32) :
    mm2 x W (ix2 n q) = ∑ k : Fin 64, x (ix2 n k) * W (ix2 k q) := by
  unfold mm2
  rw [dot_64x32_eq_plain, StackMember.dotGeneral_plain_apply]

end Stages

end Cert.Spec.R1

end
-- ==== Proof.KI.R1Core.lean ====
import proofs.«145333_j32066225832361_2_alg».proof.Proof.KI.R1Pay
import proofs.«145333_j32066225832361_2_alg».proof.Proof.KI.R1Spec

set_option maxRecDepth 16384

noncomputable section

open scoped BigOperators

namespace Cert.KernelIdeal.Hand

open Cert.KernelIdeal Cert.KernelIdeal.Gen
open Idealize.ShloMosaic Idealize.ShloMosaic.ValueIdx
open Cert.Spec (FA fin64 relu64 logit score total coef combine mm2)
open Cert.Spec.R1 (fin64_apply relu64_apply logit_apply score_apply coef_apply combine_apply mm2_apply)

def row (t : Fin 25) (r : Fin 2000) : Fin 50000 := ⟨t.val * 2000 + r.val, by have := t.isLt; have := r.isLt; omega⟩

theorem mul_div_one_eq_div (c T : EReal) (hT : T ≠ 0) :
    c * Ideal.div (Ideal.ofBits .f32 0x3F800000#32) T = Ideal.div c T := by
  unfold Ideal.div
  rw [if_neg hT, if_neg hT, Ideal.ofBits_one_f32, one_mul]

variable {A1 H1 A2 H2 A3 H3 : FA (F := Ideal) Cert.ReferenceIdeal.S50000x64}
  {d1 d2 d3 : FA (F := Ideal) Cert.ReferenceIdeal.S50000}
  {b1 b2 b3 : FA (F := Ideal) Cert.ReferenceIdeal.S64}
  {FCW : FA (F := Ideal) Cert.ReferenceIdeal.S64x1} {fcb : FA (F := Ideal) Cert.ReferenceIdeal.S1}
  {W11 W22 W33 : FA (F := Ideal) Cert.ReferenceIdeal.S64x32}

section Core
variable (A1 H1 A2 H2 A3 H3 d1 d2 d3 b1 b2 b3 FCW fcb W11 W22 W33)

abbrev Emb (A : FA (F := Ideal) Cert.ReferenceIdeal.S50000x64) (d : FA (F := Ideal) Cert.ReferenceIdeal.S50000)
    (H : FA (F := Ideal) Cert.ReferenceIdeal.S50000x64) (b : FA (F := Ideal) Cert.ReferenceIdeal.S64) :
    FA (F := Ideal) Cert.ReferenceIdeal.S50000x64 := relu64 (fin64 A d H b)
abbrev Sc (E : FA (F := Ideal) Cert.ReferenceIdeal.S50000x64) : FA (F := Ideal) Cert.ReferenceIdeal.S50000x1 :=
  score (logit E FCW fcb)

theorem e_row (t : Fin 25) (A : FA (F := Ideal) Cert.ReferenceIdeal.S50000x64) (d : FA (F := Ideal) Cert.ReferenceIdeal.S50000)
    (H : FA (F := Ideal) Cert.ReferenceIdeal.S50000x64) (b : FA (F := Ideal) Cert.ReferenceIdeal.S64)
    (v : Fin 2000 → Fin 64 → EReal) (hv : ∀ r k, v r k = fin64 A d H b (ix2 (row t r) k)) (r : Fin 2000) (k : Fin 64) :
    max (v r k) (Ideal.ofBits .f32 0x00000000#32) = Emb A d H b (ix2 (row t r) k) := by
  unfold Emb
  rw [relu64_apply, hv]

theorem score_row (t : Fin 25) (E : FA (F := Ideal) Cert.ReferenceIdeal.S50000x64) (e : Fin 2000 → Fin 64 → EReal)
    (he : ∀ r k, e r k = E (ix2 (row t r) k))
    (x10 : Vec Ideal S64x1 .f32) (x11 : Vec Ideal S1x1 .f32) (h10 : x10 = FCW)
    (h11 : x11 (ix2 (0 : Fin 1) (0 : Fin 1)) = fcb (ix1 (0 : Fin 1))) (r : Fin 2000) :
    leakyExp ((∑ k : Fin 64, e r k * x10 (ix2 k (0 : Fin 1))) + x11 (ix2 (0 : Fin 1) (0 : Fin 1)))
      = Sc FCW fcb E (ix2 (row t r) (0 : Fin 1)) := by
  unfold Sc
  rw [score_apply, logit_apply, h10, h11]
  simp only [he]
  rfl

end Core

local notation "C₁" => Sc FCW fcb (Emb A1 d1 H1 b1)
local notation "C₂" => Sc FCW fcb (Emb A2 d2 H2 b2)
local notation "C₃" => Sc FCW fcb (Emb A3 d3 H3 b3)
local notation "Tt" => total C₁ C₂ C₃
local notation "Cmb" => combine (Emb A1 d1 H1 b1) (Emb A2 d2 H2 b2) (Emb A3 d3 H3 b3) (coef C₁ Tt) (coef C₂ Tt) (coef C₃ Tt)

section Out
variable (A1 H1 A2 H2 A3 H3 d1 d2 d3 b1 b2 b3 FCW fcb W11 W22 W33)

def coefArr : Vec Ideal S50000x3 .f32 := fun i =>
  coef (if (i 1).val = 0 then C₁ else if (i 1).val = 1 then C₂ else C₃) Tt
    (ix2 (⟨(i 0).val, idx2_lt0 i⟩ : Fin 50000) (0 : Fin 1))

def featArr : Vec Ideal S50000x96 .f32 := fun i =>
  mm2 Cmb (if (i 1).val / 32 = 0 then W11 else if (i 1).val / 32 = 1 then W22 else W33)
    (ix2 (⟨(i 0).val, idx2_lt0 i⟩ : Fin 50000) (⟨(i 1).val % 32, Nat.mod_lt _ (by decide)⟩ : Fin 32))

theorem coefArr_apply0 (n : Fin 50000) :
    coefArr A1 H1 A2 H2 A3 H3 d1 d2 d3 b1 b2 b3 FCW fcb (ix2 n (0 : Fin 3)) = coef C₁ Tt (ix2 n (0 : Fin 1)) := rfl
theorem coefArr_apply1 (n : Fin 50000) :
    coefArr A1 H1 A2 H2 A3 H3 d1 d2 d3 b1 b2 b3 FCW fcb (ix2 n (1 : Fin 3)) = coef C₂ Tt (ix2 n (0 : Fin 1)) := rfl
theorem coefArr_apply2 (n : Fin 50000) :
    coefArr A1 H1 A2 H2 A3 H3 d1 d2 d3 b1 b2 b3 FCW fcb (ix2 n (2 : Fin 3)) = coef C₃ Tt (ix2 n (0 : Fin 1)) := rfl

theorem featArr_apply (n : Fin 50000) (c : Fin 96) (j : ℕ) (q : Fin 32) (hc : c.val = 32 * j + q.val) :
    featArr A1 H1 A2 H2 A3 H3 d1 d2 d3 b1 b2 b3 FCW fcb W11 W22 W33 (ix2 n c)
      = mm2 Cmb (if j = 0 then W11 else if j = 1 then W22 else W33) (ix2 n q) := by
  have e1 : c.val / 32 = j := by have := q.isLt; omega
  have e2 : (⟨c.val % 32, Nat.mod_lt _ (by decide)⟩ : Fin 32) = q := Fin.ext (by have := q.isLt; show c.val % 32 = q.val; omega)
  show mm2 Cmb (if c.val / 32 = 0 then W11 else if c.val / 32 = 1 then W22 else W33)
    (ix2 n (⟨c.val % 32, Nat.mod_lt _ (by decide)⟩ : Fin 32)) = _
  rw [e1, e2]

end Out

section Tile
variable {t : Fin 25}
  {v1 v2 v3 : FVec Ideal S2000x64 .f32} {b3' : FVec Ideal S1x64 .f32}
  {x10 : Vec Ideal S64x1 .f32} {x11 : Vec Ideal S1x1 .f32} {x12 x13 x14 : Vec Ideal S64x32 .f32}
  (hv1 : ∀ r k, v1 (ix2 r k) = fin64 A1 d1 H1 b1 (ix2 (row t r) k))
  (hv2 : ∀ r k, v2 (ix2 r k) = fin64 A2 d2 H2 b2 (ix2 (row t r) k))
  (hv3 : ∀ r k, v3 (ix2 r k) + b3' (ix2 (0 : Fin 1) k) = fin64 A3 d3 H3 b3 (ix2 (row t r) k))
  (h10 : x10 = FCW) (h11 : x11 (ix2 (0 : Fin 1) (0 : Fin 1)) = fcb (ix1 (0 : Fin 1)))
  (h12 : x12 = W11) (h13 : x13 = W22) (h14 : x14 = W33)

include hv1 in
theorem e1_row (r : Fin 2000) (k : Fin 64) :
    max (v1 (ix2 r k)) (Ideal.ofBits .f32 0x00000000#32) = Emb A1 d1 H1 b1 (ix2 (row t r) k) :=
  e_row t A1 d1 H1 b1 (fun r k => v1 (ix2 r k)) hv1 r k
include hv2 in
theorem e2_row (r : Fin 2000) (k : Fin 64) :
    max (v2 (ix2 r k)) (Ideal.ofBits .f32 0x00000000#32) = Emb A2 d2 H2 b2 (ix2 (row t r) k) :=
  e_row t A2 d2 H2 b2 (fun r k => v2 (ix2 r k)) hv2 r k
include hv3 in
theorem e3_row (r : Fin 2000) (k : Fin 64) :
    max (v3 (ix2 r k) + b3' (ix2 (0 : Fin 1) k)) (Ideal.ofBits .f32 0x00000000#32) = Emb A3 d3 H3 b3 (ix2 (row t r) k) :=
  e_row t A3 d3 H3 b3 (fun r k => v3 (ix2 r k) + b3' (ix2 (0 : Fin 1) k)) hv3 r k

include hv1 h10 h11 in
theorem c1_row (r : Fin 2000) : k1_pay14 v1 x10 x11 (ix2 r (0 : Fin 1)) = C₁ (ix2 (row t r) (0 : Fin 1)) := by
  rw [pay14_apply]
  exact score_row FCW fcb t _ _ (e1_row hv1) x10 x11 h10 h11 r

include hv2 h10 h11 in
theorem c2_row (r : Fin 2000) : k1_pay15 v2 x10 x11 (ix2 r (0 : Fin 1)) = C₂ (ix2 (row t r) (0 : Fin 1)) := by
  rw [pay15_apply]
  exact score_row FCW fcb t _ _ (e2_row hv2) x10 x11 h10 h11 r

include hv3 h10 h11 in
theorem c3_row (r : Fin 2000) : k1_pay16 v3 b3' x10 x11 (ix2 r (0 : Fin 1)) = C₃ (ix2 (row t r) (0 : Fin 1)) := by
  rw [pay16_apply]
  exact score_row FCW fcb t _ _ (e3_row hv3) x10 x11 h10 h11 r

include hv1 hv2 hv3 h10 h11 in

theorem inv_row (r : Fin 2000) :
    k1_pay17 v1 v2 v3 b3' x10 x11 (ix2 r (0 : Fin 1))
      = Ideal.div (Ideal.ofBits .f32 0x3F800000#32) (Tt (ix2 (row t r) (0 : Fin 1))) := by
  rw [pay17_apply, c1_row hv1 h10 h11, c2_row hv2 h10 h11, c3_row hv3 h10 h11]
  rfl

include hv1 hv2 hv3 h10 h11 in

theorem coef1_row (hT : ∀ i, Tt i ≠ 0) (r : Fin 2000) :
    k1_pay18 v1 v2 v3 b3' x10 x11 (ix2 r (0 : Fin 1)) = coef C₁ Tt (ix2 (row t r) (0 : Fin 1)) := by
  rw [pay18_apply, c1_row hv1 h10 h11, inv_row hv1 hv2 hv3 h10 h11, coef_apply, mul_div_one_eq_div _ _ (hT _)]

include hv1 hv2 hv3 h10 h11 in
theorem coef2_row (hT : ∀ i, Tt i ≠ 0) (r : Fin 2000) :
    k1_pay15 v2 x10 x11 (ix2 r (0 : Fin 1)) * k1_pay17 v1 v2 v3 b3' x10 x11 (ix2 r (0 : Fin 1))
      = coef C₂ Tt (ix2 (row t r) (0 : Fin 1)) := by
  rw [c2_row hv2 h10 h11, inv_row hv1 hv2 hv3 h10 h11, coef_apply, mul_div_one_eq_div _ _ (hT _)]

include hv1 hv2 hv3 h10 h11 in
theorem coef3_row (hT : ∀ i, Tt i ≠ 0) (r : Fin 2000) :
    k1_pay16 v3 b3' x10 x11 (ix2 r (0 : Fin 1)) * k1_pay17 v1 v2 v3 b3' x10 x11 (ix2 r (0 : Fin 1))
      = coef C₃ Tt (ix2 (row t r) (0 : Fin 1)) := by
  rw [c3_row hv3 h10 h11, inv_row hv1 hv2 hv3 h10 h11, coef_apply, mul_div_one_eq_div _ _ (hT _)]

include hv1 hv2 hv3 h10 h11 in

theorem out15_row (hT : ∀ i, Tt i ≠ 0) (r : Fin 2000) (j : Fin 3) :
    k1_pay3 (k1_pay15 v2 x10 x11) (k1_pay16 v3 b3' x10 x11) (k1_pay17 v1 v2 v3 b3' x10 x11)
        (k1_pay18 v1 v2 v3 b3' x10 x11) (ix2 r j)
      = coefArr A1 H1 A2 H2 A3 H3 d1 d2 d3 b1 b2 b3 FCW fcb (ix2 (row t r) j) := by
  match j with
  | ⟨0, _⟩ =>
    exact (pay3_apply0 _ _ _ _ r).trans (coef1_row hv1 hv2 hv3 h10 h11 hT r)
  | ⟨1, _⟩ =>
    exact (pay3_apply1 _ _ _ _ r).trans (coef2_row hv1 hv2 hv3 h10 h11 hT r)
  | ⟨2, _⟩ =>
    exact (pay3_apply2 _ _ _ _ r).trans (coef3_row hv1 hv2 hv3 h10 h11 hT r)

include hv1 hv2 hv3 h10 h11 in
theorem mm_row (hT : ∀ i, Tt i ≠ 0) (r : Fin 2000) (q : Fin 32) (w : Vec Ideal S64x32 .f32)
    (W : FA (F := Ideal) Cert.ReferenceIdeal.S64x32) (hw : w = W) :
    (∑ k : Fin 64, cmbRow (k1_pay10 v1) (k1_pay11 v2) (k1_pay12 v3 b3') (k1_pay15 v2 x10 x11) (k1_pay16 v3 b3' x10 x11)
        (k1_pay17 v1 v2 v3 b3' x10 x11) (k1_pay18 v1 v2 v3 b3' x10 x11) r k * w (ix2 k q))
      = mm2 Cmb W (ix2 (row t r) q) := by
  rw [mm2_apply, hw]
  refine Finset.sum_congr rfl fun k _ => ?_
  rw [cmbRow, combine_apply, pay10_apply, pay11_apply, pay12_apply, e1_row hv1, e2_row hv2, e3_row hv3,
    coef1_row hv1 hv2 hv3 h10 h11 hT, coef2_row hv1 hv2 hv3 h10 h11 hT, coef3_row hv1 hv2 hv3 h10 h11 hT]

include hv1 hv2 hv3 h10 h11 h12 h13 h14 in
theorem out16_row (hT : ∀ i, Tt i ≠ 0) (r : Fin 2000) (c : Fin 96) :
    k1_pay4 (k1_pay10 v1) (k1_pay11 v2) (k1_pay12 v3 b3') (k1_pay15 v2 x10 x11) (k1_pay16 v3 b3' x10 x11)
        (k1_pay17 v1 v2 v3 b3' x10 x11) (k1_pay18 v1 v2 v3 b3' x10 x11) x12 x13 x14 (ix2 r c)
      = featArr A1 H1 A2 H2 A3 H3 d1 d2 d3 b1 b2 b3 FCW fcb W11 W22 W33 (ix2 (row t r) c) := by
  have hc : c.val = 32 * (c.val / 32) + c.val % 32 := (Nat.div_add_mod _ _).symm
  rw [pay4_apply _ _ _ _ _ _ _ _ _ _ r ⟨c.val % 32, Nat.mod_lt _ (by decide)⟩ c _ hc,
    featArr_apply _ _ _ _ _ _ _ _ _ _ _ _ _ _ _ _ _ (row t r) c _ ⟨c.val % 32, Nat.mod_lt _ (by decide)⟩ hc, h12, h13, h14]
  exact mm_row hv1 hv2 hv3 h10 h11 hT r _ _ _ rfl

end Tile

end Cert.KernelIdeal.Hand

end
-- ==== Proof.KI.R1Val.lean ====
import proofs.«145333_j32066225832361_2_alg».proof.Proof.KI.R1
import proofs.«145333_j32066225832361_2_alg».proof.Proof.KI.R1Core
import proofs.«145333_j32066225832361_2_alg».proof.Proof.KI.KVC

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

section Val1
variable (V : (c : Dev nD) → (b : Ref sig .tc) → Buf (Elt Ideal) ((c : Thread nD τ).loc b))

open Idealize.ShloMosaic.ValueIdx
open Cert.Spec (FA fin64 relu64 logit score total coef combine mm2)

theorem hz1 : (![0, 0] : Fin 2 → Nat) = fun _ => 0 := funext fun a => by fin_cases a <;> rfl

abbrev tile (t : Fin cfg1.N) : Fin 25 := t.cast N_1

theorem ld1_n (X : Vec Ideal S2000x64 .f32) : View.ld X r1_n = X := View.ld_unit_zero hz1 _ X
theorem ld1_d (X : Vec Ideal S2000x3 .f32) : View.ld X r1_d = X := View.ld_unit_zero hz1 _ X
theorem ld1_b (X : Vec Ideal S1x64 .f32) : View.ld X r1_b = X := View.ld_unit_zero hz1 _ X
theorem ld1_fw (X : Vec Ideal S64x1 .f32) : View.ld X r1_fw = X := View.ld_unit_zero hz1 _ X
theorem ld1_fb (X : Vec Ideal S1x1 .f32) : View.ld X r1_fb = X := View.ld_unit_zero hz1 _ X
theorem ld1_w (X : Vec Ideal S64x32 .f32) : View.ld X r1_w = X := View.ld_unit_zero hz1 _ X

theorem idx1_t : ∀ w : Fin 17, (w.val < 7 ∨ 14 < w.val) → ∀ (t : Fin cfg1.N) a, a.val = 0 → (cfg1.win w).index t a = t.val := by
  decide +kernel
theorem idx1_z : ∀ (w : Fin 17) (t : Fin cfg1.N) a, (a.val = 0 → 6 < w.val ∧ w.val < 15) → (cfg1.win w).index t a = 0 := by
  decide +kernel

theorem emb1_t (w : Fin 17) (hw : w.val < 7 ∨ 14 < w.val) (t : Fin cfg1.N) (y) (a) (h : a.val = 0) :
    (((cfg1.win w).rect t).emb y a : ℕ) = t.val * (cfg1.win w).size a + y a := by
  rw [(cfg1.win w).rect_emb_val t y a, idx1_t w hw t a h]
theorem emb1_z (w : Fin 17) (t : Fin cfg1.N) (y) (a) (h : a.val = 0 → 6 < w.val ∧ w.val < 15) :
    (((cfg1.win w).rect t).emb y a : ℕ) = y a :=
  (cfg1.win w).rect_emb_val_of_index_zero t a (idx1_z w t a h) y

theorem blk1_0 (c : Dev nD) (t : Fin cfg1.N) (r : Fin 2000) (k : Fin 64) :
    iblk1 V c 0 t (ix2 r k) = V c (Pipeline.arrRef spec1 0) (ix2 (row (tile t) r) k) :=
  congrArg (V c _) (Shape.idx_ext₂ (emb1_t 0 (by decide) t _ (0 : Fin 2) rfl) (emb1_z 0 t _ (1 : Fin 2) (by decide)))
theorem blk1_1 (c : Dev nD) (t : Fin cfg1.N) (r : Fin 2000) (k : Fin 64) :
    iblk1 V c 1 t (ix2 r k) = V c (Pipeline.arrRef spec1 1) (ix2 (row (tile t) r) k) :=
  congrArg (V c _) (Shape.idx_ext₂ (emb1_t 1 (by decide) t _ (0 : Fin 2) rfl) (emb1_z 1 t _ (1 : Fin 2) (by decide)))
theorem blk1_2 (c : Dev nD) (t : Fin cfg1.N) (r : Fin 2000) (k : Fin 64) :
    iblk1 V c 2 t (ix2 r k) = V c (Pipeline.arrRef spec1 2) (ix2 (row (tile t) r) k) :=
  congrArg (V c _) (Shape.idx_ext₂ (emb1_t 2 (by decide) t _ (0 : Fin 2) rfl) (emb1_z 2 t _ (1 : Fin 2) (by decide)))
theorem blk1_3 (c : Dev nD) (t : Fin cfg1.N) (r : Fin 2000) (k : Fin 64) :
    iblk1 V c 3 t (ix2 r k) = V c (Pipeline.arrRef spec1 3) (ix2 (row (tile t) r) k) :=
  congrArg (V c _) (Shape.idx_ext₂ (emb1_t 3 (by decide) t _ (0 : Fin 2) rfl) (emb1_z 3 t _ (1 : Fin 2) (by decide)))
theorem blk1_4 (c : Dev nD) (t : Fin cfg1.N) (r : Fin 2000) (k : Fin 64) :
    iblk1 V c 4 t (ix2 r k) = V c (Pipeline.arrRef spec1 4) (ix2 (row (tile t) r) k) :=
  congrArg (V c _) (Shape.idx_ext₂ (emb1_t 4 (by decide) t _ (0 : Fin 2) rfl) (emb1_z 4 t _ (1 : Fin 2) (by decide)))
theorem blk1_5 (c : Dev nD) (t : Fin cfg1.N) (r : Fin 2000) (k : Fin 64) :
    iblk1 V c 5 t (ix2 r k) = V c (Pipeline.arrRef spec1 5) (ix2 (row (tile t) r) k) :=
  congrArg (V c _) (Shape.idx_ext₂ (emb1_t 5 (by decide) t _ (0 : Fin 2) rfl) (emb1_z 5 t _ (1 : Fin 2) (by decide)))
theorem blk1_6 (c : Dev nD) (t : Fin cfg1.N) (r : Fin 2000) (k : Fin 3) :
    iblk1 V c 6 t (ix2 r k) = V c (Pipeline.arrRef spec1 6) (ix2 (row (tile t) r) k) :=
  congrArg (V c _) (Shape.idx_ext₂ (emb1_t 6 (by decide) t _ (0 : Fin 2) rfl) (emb1_z 6 t _ (1 : Fin 2) (by decide)))
theorem blk1_7 (c : Dev nD) (t : Fin cfg1.N) : iblk1 V c 7 t = V c (Pipeline.arrRef spec1 7) :=
  funext fun y => congrArg (V c _) (Shape.idx_ext₂ (emb1_z 7 t y (0 : Fin 2) (by decide)) (emb1_z 7 t y (1 : Fin 2) (by decide)))
theorem blk1_8 (c : Dev nD) (t : Fin cfg1.N) : iblk1 V c 8 t = V c (Pipeline.arrRef spec1 8) :=
  funext fun y => congrArg (V c _) (Shape.idx_ext₂ (emb1_z 8 t y (0 : Fin 2) (by decide)) (emb1_z 8 t y (1 : Fin 2) (by decide)))
theorem blk1_9 (c : Dev nD) (t : Fin cfg1.N) : iblk1 V c 9 t = V c (Pipeline.arrRef spec1 9) :=
  funext fun y => congrArg (V c _) (Shape.idx_ext₂ (emb1_z 9 t y (0 : Fin 2) (by decide)) (emb1_z 9 t y (1 : Fin 2) (by decide)))
theorem blk1_10 (c : Dev nD) (t : Fin cfg1.N) : iblk1 V c 10 t = V c (Pipeline.arrRef spec1 10) :=
  funext fun y => congrArg (V c _) (Shape.idx_ext₂ (emb1_z 10 t y (0 : Fin 2) (by decide)) (emb1_z 10 t y (1 : Fin 2) (by decide)))
theorem blk1_11 (c : Dev nD) (t : Fin cfg1.N) : iblk1 V c 11 t = V c (Pipeline.arrRef spec1 11) :=
  funext fun y => congrArg (V c _) (Shape.idx_ext₂ (emb1_z 11 t y (0 : Fin 2) (by decide)) (emb1_z 11 t y (1 : Fin 2) (by decide)))
theorem blk1_12 (c : Dev nD) (t : Fin cfg1.N) : iblk1 V c 12 t = V c (Pipeline.arrRef spec1 12) :=
  funext fun y => congrArg (V c _) (Shape.idx_ext₂ (emb1_z 12 t y (0 : Fin 2) (by decide)) (emb1_z 12 t y (1 : Fin 2) (by decide)))
theorem blk1_13 (c : Dev nD) (t : Fin cfg1.N) : iblk1 V c 13 t = V c (Pipeline.arrRef spec1 13) :=
  funext fun y => congrArg (V c _) (Shape.idx_ext₂ (emb1_z 13 t y (0 : Fin 2) (by decide)) (emb1_z 13 t y (1 : Fin 2) (by decide)))
theorem blk1_14 (c : Dev nD) (t : Fin cfg1.N) : iblk1 V c 14 t = V c (Pipeline.arrRef spec1 14) :=
  funext fun y => congrArg (V c _) (Shape.idx_ext₂ (emb1_z 14 t y (0 : Fin 2) (by decide)) (emb1_z 14 t y (1 : Fin 2) (by decide)))

structure Entry1 (c : Dev nD) (A1 H1 A2 H2 A3 H3 : FA (F := Ideal) Cert.ReferenceIdeal.S50000x64)
    (d1 d2 d3 : FA (F := Ideal) Cert.ReferenceIdeal.S50000) (b1 b2 b3 : FA (F := Ideal) Cert.ReferenceIdeal.S64)
    (FCW : FA (F := Ideal) Cert.ReferenceIdeal.S64x1) (fcb : FA (F := Ideal) Cert.ReferenceIdeal.S1)
    (W11 W22 W33 : FA (F := Ideal) Cert.ReferenceIdeal.S64x32) : Prop where
  hA1 : V c (Pipeline.arrRef spec1 0) = A1
  hH1 : V c (Pipeline.arrRef spec1 1) = H1
  hA2 : V c (Pipeline.arrRef spec1 2) = A2
  hH2 : V c (Pipeline.arrRef spec1 3) = H2
  hA3 : V c (Pipeline.arrRef spec1 4) = A3
  hH3 : V c (Pipeline.arrRef spec1 5) = H3
  hDV : V c (Pipeline.arrRef spec1 6) = concatenate S50000x3 1
    [⟨S50000x1, broadcastInDim S50000x1 ![0] Facts₀.bcast_S50000_S50000x1_0 d1⟩,
     ⟨S50000x1, broadcastInDim S50000x1 ![0] Facts₀.bcast_S50000_S50000x1_0 d2⟩,
     ⟨S50000x1, broadcastInDim S50000x1 ![0] Facts₀.bcast_S50000_S50000x1_0 d3⟩]
    Facts₀.concatenates_S50000x1_S50000x1_S50000x1_S50000x3_d1
  hB1 : V c (Pipeline.arrRef spec1 7) = fun i => shapeCast S1x64 b1 Facts₀.shapeCasts_S64_S1x64 i
  hB2 : V c (Pipeline.arrRef spec1 8) = fun i => shapeCast S1x64 b2 Facts₀.shapeCasts_S64_S1x64 i
  hB3 : V c (Pipeline.arrRef spec1 9) = fun i => shapeCast S1x64 b3 Facts₀.shapeCasts_S64_S1x64 i
  hFCW : V c (Pipeline.arrRef spec1 10) = FCW
  hFCB : V c (Pipeline.arrRef spec1 11) = fun i => shapeCast S1x1 fcb Facts₀.shapeCasts_S1_S1x1 i
  hW11 : V c (Pipeline.arrRef spec1 12) = W11
  hW22 : V c (Pipeline.arrRef spec1 13) = W22
  hW33 : V c (Pipeline.arrRef spec1 14) = W33

section Blocks
variable {V} {c : Dev nD} {A1 H1 A2 H2 A3 H3 : FA (F := Ideal) Cert.ReferenceIdeal.S50000x64}
  {d1 d2 d3 : FA (F := Ideal) Cert.ReferenceIdeal.S50000} {b1 b2 b3 : FA (F := Ideal) Cert.ReferenceIdeal.S64}
  {FCW : FA (F := Ideal) Cert.ReferenceIdeal.S64x1} {fcb : FA (F := Ideal) Cert.ReferenceIdeal.S1}
  {W11 W22 W33 : FA (F := Ideal) Cert.ReferenceIdeal.S64x32}
  (E : Entry1 V c A1 H1 A2 H2 A3 H3 d1 d2 d3 b1 b2 b3 FCW fcb W11 W22 W33)

include E in

theorem hv1_of (t : Fin cfg1.N) (r : Fin 2000) (k : Fin 64) :
    v1blk (iblk1 V c 0 t) (iblk1 V c 1 t) (iblk1 V c 6 t) (iblk1 V c 7 t) (ix2 r k)
      = fin64 A1 d1 H1 b1 (ix2 (row (tile t) r) k) := by
  unfold v1blk
  simp only [ld1_n, ld1_d, ld1_b, ld1_fw, ld1_fb, ld1_w]
  rw [pay6_apply, Cert.Spec.R1.fin64_apply, blk1_0, blk1_1, blk1_6, blk1_7, E.hA1, E.hH1, E.hDV, E.hB1,
    concat3_apply0 _ _ _ _ (row (tile t) r) (0 : Fin 1) (0 : Fin 3) rfl, Cert.Spec.R1.bid_vec_col_apply]
  simp only [shapeCast_a_1a_apply]

include E in

theorem hv2_of (t : Fin cfg1.N) (r : Fin 2000) (k : Fin 64) :
    v2blk (iblk1 V c 2 t) (iblk1 V c 3 t) (iblk1 V c 6 t) (iblk1 V c 8 t) (ix2 r k)
      = fin64 A2 d2 H2 b2 (ix2 (row (tile t) r) k) := by
  unfold v2blk
  simp only [ld1_n, ld1_d, ld1_b, ld1_fw, ld1_fb, ld1_w]
  rw [pay7_apply, Cert.Spec.R1.fin64_apply, blk1_2, blk1_3, blk1_6, blk1_8, E.hA2, E.hH2, E.hDV, E.hB2,
    concat3_apply1 _ _ _ _ (row (tile t) r) (0 : Fin 1) (1 : Fin 3) rfl, Cert.Spec.R1.bid_vec_col_apply]
  simp only [shapeCast_a_1a_apply]

include E in

theorem hv3_of (t : Fin cfg1.N) (r : Fin 2000) (k : Fin 64) :
    v3blk (iblk1 V c 4 t) (iblk1 V c 5 t) (iblk1 V c 6 t) (ix2 r k) + b3blk (iblk1 V c 9 t) (ix2 (0 : Fin 1) k)
      = fin64 A3 d3 H3 b3 (ix2 (row (tile t) r) k) := by
  unfold v3blk b3blk
  simp only [ld1_n, ld1_d, ld1_b, ld1_fw, ld1_fb, ld1_w, pay9_eq]
  rw [pay8_apply, Cert.Spec.R1.fin64_apply, blk1_4, blk1_5, blk1_6, blk1_9, E.hA3, E.hH3, E.hDV, E.hB3,
    concat3_apply2 _ _ _ _ (row (tile t) r) (0 : Fin 1) (2 : Fin 3) rfl, Cert.Spec.R1.bid_vec_col_apply]
  simp only [shapeCast_a_1a_apply]

include E in

theorem h10_of (t : Fin cfg1.N) : iblk1 V c 10 t = FCW := (blk1_10 V c t).trans E.hFCW
include E in
theorem h11_of (t : Fin cfg1.N) : iblk1 V c 11 t (ix2 (0 : Fin 1) (0 : Fin 1)) = fcb (ix1 (0 : Fin 1)) := by
  rw [blk1_11, E.hFCB]
  simp only [shapeCast_a_1a_apply]
include E in
theorem h12_of (t : Fin cfg1.N) : iblk1 V c 12 t = W11 := (blk1_12 V c t).trans E.hW11
include E in
theorem h13_of (t : Fin cfg1.N) : iblk1 V c 13 t = W22 := (blk1_13 V c t).trans E.hW22
include E in
theorem h14_of (t : Fin cfg1.N) : iblk1 V c 14 t = W33 := (blk1_14 V c t).trans E.hW33

theorem mem_blk1_15 (t : Fin cfg1.N) (i : S50000x3.Idx) :
    i ∈ ((cfg1.win 15).blk t).view.set ↔ ∀ a : Fin 2, win1_15.index t a * S2000x3.size a ≤ (i a).val
      ∧ (i a).val < win1_15.index t a * S2000x3.size a + S2000x3.size a := by
  show i ∈ ((View.whole main_v152_0).slice (win1_15.rect t)).set ↔ _
  rw [View.set_slice_whole, Rect.mem_set_unit]
  exact Iff.rfl

theorem covered1_15 (i : S50000x3.Idx) :
    ∃ t : Fin cfg1.N, (cfg1.win 15).flush t = true ∧ i ∈ ((cfg1.win 15).blk t).view.set := by
  have hi0 : (i 0).val < 50000 := idx2_lt0 i
  have hi1 : (i 1).val < 3 := idx2_lt1 i
  obtain ⟨t, ht⟩ : ∃ t : Fin cfg1.N, t.val = (i 0).val / 2000 := ⟨(⟨(i 0).val / 2000, by omega⟩ : Fin 25).cast N_1.symm, rfl⟩
  have e0 : win1_15.index t (0 : Fin 2) = t.val := idx1_t 15 (by decide) t (0 : Fin 2) rfl
  have e1 : win1_15.index t (1 : Fin 2) = 0 := idx1_z 15 t (1 : Fin 2) (by decide)
  refine ⟨t, flush1_15 t, (mem_blk1_15 t i).2 fun a => ?_⟩
  match a with
  | ⟨0, _⟩ => show win1_15.index t (0 : Fin 2) * 2000 ≤ (i 0).val ∧ (i 0).val < win1_15.index t (0 : Fin 2) * 2000 + 2000; omega
  | ⟨1, _⟩ => show win1_15.index t (1 : Fin 2) * 3 ≤ (i 1).val ∧ (i 1).val < win1_15.index t (1 : Fin 2) * 3 + 3; omega

theorem mem_blk1_16 (t : Fin cfg1.N) (i : S50000x96.Idx) :
    i ∈ ((cfg1.win 16).blk t).view.set ↔ ∀ a : Fin 2, win1_16.index t a * S2000x96.size a ≤ (i a).val
      ∧ (i a).val < win1_16.index t a * S2000x96.size a + S2000x96.size a := by
  show i ∈ ((View.whole main_v152_1).slice (win1_16.rect t)).set ↔ _
  rw [View.set_slice_whole, Rect.mem_set_unit]
  exact Iff.rfl

theorem covered1_16 (i : S50000x96.Idx) :
    ∃ t : Fin cfg1.N, (cfg1.win 16).flush t = true ∧ i ∈ ((cfg1.win 16).blk t).view.set := by
  have hi0 : (i 0).val < 50000 := idx2_lt0 i
  have hi1 : (i 1).val < 96 := idx2_lt1 i
  obtain ⟨t, ht⟩ : ∃ t : Fin cfg1.N, t.val = (i 0).val / 2000 := ⟨(⟨(i 0).val / 2000, by omega⟩ : Fin 25).cast N_1.symm, rfl⟩
  have e0 : win1_16.index t (0 : Fin 2) = t.val := idx1_t 16 (by decide) t (0 : Fin 2) rfl
  have e1 : win1_16.index t (1 : Fin 2) = 0 := idx1_z 16 t (1 : Fin 2) (by decide)
  refine ⟨t, flush1_16 t, (mem_blk1_16 t i).2 fun a => ?_⟩
  match a with
  | ⟨0, _⟩ => show win1_16.index t (0 : Fin 2) * 2000 ≤ (i 0).val ∧ (i 0).val < win1_16.index t (0 : Fin 2) * 2000 + 2000; omega
  | ⟨1, _⟩ => show win1_16.index t (1 : Fin 2) * 96 ≤ (i 1).val ∧ (i 1).val < win1_16.index t (1 : Fin 2) * 96 + 96; omega

local notation "C₁" => Sc FCW fcb (Emb A1 d1 H1 b1)
local notation "C₂" => Sc FCW fcb (Emb A2 d2 H2 b2)
local notation "C₃" => Sc FCW fcb (Emb A3 d3 H3 b3)
local notation "Tt" => total C₁ C₂ C₃
local notation "Cmb" => combine (Emb A1 d1 H1 b1) (Emb A2 d2 H2 b2) (Emb A3 d3 H3 b3) (coef C₁ Tt) (coef C₂ Tt) (coef C₃ Tt)

theorem emb1_15 (t : Fin cfg1.N) (r : Fin 2000) (j : Fin 3) :
    ((cfg1.win 15).blk t).view.emb (ix2 r j) = ix2 (row (tile t) r) j :=
  Shape.idx_ext₂ (emb1_t 15 (by decide) t _ (0 : Fin 2) rfl) (emb1_z 15 t _ (1 : Fin 2) (by decide))
theorem emb1_16 (t : Fin cfg1.N) (r : Fin 2000) (j : Fin 96) :
    ((cfg1.win 16).blk t).view.emb (ix2 r j) = ix2 (row (tile t) r) j :=
  Shape.idx_ext₂ (emb1_t 16 (by decide) t _ (0 : Fin 2) rfl) (emb1_z 16 t _ (1 : Fin 2) (by decide))

include E in

theorem flushed1_15_eq (hT : ∀ i, Tt i ≠ 0) (t : Fin cfg1.N) :
    (dat1 V c).flushed 15 t = ((cfg1.win 15).blk t).view.read (Elt Ideal) (coefArr A1 H1 A2 H2 A3 H3 d1 d2 d3 b1 b2 b3 FCW fcb) := by
  show (cfg1.win 15).cut (grid1.coords t) ((dat1 V c).after 15 t) = _
  dsimp only [dat1, out1_15]
  rw [View.canon_unit_zero hz1]
  funext y
  obtain ⟨r, j, rfl⟩ : ∃ (r : Fin 2000) (j : Fin 3), y = ix2 r j := ⟨y 0, y 1, eq_ix2 y⟩
  show k1_pay3 (F := Ideal) _ _ _ _ (ix2 r j) = coefArr A1 H1 A2 H2 A3 H3 d1 d2 d3 b1 b2 b3 FCW fcb (((cfg1.win 15).blk t).view.emb (ix2 r j))
  rw [emb1_15]
  unfold c2blk c3blk icdblk coef1blk
  simp only [ld1_n, ld1_d, ld1_b, ld1_fw, ld1_fb, ld1_w]
  exact out15_row (hv1_of E t) (hv2_of E t) (hv3_of E t) (h10_of E t) (h11_of E t) hT r j

include E in

theorem flushed1_16_eq (hT : ∀ i, Tt i ≠ 0) (t : Fin cfg1.N) :
    (dat1 V c).flushed 16 t = ((cfg1.win 16).blk t).view.read (Elt Ideal) (featArr A1 H1 A2 H2 A3 H3 d1 d2 d3 b1 b2 b3 FCW fcb W11 W22 W33) := by
  show (cfg1.win 16).cut (grid1.coords t) ((dat1 V c).after 16 t) = _
  dsimp only [dat1, out1_16]
  rw [View.canon_unit_zero hz1]
  funext y
  obtain ⟨r, j, rfl⟩ : ∃ (r : Fin 2000) (j : Fin 96), y = ix2 r j := ⟨y 0, y 1, eq_ix2 y⟩
  show k1_pay4 (F := Ideal) _ _ _ _ _ _ _ _ _ _ (ix2 r j) = featArr A1 H1 A2 H2 A3 H3 d1 d2 d3 b1 b2 b3 FCW fcb W11 W22 W33 (((cfg1.win 16).blk t).view.emb (ix2 r j))
  rw [emb1_16]
  unfold e1blk e2blk e3blk c2blk c3blk icdblk coef1blk
  simp only [ld1_n, ld1_d, ld1_b, ld1_fw, ld1_fb, ld1_w]
  exact out16_row (hv1_of E t) (hv2_of E t) (hv3_of E t) (h10_of E t) (h11_of E t) (h12_of E t) (h13_of E t) (h14_of E t) hT r j

include E in

theorem final1_15 (hT : ∀ i, Tt i ≠ 0) : (dat1 V c).arrAt 15 cfg1.N = coefArr A1 H1 A2 H2 A3 H3 d1 d2 d3 b1 b2 b3 FCW fcb :=
  (dat1 V c).arrAt_eq_of_cover 15 (coefArr A1 H1 A2 H2 A3 H3 d1 d2 d3 b1 b2 b3 FCW fcb) (fun t _ => flushed1_15_eq E hT t) covered1_15

include E in

theorem final1_16 (hT : ∀ i, Tt i ≠ 0) : (dat1 V c).arrAt 16 cfg1.N = featArr A1 H1 A2 H2 A3 H3 d1 d2 d3 b1 b2 b3 FCW fcb W11 W22 W33 :=
  (dat1 V c).arrAt_eq_of_cover 16 (featArr A1 H1 A2 H2 A3 H3 d1 d2 d3 b1 b2 b3 FCW fcb W11 W22 W33) (fun t _ => flushed1_16_eq E hT t) covered1_16

include E in

theorem val1_coef0 (hT : ∀ i, Tt i ≠ 0) : ksl0 ((dat1 V c).arrAt 15 cfg1.N) = coef C₁ Tt := by
  rw [final1_15 E hT]
  funext i
  obtain ⟨n, z, rfl⟩ : ∃ (n : Fin 50000) (z : Fin 1), i = ix2 n z := ⟨i 0, i 1, eq_ix2 i⟩
  obtain rfl : z = 0 := Subsingleton.elim _ _
  unfold ksl0
  rw [slice2_axis1_apply 0 _ _ n (0 : Fin 1) (0 : Fin 3) rfl, coefArr_apply0]
include E in
theorem val1_coef1 (hT : ∀ i, Tt i ≠ 0) : ksl1 ((dat1 V c).arrAt 15 cfg1.N) = coef C₂ Tt := by
  rw [final1_15 E hT]
  funext i
  obtain ⟨n, z, rfl⟩ : ∃ (n : Fin 50000) (z : Fin 1), i = ix2 n z := ⟨i 0, i 1, eq_ix2 i⟩
  obtain rfl : z = 0 := Subsingleton.elim _ _
  unfold ksl1
  rw [slice2_axis1_apply 1 _ _ n (0 : Fin 1) (1 : Fin 3) rfl, coefArr_apply1]
include E in
theorem val1_coef2 (hT : ∀ i, Tt i ≠ 0) : ksl2 ((dat1 V c).arrAt 15 cfg1.N) = coef C₃ Tt := by
  rw [final1_15 E hT]
  funext i
  obtain ⟨n, z, rfl⟩ : ∃ (n : Fin 50000) (z : Fin 1), i = ix2 n z := ⟨i 0, i 1, eq_ix2 i⟩
  obtain rfl : z = 0 := Subsingleton.elim _ _
  unfold ksl2
  rw [slice2_axis1_apply 2 _ _ n (0 : Fin 1) (2 : Fin 3) rfl, coefArr_apply2]

include E in

theorem val1_h0 (hT : ∀ i, Tt i ≠ 0) : gsl0 ((dat1 V c).arrAt 16 cfg1.N) = mm2 Cmb W11 := by
  rw [final1_16 E hT]
  funext i
  obtain ⟨n, q, rfl⟩ : ∃ (n : Fin 50000) (q : Fin 32), i = ix2 n q := ⟨i 0, i 1, eq_ix2 i⟩
  unfold gsl0
  rw [slice2_axis1_apply 0 _ _ n q (⟨q.val, by have := q.isLt; omega⟩ : Fin 96) (by show q.val = 0 + q.val; omega),
    featArr_apply _ _ _ _ _ _ _ _ _ _ _ _ _ _ _ _ _ n _ 0 q (by show q.val = 32 * 0 + q.val; omega), if_pos rfl]
include E in
theorem val1_h1 (hT : ∀ i, Tt i ≠ 0) : gsl1 ((dat1 V c).arrAt 16 cfg1.N) = mm2 Cmb W22 := by
  rw [final1_16 E hT]
  funext i
  obtain ⟨n, q, rfl⟩ : ∃ (n : Fin 50000) (q : Fin 32), i = ix2 n q := ⟨i 0, i 1, eq_ix2 i⟩
  unfold gsl1
  rw [slice2_axis1_apply 32 _ _ n q (⟨32 + q.val, by have := q.isLt; omega⟩ : Fin 96) rfl,
    featArr_apply _ _ _ _ _ _ _ _ _ _ _ _ _ _ _ _ _ n _ 1 q (by show 32 + q.val = 32 * 1 + q.val; omega),
    if_neg (by decide), if_pos rfl]
include E in
theorem val1_h2 (hT : ∀ i, Tt i ≠ 0) : gsl2 ((dat1 V c).arrAt 16 cfg1.N) = mm2 Cmb W33 := by
  rw [final1_16 E hT]
  funext i
  obtain ⟨n, q, rfl⟩ : ∃ (n : Fin 50000) (q : Fin 32), i = ix2 n q := ⟨i 0, i 1, eq_ix2 i⟩
  unfold gsl2
  rw [slice2_axis1_apply 64 _ _ n q (⟨64 + q.val, by have := q.isLt; omega⟩ : Fin 96) rfl,
    featArr_apply _ _ _ _ _ _ _ _ _ _ _ _ _ _ _ _ _ n _ 2 q (by show 64 + q.val = 32 * 2 + q.val; omega),
    if_neg (by decide), if_neg (by decide)]

end Blocks

end Val1

end Cert.KernelIdeal.Hand

end
-- ==== Proof.KI.R2Val.lean ====
import proofs.«145333_j32066225832361_2_alg».proof.Proof.KI.R2
import proofs.«145333_j32066225832361_2_alg».proof.Proof.Gen.ReferenceIdeal
import proofs.«145333_j32066225832361_2_alg».proof.Proof.Spec
import Idealize.ShloMosaic.Lib.KernelVsHost
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem val_ite {n : ℕ} (p : Fin n) : p.val = if n = 1 then 0 else p.val := by
  split
  · have := p.isLt; omega
  · rfl

theorem broadcastTo_column_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) fun ax => by
    match ax with
    | ⟨0, _⟩ => exact val_ite p
    | ⟨1, _⟩ => rfl

theorem hz2 : (![0, 0] : Fin 2 → Nat) = fun _ => 0 := funext fun a => by fin_cases a <;> rfl

theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = t.val ∧ win2_10.index t (1 : Fin 2) = 0) :=
  (by decide +kernel : ∀ t : Fin grid2.N, _)

variable {F : FTy → Type} [FloatOps F]
variable (V : (c : Dev nD) → (b : Ref sig .tc) → Buf (Elt F) ((c : Thread nD τ).loc b))

section Rows
variable (c : Dev nD) (t : Fin cfg2.N) (x : S2000x32.Idx) (k : S50000x32.Idx)
  (hk0 : (k 0).val = 2000 * t.val + (x 0).val) (hk1 : (k 1).val = (x 1).val)
include hk0 hk1

theorem iblk2_0_apply :
    (iblk2 V c 0 t : Vec F S2000x32 .f32) x = (V c (Pipeline.arrRef spec2 0) : S50000x32.Idx → Elt F .f32) k := by
  obtain ⟨⟨e0, e1⟩, -⟩ := idx_facts2 t
  refine congrArg (V c (Pipeline.arrRef spec2 0)) (funext fun a => Fin.ext ?_)
  match a with
  | ⟨0, _⟩ => show win2_0.index t 0 * 2000 + 1 * (x 0).val = (k 0).val; omega
  | ⟨1, _⟩ => show win2_0.index t 1 * 32 + 1 * (x 1).val = (k 1).val; omega

theorem iblk2_1_apply :
    (iblk2 V c 1 t : Vec F S2000x32 .f32) x = (V c (Pipeline.arrRef spec2 1) : S50000x32.Idx → Elt F .f32) k := by
  obtain ⟨-, ⟨e0, e1⟩, -⟩ := idx_facts2 t
  refine congrArg (V c (Pipeline.arrRef spec2 1)) (funext fun a => Fin.ext ?_)
  match a with
  | ⟨0, _⟩ => show win2_1.index t 0 * 2000 + 1 * (x 0).val = (k 0).val; omega
  | ⟨1, _⟩ => show win2_1.index t 1 * 32 + 1 * (x 1).val = (k 1).val; omega

theorem iblk2_2_apply :
    (iblk2 V c 2 t : Vec F S2000x32 .f32) x = (V c (Pipeline.arrRef spec2 2) : S50000x32.Idx → Elt F .f32) k := by
  obtain ⟨-, -, ⟨e0, e1⟩, -⟩ := idx_facts2 t
  refine congrArg (V c (Pipeline.arrRef spec2 2)) (funext fun a => Fin.ext ?_)
  match a with
  | ⟨0, _⟩ => show win2_2.index t 0 * 2000 + 1 * (x 0).val = (k 0).val; omega
  | ⟨1, _⟩ => show win2_2.index t 1 * 32 + 1 * (x 1).val = (k 1).val; omega

theorem iblk2_3_apply :
    (iblk2 V c 3 t : Vec F S2000x32 .f32) x = (V c (Pipeline.arrRef spec2 3) : S50000x32.Idx → Elt F .f32) k := by
  obtain ⟨-, -, -, ⟨e0, e1⟩, -⟩ := idx_facts2 t
  refine congrArg (V c (Pipeline.arrRef spec2 3)) (funext fun a => Fin.ext ?_)
  match a with
  | ⟨0, _⟩ => show win2_3.index t 0 * 2000 + 1 * (x 0).val = (k 0).val; omega
  | ⟨1, _⟩ => show win2_3.index t 1 * 32 + 1 * (x 1).val = (k 1).val; omega

theorem iblk2_4_apply :
    (iblk2 V c 4 t : Vec F S2000x32 .f32) x = (V c (Pipeline.arrRef spec2 4) : S50000x32.Idx → Elt F .f32) k := by
  obtain ⟨-, -, -, -, ⟨e0, e1⟩, -⟩ := idx_facts2 t
  refine congrArg (V c (Pipeline.arrRef spec2 4)) (funext fun a => Fin.ext ?_)
  match a with
  | ⟨0, _⟩ => show win2_4.index t 0 * 2000 + 1 * (x 0).val = (k 0).val; omega
  | ⟨1, _⟩ => show win2_4.index t 1 * 32 + 1 * (x 1).val = (k 1).val; omega

theorem iblk2_5_apply :
    (iblk2 V c 5 t : Vec F S2000x32 .f32) x = (V c (Pipeline.arrRef spec2 5) : S50000x32.Idx → Elt F .f32) k := by
  obtain ⟨-, -, -, -, -, ⟨e0, e1⟩, -⟩ := idx_facts2 t
  refine congrArg (V c (Pipeline.arrRef spec2 5)) (funext fun a => Fin.ext ?_)
  match a with
  | ⟨0, _⟩ => show win2_5.index t 0 * 2000 + 1 * (x 0).val = (k 0).val; omega
  | ⟨1, _⟩ => show win2_5.index t 1 * 32 + 1 * (x 1).val = (k 1).val; omega

end Rows

theorem iblk2_6_apply (c : Dev nD) (t : Fin cfg2.N) (x : S2000x3.Idx) (k : S50000x3.Idx)
    (hk0 : (k 0).val = 2000 * t.val + (x 0).val) (hk1 : (k 1).val = (x 1).val) :
    (iblk2 V c 6 t : Vec F S2000x3 .f32) x = (V c (Pipeline.arrRef spec2 6) : S50000x3.Idx → Elt F .f32) k := by
  obtain ⟨-, -, -, -, -, -, ⟨e0, e1⟩, -⟩ := idx_facts2 t
  refine congrArg (V c (Pipeline.arrRef spec2 6)) (funext fun a => Fin.ext ?_)
  match a with
  | ⟨0, _⟩ => show win2_6.index t 0 * 2000 + 1 * (x 0).val = (k 0).val; omega
  | ⟨1, _⟩ => show win2_6.index t 1 * 3 + 1 * (x 1).val = (k 1).val; omega

theorem iblk2_7_apply (c : Dev nD) (t : Fin cfg2.N) (x : S1x32.Idx) :
    (iblk2 V c 7 t : Vec F S1x32 .f32) x = (V c (Pipeline.arrRef spec2 7) : S1x32.Idx → Elt F .f32) x := by
  obtain ⟨-, -, -, -, -, -, -, ⟨e0, e1⟩, -⟩ := idx_facts2 t
  refine congrArg (V c (Pipeline.arrRef spec2 7)) (funext fun a => Fin.ext ?_)
  match a with
  | ⟨0, _⟩ => show win2_7.index t 0 * 1 + 1 * (x 0).val = (x 0).val; omega
  | ⟨1, _⟩ => show win2_7.index t 1 * 32 + 1 * (x 1).val = (x 1).val; omega

theorem iblk2_8_apply (c : Dev nD) (t : Fin cfg2.N) (x : S1x32.Idx) :
    (iblk2 V c 8 t : Vec F S1x32 .f32) x = (V c (Pipeline.arrRef spec2 8) : S1x32.Idx → Elt F .f32) x := by
  obtain ⟨-, -, -, -, -, -, -, -, ⟨e0, e1⟩, -⟩ := idx_facts2 t
  refine congrArg (V c (Pipeline.arrRef spec2 8)) (funext fun a => Fin.ext ?_)
  match a with
  | ⟨0, _⟩ => show win2_8.index t 0 * 1 + 1 * (x 0).val = (x 0).val; omega
  | ⟨1, _⟩ => show win2_8.index t 1 * 32 + 1 * (x 1).val = (x 1).val; omega

theorem iblk2_9_apply (c : Dev nD) (t : Fin cfg2.N) (x : S1x32.Idx) :
    (iblk2 V c 9 t : Vec F S1x32 .f32) x = (V c (Pipeline.arrRef spec2 9) : S1x32.Idx → Elt F .f32) x := by
  obtain ⟨-, -, -, -, -, -, -, -, -, ⟨e0, e1⟩, -⟩ := idx_facts2 t
  refine congrArg (V c (Pipeline.arrRef spec2 9)) (funext fun a => Fin.ext ?_)
  match a with
  | ⟨0, _⟩ => show win2_9.index t 0 * 1 + 1 * (x 0).val = (x 0).val; omega
  | ⟨1, _⟩ => show win2_9.index t 1 * 32 + 1 * (x 1).val = (x 1).val; omega

theorem emb2_10 (t : Fin cfg2.N) (x : S2000x32.Idx) :
    ((((cfg2.win 10).blk t).view.emb x : S50000x32.Idx) 0).val = 2000 * t.val + (x 0).val
    ∧ ((((cfg2.win 10).blk t).view.emb x : S50000x32.Idx) 1).val = (x 1).val := by
  obtain ⟨-, -, -, -, -, -, -, -, -, -, ⟨e0, e1⟩⟩ := idx_facts2 t
  constructor
  · show win2_10.index t 0 * 2000 + 1 * (x 0).val = _; rw [e0]; omega
  · show win2_10.index t 1 * 32 + 1 * (x 1).val = _; rw [e1]; omega

abbrev G2 (a1 h1 a2 h2 a3 h3 : FVec Ideal S50000x32 .f32) (dv : FVec Ideal S50000x3 .f32) (b1 b2 b3 : FVec Ideal S1x32 .f32) :
    FVec Ideal S50000x32 .f32 := fun j =>
  ((a1 j + (dv (ix2 (j 0) (0 : Fin 3)) * dv (ix2 (j 0) (0 : Fin 3))) * h1 j + b1 (ix2 (0 : Fin 1) (j 1)))
      + (a2 j + (dv (ix2 (j 0) (1 : Fin 3)) * dv (ix2 (j 0) (1 : Fin 3))) * h2 j + b2 (ix2 (0 : Fin 1) (j 1))))
    + (a3 j + (dv (ix2 (j 0) (2 : Fin 3)) * dv (ix2 (j 0) (2 : Fin 3))) * h3 j + b3 (ix2 (0 : Fin 1) (j 1)))

theorem point_eq (x0 x1 x2 x3 x4 x5 : Vec Ideal S2000x32 .f32) (x6 : Vec Ideal S2000x3 .f32) (x7 x8 x9 : Vec Ideal S1x32 .f32)
    (a1 h1 a2 h2 a3 h3 : FVec Ideal S50000x32 .f32) (dv : FVec Ideal S50000x3 .f32) (b1 b2 b3 : FVec Ideal S1x32 .f32)
    (p : Fin 2000) (q : Fin 32) (i : S50000x32.Idx)
    (e0 : x0 (ix2 p q) = a1 i) (e1 : x1 (ix2 p q) = h1 i) (e2 : x2 (ix2 p q) = a2 i) (e3 : x3 (ix2 p q) = h2 i)
    (e4 : x4 (ix2 p q) = a3 i) (e5 : x5 (ix2 p q) = h3 i)
    (e60 : x6 (ix2 p (0 : Fin 3)) = dv (ix2 (i 0) (0 : Fin 3))) (e61 : x6 (ix2 p (1 : Fin 3)) = dv (ix2 (i 0) (1 : Fin 3)))
    (e62 : x6 (ix2 p (2 : Fin 3)) = dv (ix2 (i 0) (2 : Fin 3)))
    (e7 : x7 (ix2 (0 : Fin 1) q) = b1 (ix2 (0 : Fin 1) (i 1))) (e8 : x8 (ix2 (0 : Fin 1) q) = b2 (ix2 (0 : Fin 1) (i 1)))
    (e9 : x9 (ix2 (0 : Fin 1) q) = b3 (ix2 (0 : Fin 1) (i 1))) :
    k2_pay1 (k2_pay3 x6 x0 x1 x7) (k2_pay4 x6 x2 x3 x8) (k2_pay5 x6 x4 x5) (k2_pay6 x9) (ix2 p q) = G2 a1 h1 a2 h2 a3 h3 dv b1 b2 b3 i := by
  unfold k2_pay1 k2_pay3 k2_pay4 k2_pay5 k2_pay6 k2_pay2
  simp only [addf_apply, mulf_apply, shapeCast_self, broadcastTo_1b_ab_apply, broadcastTo_column_apply,
    slice2_axis1_apply 0 x6 _ p (0 : Fin 1) (0 : Fin 3) rfl, slice2_axis1_apply 1 x6 _ p (0 : Fin 1) (1 : Fin 3) rfl,
    slice2_axis1_apply 2 x6 _ p (0 : Fin 1) (2 : Fin 3) rfl]
  rw [e0, e1, e2, e3, e4, e5, e60, e61, e62, e7, e8, e9]

section Region
variable (V : (c : Dev nD) → (b : Ref sig .tc) → Buf (Elt Ideal) ((c : Thread nD τ).loc b))

set_option maxHeartbeats 1000000 in

theorem flushed2_eq (c : Dev nD) (t : Fin cfg2.N) :
    (dat2 (F := Ideal) V c).flushed 10 t = ((cfg2.win 10).blk t).view.read (Elt Ideal)
      (G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9))) := by
  show (cfg2.win 10).cut (grid2.coords t) ((dat2 V c).after 10 t) = _
  dsimp only [dat2, out2_10]
  rw [View.canon_unit_zero hz2]
  simp only [View.ld_unit_zero (S := S2000x32) hz2, View.ld_unit_zero (S := S2000x3) hz2, View.ld_unit_zero (S := S1x32) hz2]
  funext x
  obtain ⟨p, q, rfl⟩ : ∃ (p : Fin 2000) (q : Fin 32), x = ix2 p q := ⟨x 0, x 1, eq_ix2 x⟩
  obtain ⟨i, hi⟩ : ∃ i : S50000x32.Idx, i = ((cfg2.win 10).blk t).view.emb (ix2 p q) := ⟨_, rfl⟩
  have hx0 : (i 0).val = 2000 * t.val + p.val := by rw [hi]; exact (emb2_10 t (ix2 p q)).1
  have hx1 : (i 1).val = q.val := by rw [hi]; exact (emb2_10 t (ix2 p q)).2
  show k2_pay1 _ _ _ _ (ix2 p q) = G2 _ _ _ _ _ _ _ _ _ _ (((cfg2.win 10).blk t).view.emb (ix2 p q))
  rw [← hi]
  exact point_eq _ _ _ _ _ _ _ _ _ _ _ _ _ _ _ _ _ _ _ _ p q i
    (iblk2_0_apply V c t (ix2 p q) i hx0 hx1) (iblk2_1_apply V c t (ix2 p q) i hx0 hx1) (iblk2_2_apply V c t (ix2 p q) i hx0 hx1)
    (iblk2_3_apply V c t (ix2 p q) i hx0 hx1) (iblk2_4_apply V c t (ix2 p q) i hx0 hx1) (iblk2_5_apply V c t (ix2 p q) i hx0 hx1)
    (iblk2_6_apply V c t (ix2 p (0 : Fin 3)) (ix2 (i 0) (0 : Fin 3)) hx0 rfl)
    (iblk2_6_apply V c t (ix2 p (1 : Fin 3)) (ix2 (i 0) (1 : Fin 3)) hx0 rfl)
    (iblk2_6_apply V c t (ix2 p (2 : Fin 3)) (ix2 (i 0) (2 : Fin 3)) hx0 rfl)
    ((iblk2_7_apply V c t (ix2 (0 : Fin 1) q)).trans (congrArg (V c (Pipeline.arrRef spec2 7)) (congrArg (ix2 (0 : Fin 1)) (Fin.ext hx1.symm))))
    ((iblk2_8_apply V c t (ix2 (0 : Fin 1) q)).trans (congrArg (V c (Pipeline.arrRef spec2 8)) (congrArg (ix2 (0 : Fin 1)) (Fin.ext hx1.symm))))
    ((iblk2_9_apply V c t (ix2 (0 : Fin 1) q)).trans (congrArg (V c (Pipeline.arrRef spec2 9)) (congrArg (ix2 (0 : Fin 1)) (Fin.ext hx1.symm))))

theorem mem_blk2 (t : Fin cfg2.N) (i : S50000x32.Idx) :
    i ∈ ((cfg2.win 10).blk t).view.set ↔ ∀ a : Fin 2, win2_10.index t a * S2000x32.size a ≤ (i a).val ∧ (i a).val < win2_10.index t a * S2000x32.size a + S2000x32.size a := by
  show i ∈ ((View.whole main_v213).slice (win2_10.rect t)).set ↔ _
  rw [View.set_slice_whole, Rect.mem_set_unit]
  exact Iff.rfl

theorem cover2 (i : S50000x32.Idx) : ∃ t : Fin cfg2.N, (cfg2.win 10).flush t = true ∧ i ∈ ((cfg2.win 10).blk t).view.set := by
  have hi0 : (i 0).val < 50000 := (i 0).isLt
  have hi1 : (i 1).val < 32 := (i 1).isLt
  have hN : cfg2.N = 25 := N_2
  let t : Fin cfg2.N := ⟨(i 0).val / 2000, by rw [hN]; omega⟩
  obtain ⟨-, -, -, -, -, -, -, -, -, -, ⟨e0, e1⟩⟩ := idx_facts2 t
  have ht : t.val = (i 0).val / 2000 := rfl
  refine ⟨t, flush2_10 t, ?_⟩
  rw [mem_blk2]
  intro a
  match a with
  | ⟨0, _⟩ => show win2_10.index t (0 : Fin 2) * 2000 ≤ (i 0).val ∧ (i 0).val < win2_10.index t (0 : Fin 2) * 2000 + 2000; rw [e0, ht]; omega
  | ⟨1, _⟩ => show win2_10.index t (1 : Fin 2) * 32 ≤ (i 1).val ∧ (i 1).val < win2_10.index t (1 : Fin 2) * 32 + 32; rw [e1]; omega

theorem arr2_10 (c : Dev nD) : (dat2 (F := Ideal) V c).arrAt 10 cfg2.N
    = G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) :=
  (dat2 (F := Ideal) V c).arrAt_eq_of_cover 10 _ (fun t _ => flushed2_eq V c t) cover2

theorem val2 (c : Dev nD) (a1 h1 a2 h2 a3 h3 : FVec Ideal S50000x32 .f32) (dv : FVec Ideal S50000x3 .f32) (b1 b2 b3 : FVec Ideal S1x32 .f32)
    (hV0 : V c (Pipeline.arrRef spec2 0) = a1) (hV1 : V c (Pipeline.arrRef spec2 1) = h1)
    (hV2 : V c (Pipeline.arrRef spec2 2) = a2) (hV3 : V c (Pipeline.arrRef spec2 3) = h2)
    (hV4 : V c (Pipeline.arrRef spec2 4) = a3) (hV5 : V c (Pipeline.arrRef spec2 5) = h3)
    (hV6 : V c (Pipeline.arrRef spec2 6) = dv) (hV7 : V c (Pipeline.arrRef spec2 7) = b1)
    (hV8 : V c (Pipeline.arrRef spec2 8) = b2) (hV9 : V c (Pipeline.arrRef spec2 9) = b3) :
    (dat2 (F := Ideal) V c).arrAt 10 cfg2.N = G2 a1 h1 a2 h2 a3 h3 dv b1 b2 b3 := by
  subst hV0 hV1 hV2 hV3 hV4 hV5 hV6 hV7 hV8 hV9
  exact arr2_10 V c

end Region

theorem bcast_a_a1_apply {α : Type} {a : ℕ} (d : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h d (ix2 p u) = d (ix1 p) :=
  broadcastInDim_apply ![0] h d (ix2 p u) (ix1 p) fun ax => by
    match ax with
    | ⟨0, _⟩ => exact val_ite p

theorem bcast_b_1b_apply {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) :=
  broadcastInDim_apply ![1] h v (ix2 u c) (ix1 c) fun ax => by
    match ax with
    | ⟨0, _⟩ => exact val_ite c

theorem bcast_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ => exact val_ite p
    | ⟨1, _⟩ => rfl

theorem fin32_at (a h : (⟨S50000x32, .f32⟩ : BufTy).Contents (Elt Ideal)) (d : (⟨S50000, .f32⟩ : BufTy).Contents (Elt Ideal))
    (b : (⟨S32, .f32⟩ : BufTy).Contents (Elt Ideal)) (p : Fin 50000) (q : Fin 32) :
    Cert.Spec.fin32 a d h b (ix2 p q) = a (ix2 p q) + (d (ix1 p) * d (ix1 p)) * h (ix2 p q) + b (ix1 q) := by
  unfold Cert.Spec.fin32
  rw [addf_apply, addf_apply, mulf_apply, bcast_a1_ab_apply, bcast_a_a1_apply, mulf_apply, broadcastInDim_oneRow_apply, bcast_b_1b_apply]

theorem dinv_col (d1 d2 d3 : (⟨S50000, .f32⟩ : BufTy).Contents (Elt Ideal)) (p : Fin 50000) (k : Fin 3) :
    (concatenate S50000x3 1 [⟨S50000x1, broadcastInDim S50000x1 ![0] bcast_S50000_S50000x1_0 d1⟩, ⟨S50000x1, broadcastInDim S50000x1 ![0] bcast_S50000_S50000x1_0 d2⟩, ⟨S50000x1, broadcastInDim S50000x1 ![0] bcast_S50000_S50000x1_0 d3⟩] concatenates_S50000x1_S50000x1_S50000x1_S50000x3_d1) (ix2 p k) = ![d1, d2, d3] k (ix1 p) := by
  refine (concatenate_apply_piece (t := S50000x3) 1 _ _ (ix2 p k) k.val ?_ S50000x1
    (broadcastInDim S50000x1 ![0] bcast_S50000_S50000x1_0 (![d1, d2, d3] k)) ?_ rfl k.val ?_ (ix2 p (0 : Fin 1)) ?_ rfl).trans
    (bcast_a_a1_apply _ bcast_S50000_S50000x1_0 p (0 : Fin 1))
  · exact k.isLt
  · fin_cases k <;> rfl
  · fin_cases k <;> rfl
  · intro b hb
    match b with
    | ⟨0, _⟩ => rfl
    | ⟨1, _⟩ => exact absurd rfl hb

section RegionSpec
variable (V : (c : Dev nD) → (b : Ref sig .tc) → Buf (Elt Ideal) ((c : Thread nD τ).loc b))

theorem val2_spec (c : Dev nD) (a1 h1 a2 h2 a3 h3 : (⟨S50000x32, .f32⟩ : BufTy).Contents (Elt Ideal))
    (d1 d2 d3 : (⟨S50000, .f32⟩ : BufTy).Contents (Elt Ideal)) (b11 b22 b33 : (⟨S32, .f32⟩ : BufTy).Contents (Elt Ideal))
    (hV0 : V c (Pipeline.arrRef spec2 0) = a1) (hV1 : V c (Pipeline.arrRef spec2 1) = h1)
    (hV2 : V c (Pipeline.arrRef spec2 2) = a2) (hV3 : V c (Pipeline.arrRef spec2 3) = h2)
    (hV4 : V c (Pipeline.arrRef spec2 4) = a3) (hV5 : V c (Pipeline.arrRef spec2 5) = h3)
    (hDV : V c (Pipeline.arrRef spec2 6) = concatenate S50000x3 1 [⟨S50000x1, broadcastInDim S50000x1 ![0] bcast_S50000_S50000x1_0 d1⟩, ⟨S50000x1, broadcastInDim S50000x1 ![0] bcast_S50000_S50000x1_0 d2⟩, ⟨S50000x1, broadcastInDim S50000x1 ![0] bcast_S50000_S50000x1_0 d3⟩] concatenates_S50000x1_S50000x1_S50000x1_S50000x3_d1)
    (hB1 : V c (Pipeline.arrRef spec2 7) = fun i => shapeCast S1x32 b11 shapeCasts_S32_S1x32 i)
    (hB2 : V c (Pipeline.arrRef spec2 8) = fun i => shapeCast S1x32 b22 shapeCasts_S32_S1x32 i)
    (hB3 : V c (Pipeline.arrRef spec2 9) = fun i => shapeCast S1x32 b33 shapeCasts_S32_S1x32 i) :
    (dat2 (F := Ideal) V c).arrAt 10 cfg2.N
      = addf (addf (Cert.Spec.fin32 a1 d1 h1 b11) (Cert.Spec.fin32 a2 d2 h2 b22)) (Cert.Spec.fin32 a3 d3 h3 b33) := by
  generalize hdv : concatenate S50000x3 1 [⟨S50000x1, broadcastInDim S50000x1 ![0] bcast_S50000_S50000x1_0 d1⟩, ⟨S50000x1, broadcastInDim S50000x1 ![0] bcast_S50000_S50000x1_0 d2⟩, ⟨S50000x1, broadcastInDim S50000x1 ![0] bcast_S50000_S50000x1_0 d3⟩] concatenates_S50000x1_S50000x1_S50000x1_S50000x3_d1 = dv at hDV
  have hd : ∀ p k, dv (ix2 p k) = ![d1, d2, d3] k (ix1 p) := fun p k => hdv ▸ dinv_col d1 d2 d3 p k
  rw [val2 V c _ _ _ _ _ _ _ _ _ _ hV0 hV1 hV2 hV3 hV4 hV5 hDV hB1 hB2 hB3]
  funext j
  obtain ⟨p, q, rfl⟩ : ∃ (p : Fin 50000) (q : Fin 32), j = ix2 p q := ⟨j 0, j 1, eq_ix2 j⟩
  rw [addf_apply, addf_apply, fin32_at, fin32_at, fin32_at]
  simp only [G2, hd, shapeCast_a_1a_apply]
  rfl

end RegionSpec

end Cert.KernelIdeal.Hand

end
-- ==== Proof.KI.KVal2.lean ====
import proofs.«145333_j32066225832361_2_alg».proof.Proof.KI.KVal1
import proofs.«145333_j32066225832361_2_alg».proof.Proof.KI.R1Val
import proofs.«145333_j32066225832361_2_alg».proof.Proof.KI.R2Val

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "X1" => m ((c : Thread nD τ).loc main_arg0)
local notation "X2" => m ((c : Thread nD τ).loc main_arg1)
local notation "X3" => m ((c : Thread nD τ).loc main_arg2)
local notation "EI1" => m ((c : Thread nD τ).loc main_arg3)
local notation "EI2" => m ((c : Thread nD τ).loc main_arg4)
local notation "EI3" => m ((c : Thread nD τ).loc main_arg5)
local notation "EW1" => m ((c : Thread nD τ).loc main_arg6)
local notation "EW2" => m ((c : Thread nD τ).loc main_arg7)
local notation "EW3" => m ((c : Thread nD τ).loc main_arg8)
local notation "WA1" => m ((c : Thread nD τ).loc main_arg9)
local notation "WA2" => m ((c : Thread nD τ).loc main_arg10)
local notation "WA3" => m ((c : Thread nD τ).loc main_arg11)
local notation "BA1" => m ((c : Thread nD τ).loc main_arg12)
local notation "BA2" => m ((c : Thread nD τ).loc main_arg13)
local notation "BA3" => m ((c : Thread nD τ).loc main_arg14)
local notation "FCW" => m ((c : Thread nD τ).loc main_arg15)
local notation "FCB" => m ((c : Thread nD τ).loc main_arg16)
local notation "WB1" => m ((c : Thread nD τ).loc main_arg17)
local notation "WB2" => m ((c : Thread nD τ).loc main_arg18)
local notation "WB3" => m ((c : Thread nD τ).loc main_arg19)
local notation "BB1" => m ((c : Thread nD τ).loc main_arg20)
local notation "BB2" => m ((c : Thread nD τ).loc main_arg21)
local notation "BB3" => m ((c : Thread nD τ).loc main_arg22)

theorem entry1 : Entry1 (V5 m ρ) c
    (Cert.Spec.agg64 EI1 (Cert.Spec.norm EI1 EW1) (Cert.Spec.mm1 X1 WA1)) (Cert.Spec.mm1 X1 WA1)
    (Cert.Spec.agg64 EI2 (Cert.Spec.norm EI2 EW2) (Cert.Spec.mm1 X2 WA2)) (Cert.Spec.mm1 X2 WA2)
    (Cert.Spec.agg64 EI3 (Cert.Spec.norm EI3 EW3) (Cert.Spec.mm1 X3 WA3)) (Cert.Spec.mm1 X3 WA3)
    (Cert.Spec.dinv EI1 EW1) (Cert.Spec.dinv EI2 EW2) (Cert.Spec.dinv EI3 EW3) BA1 BA2 BA3 FCW FCB WB1 WB2 WB3 :=
  ⟨by have h := evB_agg1 (W3 m ρ c); rwa [W3_arg m ρ c main_arg3 (by decide), W3_norm1 m ρ c, H1_eq m ρ c] at h,
    (evB_h1 (W3 m ρ c)).trans (H1_eq m ρ c),
    by have h := evB_agg2 (W3 m ρ c); rwa [W3_arg m ρ c main_arg4 (by decide), W3_norm2 m ρ c, H2_eq m ρ c] at h,
    (evB_h2 (W3 m ρ c)).trans (H2_eq m ρ c),
    by have h := evB_agg3 (W3 m ρ c); rwa [W3_arg m ρ c main_arg5 (by decide), W3_norm3 m ρ c, H3_eq m ρ c] at h,
    (evB_h3 (W3 m ρ c)).trans (H3_eq m ρ c),
    W5_dall m ρ c,
    by have h := evB_b1 (W3 m ρ c); rwa [W3_arg m ρ c main_arg12 (by decide)] at h,
    by have h := evB_b2 (W3 m ρ c); rwa [W3_arg m ρ c main_arg13 (by decide)] at h,
    by have h := evB_b3 (W3 m ρ c); rwa [W3_arg m ρ c main_arg14 (by decide)] at h,
    (evB_fcw (W3 m ρ c)).trans (W3_arg m ρ c main_arg15 (by decide)),
    by have h := evB_fcb (W3 m ρ c); rwa [W3_arg m ρ c main_arg16 (by decide)] at h,
    (evB_w11 (W3 m ρ c)).trans (W3_arg m ρ c main_arg17 (by decide)),
    (evB_w22 (W3 m ρ c)).trans (W3_arg m ρ c main_arg18 (by decide)),
    (evB_w33 (W3 m ρ c)).trans (W3_arg m ρ c main_arg19 (by decide))⟩

def HT : Prop := ∀ i, Cert.Spec.T X1 X2 X3 EI1 EI2 EI3 EW1 EW2 EW3 WA1 WA2 WA3 BA1 BA2 BA3 FCW FCB i ≠ 0

theorem K_k1 (hT : HT m c) : W9 m ρ c (Proc.devRef .tc main_v153) = Cert.Spec.K1 X1 X2 X3 EI1 EI2 EI3 EW1 EW2 EW3 WA1 WA2 WA3 BA1 BA2 BA3 FCW FCB :=
  (Pipeline.withArrays_of_ne spec2 c _ _ main_v153 (by decide)).trans ((evC_k1 (W6 m ρ c)).trans
    ((congrArg ksl0 (Pipeline.withArrays_arr spec1 launch1.win.arr_inj c _ _ 15)).trans (val1_coef0 (entry1 m ρ c) hT)))
theorem K_k2 (hT : HT m c) : W9 m ρ c (Proc.devRef .tc main_v154) = Cert.Spec.K2 X1 X2 X3 EI1 EI2 EI3 EW1 EW2 EW3 WA1 WA2 WA3 BA1 BA2 BA3 FCW FCB :=
  (Pipeline.withArrays_of_ne spec2 c _ _ main_v154 (by decide)).trans ((evC_k2 (W6 m ρ c)).trans
    ((congrArg ksl1 (Pipeline.withArrays_arr spec1 launch1.win.arr_inj c _ _ 15)).trans (val1_coef1 (entry1 m ρ c) hT)))
theorem K_k3 (hT : HT m c) : W9 m ρ c (Proc.devRef .tc main_v155) = Cert.Spec.K3 X1 X2 X3 EI1 EI2 EI3 EW1 EW2 EW3 WA1 WA2 WA3 BA1 BA2 BA3 FCW FCB :=
  (Pipeline.withArrays_of_ne spec2 c _ _ main_v155 (by decide)).trans ((evC_k3 (W6 m ρ c)).trans
    ((congrArg ksl2 (Pipeline.withArrays_arr spec1 launch1.win.arr_inj c _ _ 15)).trans (val1_coef2 (entry1 m ρ c) hT)))

theorem K_out (hT : HT m c) : W9 m ρ c (Proc.devRef .tc main_v213) = Cert.Spec.OUT X1 X2 X3 EI1 EI2 EI3 EW1 EW2 EW3 WA1 WA2 WA3 BA1 BA2 BA3 FCW FCB WB1 WB2 WB3 BB1 BB2 BB3 := by
  have e : W6 m ρ c (Proc.devRef .tc main_v152_1) = _ := Pipeline.withArrays_arr spec1 launch1.win.arr_inj c _ _ 16
  have g1 := (congrArg gsl0 e).trans (val1_h0 (entry1 m ρ c) hT)
  have g2 := (congrArg gsl1 e).trans (val1_h1 (entry1 m ρ c) hT)
  have g3 := (congrArg gsl2 e).trans (val1_h2 (entry1 m ρ c) hT)
  have a1 := evC_agg1 (W6 m ρ c)
  rw [W6_arg m ρ c main_arg3 (by decide), W6_norm1 m ρ c, g1] at a1
  have a2 := evC_agg2 (W6 m ρ c)
  rw [W6_arg m ρ c main_arg4 (by decide), W6_norm2 m ρ c, g2] at a2
  have a3 := evC_agg3 (W6 m ρ c)
  rw [W6_arg m ρ c main_arg5 (by decide), W6_norm3 m ρ c, g3] at a3
  have b1 := evC_b1 (W6 m ρ c)
  rw [W6_arg m ρ c main_arg20 (by decide)] at b1
  have b2 := evC_b2 (W6 m ρ c)
  rw [W6_arg m ρ c main_arg21 (by decide)] at b2
  have b3 := evC_b3 (W6 m ρ c)
  rw [W6_arg m ρ c main_arg22 (by decide)] at b3
  exact (Pipeline.withArrays_arr spec2 launch2.win.arr_inj c _ _ 10).trans (val2_spec (V8 m ρ) c _ _ _ _ _ _
    (Cert.Spec.dinv EI1 EW1) (Cert.Spec.dinv EI2 EW2) (Cert.Spec.dinv EI3 EW3) BB1 BB2 BB3
    a1 ((evC_g1 (W6 m ρ c)).trans g1) a2 ((evC_g2 (W6 m ρ c)).trans g2) a3 ((evC_g3 (W6 m ρ c)).trans g3) (W8_dall m ρ c) b1 b2 b3)

end Cert.KernelIdeal.Hand

end
-- ==== Proof.Ref.Run.lean ====
import proofs.«145333_j32066225832361_2_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

abbrev Wr (S : List (HloOp τ sig (Elt F))) (Wl : List (Ref sig .tc)) : Prop :=
  S.Forall fun op => op.writes ⊆ (Wl.map (Proc.devRef (τ := τ) .tc)).toFinset

abbrev Ok (op : HloOp τ sig (Elt F)) : Prop := op.bufs ⊆ tcRefs τ sig ∧ op.fresh = ∅

theorem wr_at {Wl : List (Ref sig .tc)} {r : Ref sig .tc} (n : Nat) (h : Wl[n]? = some r) :
    ({Proc.devRef .tc r} : Finset (DevRef τ sig)) ⊆ (Wl.map (Proc.devRef (τ := τ) .tc)).toFinset :=
  Finset.singleton_subset_iff.mpr (List.mem_toFinset.mpr (List.mem_map_of_mem (List.mem_of_getElem? h)))

structure BranchBufs where
  f0 : TRef sig ⟨S50000x64, .f32⟩
  f1 : TRef sig ⟨S1x800000, .i32⟩
  f2 : TRef sig ⟨S800000, .i32⟩
  f3 : TRef sig ⟨S1x800000, .i32⟩
  f4 : TRef sig ⟨S800000, .i32⟩
  f5 : TRef sig ⟨S_, .f32⟩
  f6 : TRef sig ⟨S50000, .f32⟩
  f7 : TRef sig ⟨S800000x1, .i32⟩
  f8 : TRef sig ⟨S50000, .f32⟩
  f9 : TRef sig ⟨S_, .f32⟩
  f10 : TRef sig ⟨S50000, .f32⟩
  f11 : TRef sig ⟨S50000, .f32⟩
  f12 : TRef sig ⟨S50000, .f32⟩
  f13 : TRef sig ⟨S_, .i32⟩
  f14 : TRef sig ⟨S800000, .i32⟩
  f15 : TRef sig ⟨S800000, .i1⟩
  f16 : TRef sig ⟨S_, .i32⟩
  f17 : TRef sig ⟨S800000, .i32⟩
  f18 : TRef sig ⟨S800000, .i32⟩
  f19 : TRef sig ⟨S800000, .i32⟩
  f20 : TRef sig ⟨S800000x1, .i32⟩
  f21 : TRef sig ⟨S800000, .f32⟩
  f22 : TRef sig ⟨S800000, .f32⟩
  f23 : TRef sig ⟨S_, .i32⟩
  f24 : TRef sig ⟨S800000, .i32⟩
  f25 : TRef sig ⟨S800000, .i1⟩
  f26 : TRef sig ⟨S_, .i32⟩
  f27 : TRef sig ⟨S800000, .i32⟩
  f28 : TRef sig ⟨S800000, .i32⟩
  f29 : TRef sig ⟨S800000, .i32⟩
  f30 : TRef sig ⟨S800000x1, .i32⟩
  f31 : TRef sig ⟨S800000, .f32⟩
  f32 : TRef sig ⟨S800000, .f32⟩
  f33 : TRef sig ⟨S800000x1, .f32⟩
  f34 : TRef sig ⟨S_, .i32⟩
  f35 : TRef sig ⟨S800000, .i32⟩
  f36 : TRef sig ⟨S800000, .i1⟩
  f37 : TRef sig ⟨S_, .i32⟩
  f38 : TRef sig ⟨S800000, .i32⟩
  f39 : TRef sig ⟨S800000, .i32⟩
  f40 : TRef sig ⟨S800000, .i32⟩
  f41 : TRef sig ⟨S800000x1, .i32⟩
  f42 : TRef sig ⟨S800000x64, .f32⟩
  f43 : TRef sig ⟨S800000x64, .f32⟩
  f44 : TRef sig ⟨S800000x64, .f32⟩
  f45 : TRef sig ⟨S_, .f32⟩
  f46 : TRef sig ⟨S50000x64, .f32⟩
  f47 : TRef sig ⟨S800000x1, .i32⟩
  f48 : TRef sig ⟨S50000x64, .f32⟩
  f49 : TRef sig ⟨S50000, .f32⟩
  f50 : TRef sig ⟨S50000x1, .f32⟩
  f51 : TRef sig ⟨S50000x64, .f32⟩
  f52 : TRef sig ⟨S50000x64, .f32⟩
  f53 : TRef sig ⟨S50000x64, .f32⟩
  f54 : TRef sig ⟨S1x64, .f32⟩
  f55 : TRef sig ⟨S50000x64, .f32⟩
  f56 : TRef sig ⟨S50000x64, .f32⟩
  f57 : TRef sig ⟨S_, .f32⟩
  f58 : TRef sig ⟨S50000x64, .f32⟩
  f59 : TRef sig ⟨S50000x64, .f32⟩

abbrev BranchBufs.refs (φ : BranchBufs) : List (Ref sig .tc) :=
  [φ.f0.ref, φ.f1.ref, φ.f2.ref, φ.f3.ref, φ.f4.ref, φ.f5.ref, φ.f6.ref, φ.f7.ref, φ.f8.ref, φ.f9.ref, φ.f10.ref, φ.f11.ref, φ.f12.ref, φ.f13.ref, φ.f14.ref, φ.f15.ref, φ.f16.ref, φ.f17.ref, φ.f18.ref, φ.f19.ref, φ.f20.ref, φ.f21.ref, φ.f22.ref, φ.f23.ref, φ.f24.ref, φ.f25.ref, φ.f26.ref, φ.f27.ref, φ.f28.ref, φ.f29.ref, φ.f30.ref, φ.f31.ref, φ.f32.ref, φ.f33.ref, φ.f34.ref, φ.f35.ref, φ.f36.ref, φ.f37.ref, φ.f38.ref, φ.f39.ref, φ.f40.ref, φ.f41.ref, φ.f42.ref, φ.f43.ref, φ.f44.ref, φ.f45.ref, φ.f46.ref, φ.f47.ref, φ.f48.ref, φ.f49.ref, φ.f50.ref, φ.f51.ref, φ.f52.ref, φ.f53.ref, φ.f54.ref, φ.f55.ref, φ.f56.ref, φ.f57.ref, φ.f58.ref, φ.f59.ref]

def branch (a0 : TRef sig ⟨S50000x256, .f32⟩) (a1 : TRef sig ⟨S256x64, .f32⟩) (a2 : TRef sig ⟨S2x800000, .i32⟩) (a3 : TRef sig ⟨S800000, .f32⟩) (a4 : TRef sig ⟨S64, .f32⟩) (φ : BranchBufs) : List (HloOp τ sig (Elt F)) :=
  [ TRef.binary a0 a1 φ.f0 (fun l r => Host.dotGeneral dot_S50000x256_S256x64_S50000x64_1_0_0_1_n_n none l r),
    TRef.unary a2 φ.f1 (extractStridedSlice S1x800000 ![0, 0] · slices_S2x800000_S1x800000_0_0),
    TRef.reshape φ.f1 φ.f2 rfl shapeCasts_S1x800000_S800000,
    TRef.unary a2 φ.f3 (extractStridedSlice S1x800000 ![1, 0] · slices_S2x800000_S1x800000_1_0),
    TRef.reshape φ.f3 φ.f4 rfl shapeCasts_S1x800000_S800000,
    TRef.nullary φ.f5 (constant S_ .f32 0x00000000#32),
    TRef.unary φ.f5 φ.f6 (broadcastInDim S50000 ![] bcast_S_S50000),
    TRef.unary φ.f4 φ.f7 (broadcastInDim S800000x1 ![0] bcast_S800000_S800000x1_0),
    TRef.ternary φ.f6 φ.f7 a3 φ.f8 (fun x i u => Host.scatterAdd scatter_S50000_S800000x1_S800000_n_0_0_1 x i u),
    TRef.nullary φ.f9 (constant S_ .f32 0x3F800000#32),
    TRef.unary φ.f9 φ.f10 (broadcastInDim S50000 ![] bcast_S_S50000),
    TRef.binary φ.f8 φ.f10 φ.f11 addf,
    TRef.unary φ.f11 φ.f12 Host.rsqrt,
    TRef.nullary φ.f13 (constantI S_ 32 0#32),
    TRef.unary φ.f13 φ.f14 (broadcastInDim S800000 ![] bcast_S_S800000),
    TRef.binary φ.f2 φ.f14 φ.f15 (cmpi .slt),
    TRef.nullary φ.f16 (constantI S_ 32 50000#32),
    TRef.unary φ.f16 φ.f17 (broadcastInDim S800000 ![] bcast_S_S800000),
    TRef.binary φ.f2 φ.f17 φ.f18 addi,
    TRef.ternary φ.f15 φ.f18 φ.f2 φ.f19 select,
    TRef.unary φ.f19 φ.f20 (broadcastInDim S800000x1 ![0] bcast_S800000_S800000x1_0),
    TRef.binary φ.f12 φ.f20 φ.f21 (fun x i => Host.gather gather_S50000_S800000x1_S800000_n_0_n_n_0_1_1 x i),
    TRef.binary φ.f21 a3 φ.f22 mulf,
    TRef.nullary φ.f23 (constantI S_ 32 0#32),
    TRef.unary φ.f23 φ.f24 (broadcastInDim S800000 ![] bcast_S_S800000),
    TRef.binary φ.f4 φ.f24 φ.f25 (cmpi .slt),
    TRef.nullary φ.f26 (constantI S_ 32 50000#32),
    TRef.unary φ.f26 φ.f27 (broadcastInDim S800000 ![] bcast_S_S800000),
    TRef.binary φ.f4 φ.f27 φ.f28 addi,
    TRef.ternary φ.f25 φ.f28 φ.f4 φ.f29 select,
    TRef.unary φ.f29 φ.f30 (broadcastInDim S800000x1 ![0] bcast_S800000_S800000x1_0),
    TRef.binary φ.f12 φ.f30 φ.f31 (fun x i => Host.gather gather_S50000_S800000x1_S800000_n_0_n_n_0_1_1 x i),
    TRef.binary φ.f22 φ.f31 φ.f32 mulf,
    TRef.unary φ.f32 φ.f33 (broadcastInDim S800000x1 ![0] bcast_S800000_S800000x1_0),
    TRef.nullary φ.f34 (constantI S_ 32 0#32),
    TRef.unary φ.f34 φ.f35 (broadcastInDim S800000 ![] bcast_S_S800000),
    TRef.binary φ.f2 φ.f35 φ.f36 (cmpi .slt),
    TRef.nullary φ.f37 (constantI S_ 32 50000#32),
    TRef.unary φ.f37 φ.f38 (broadcastInDim S800000 ![] bcast_S_S800000),
    TRef.binary φ.f2 φ.f38 φ.f39 addi,
    TRef.ternary φ.f36 φ.f39 φ.f2 φ.f40 select,
    TRef.unary φ.f40 φ.f41 (broadcastInDim S800000x1 ![0] bcast_S800000_S800000x1_0),
    TRef.binary φ.f0 φ.f41 φ.f42 (fun x i => Host.gather gather_S50000x64_S800000x1_S800000x64_1_0_n_n_0_1_164 x i),
    TRef.unary φ.f33 φ.f43 (broadcastInDim S800000x64 ![0, 1] bcast_S800000x1_S800000x64_0_1),
    TRef.binary φ.f43 φ.f42 φ.f44 mulf,
    TRef.nullary φ.f45 (constant S_ .f32 0x00000000#32),
    TRef.unary φ.f45 φ.f46 (broadcastInDim S50000x64 ![] bcast_S_S50000x64),
    TRef.unary φ.f4 φ.f47 (broadcastInDim S800000x1 ![0] bcast_S800000_S800000x1_0),
    TRef.ternary φ.f46 φ.f47 φ.f44 φ.f48 (fun x i u => Host.scatterAdd scatter_S50000x64_S800000x1_S800000x64_1_0_0_1 x i u),
    TRef.binary φ.f12 φ.f12 φ.f49 mulf,
    TRef.unary φ.f49 φ.f50 (broadcastInDim S50000x1 ![0] bcast_S50000_S50000x1_0),
    TRef.unary φ.f50 φ.f51 (broadcastInDim S50000x64 ![0, 1] bcast_S50000x1_S50000x64_0_1),
    TRef.binary φ.f51 φ.f0 φ.f52 mulf,
    TRef.binary φ.f48 φ.f52 φ.f53 addf,
    TRef.unary a4 φ.f54 (broadcastInDim S1x64 ![1] bcast_S64_S1x64_1),
    TRef.unary φ.f54 φ.f55 (broadcastInDim S50000x64 ![0, 1] bcast_S1x64_S50000x64_0_1),
    TRef.binary φ.f53 φ.f55 φ.f56 addf,
    TRef.nullary φ.f57 (constant S_ .f32 0x00000000#32),
    TRef.unary φ.f57 φ.f58 (broadcastInDim S50000x64 ![] bcast_S_S50000x64),
    TRef.binary φ.f56 φ.f58 φ.f59 maximumf ]

theorem branch_writes (a0 : TRef sig ⟨S50000x256, .f32⟩) (a1 : TRef sig ⟨S256x64, .f32⟩) (a2 : TRef sig ⟨S2x800000, .i32⟩) (a3 : TRef sig ⟨S800000, .f32⟩) (a4 : TRef sig ⟨S64, .f32⟩) (φ : BranchBufs) :
    Wr (F := F) (branch a0 a1 a2 a3 a4 φ) φ.refs := by
  unfold branch; exact ⟨wr_at 0 rfl, wr_at 1 rfl, wr_at 2 rfl, wr_at 3 rfl, wr_at 4 rfl, wr_at 5 rfl, wr_at 6 rfl, wr_at 7 rfl, wr_at 8 rfl, wr_at 9 rfl, wr_at 10 rfl, wr_at 11 rfl, wr_at 12 rfl, wr_at 13 rfl, wr_at 14 rfl, wr_at 15 rfl, wr_at 16 rfl, wr_at 17 rfl, wr_at 18 rfl, wr_at 19 rfl, wr_at 20 rfl, wr_at 21 rfl, wr_at 22 rfl, wr_at 23 rfl, wr_at 24 rfl, wr_at 25 rfl, wr_at 26 rfl, wr_at 27 rfl, wr_at 28 rfl, wr_at 29 rfl, wr_at 30 rfl, wr_at 31 rfl, wr_at 32 rfl, wr_at 33 rfl, wr_at 34 rfl, wr_at 35 rfl, wr_at 36 rfl, wr_at 37 rfl, wr_at 38 rfl, wr_at 39 rfl, wr_at 40 rfl, wr_at 41 rfl, wr_at 42 rfl, wr_at 43 rfl, wr_at 44 rfl, wr_at 45 rfl, wr_at 46 rfl, wr_at 47 rfl, wr_at 48 rfl, wr_at 49 rfl, wr_at 50 rfl, wr_at 51 rfl, wr_at 52 rfl, wr_at 53 rfl, wr_at 54 rfl, wr_at 55 rfl, wr_at 56 rfl, wr_at 57 rfl, wr_at 58 rfl, wr_at 59 rfl⟩

theorem branch_ok (a0 : TRef sig ⟨S50000x256, .f32⟩) (a1 : TRef sig ⟨S256x64, .f32⟩) (a2 : TRef sig ⟨S2x800000, .i32⟩) (a3 : TRef sig ⟨S800000, .f32⟩) (a4 : TRef sig ⟨S64, .f32⟩) (φ : BranchBufs) : (branch (F := F) a0 a1 a2 a3 a4 φ).Forall Ok := by
  unfold branch; exact ⟨⟨binary_bufs_sub .., rfl⟩, ⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨unary_bufs_sub .., rfl⟩, ⟨ternary_bufs_sub .., rfl⟩, ⟨nullary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩

def bufB1 : BranchBufs :=
  ⟨.of main_v0, .of main_v1, .of main_v2, .of main_v3, .of main_v4, .of main_cst, .of main_v5, .of main_v6, .of main_v7, .of main_cst_0, .of main_v8, .of main_v9, .of main_v10, .of main_c, .of main_v11, .of main_v12, .of main_c_1, .of main_v13, .of main_v14, .of main_v15, .of main_v16, .of main_v17, .of main_v18, .of main_c_2, .of main_v19, .of main_v20, .of main_c_3, .of main_v21, .of main_v22, .of main_v23, .of main_v24, .of main_v25, .of main_v26, .of main_v27, .of main_c_4, .of main_v28, .of main_v29, .of main_c_5, .of main_v30, .of main_v31, .of main_v32, .of main_v33, .of main_v34, .of main_v35, .of main_v36, .of main_cst_6, .of main_v37, .of main_v38, .of main_v39, .of main_v40, .of main_v41, .of main_v42, .of main_v43, .of main_v44, .of main_v45, .of main_v46, .of main_v47, .of main_call0_cst, .of main_call0_v0, .of main_v48⟩
abbrev B1 : List (HloOp τ sig (Elt F)) := branch (.of main_arg0) (.of main_arg9) (.of main_arg3) (.of main_arg6) (.of main_arg12) bufB1

def bufB2 : BranchBufs :=
  ⟨.of main_v49, .of main_v50, .of main_v51, .of main_v52, .of main_v53, .of main_cst_7, .of main_v54, .of main_v55, .of main_v56, .of main_cst_8, .of main_v57, .of main_v58, .of main_v59, .of main_c_9, .of main_v60, .of main_v61, .of main_c_10, .of main_v62, .of main_v63, .of main_v64, .of main_v65, .of main_v66, .of main_v67, .of main_c_11, .of main_v68, .of main_v69, .of main_c_12, .of main_v70, .of main_v71, .of main_v72, .of main_v73, .of main_v74, .of main_v75, .of main_v76, .of main_c_13, .of main_v77, .of main_v78, .of main_c_14, .of main_v79, .of main_v80, .of main_v81, .of main_v82, .of main_v83, .of main_v84, .of main_v85, .of main_cst_15, .of main_v86, .of main_v87, .of main_v88, .of main_v89, .of main_v90, .of main_v91, .of main_v92, .of main_v93, .of main_v94, .of main_v95, .of main_v96, .of main_call1_cst, .of main_call1_v0, .of main_v97⟩
abbrev B2 : List (HloOp τ sig (Elt F)) := branch (.of main_arg1) (.of main_arg10) (.of main_arg4) (.of main_arg7) (.of main_arg13) bufB2

def bufB3 : BranchBufs :=
  ⟨.of main_v98, .of main_v99, .of main_v100, .of main_v101, .of main_v102, .of main_cst_16, .of main_v103, .of main_v104, .of main_v105, .of main_cst_17, .of main_v106, .of main_v107, .of main_v108, .of main_c_18, .of main_v109, .of main_v110, .of main_c_19, .of main_v111, .of main_v112, .of main_v113, .of main_v114, .of main_v115, .of main_v116, .of main_c_20, .of main_v117, .of main_v118, .of main_c_21, .of main_v119, .of main_v120, .of main_v121, .of main_v122, .of main_v123, .of main_v124, .of main_v125, .of main_c_22, .of main_v126, .of main_v127, .of main_c_23, .of main_v128, .of main_v129, .of main_v130, .of main_v131, .of main_v132, .of main_v133, .of main_v134, .of main_cst_24, .of main_v135, .of main_v136, .of main_v137, .of main_v138, .of main_v139, .of main_v140, .of main_v141, .of main_v142, .of main_v143, .of main_v144, .of main_v145, .of main_call2_cst, .of main_call2_v0, .of main_v146⟩
abbrev B3 : List (HloOp τ sig (Elt F)) := branch (.of main_arg2) (.of main_arg11) (.of main_arg5) (.of main_arg8) (.of main_arg14) bufB3

abbrev AT : List (HloOp τ sig (Elt F)) :=
  [ StableHlo.binary main_v48 main_arg15 main_v147 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg16 main_v148 (broadcastInDim S1x1 ![1] bcast_S1_S1x1_1 : (⟨S1, .f32⟩ : BufTy).Contents (Elt F) → (⟨S1x1, .f32⟩ : BufTy).Contents (Elt F)),
    StableHlo.unary main_v148 main_v149 (broadcastInDim S50000x1 ![0, 1] bcast_S1x1_S50000x1_0_1 : (⟨S1x1, .f32⟩ : BufTy).Contents (Elt F) → (⟨S50000x1, .f32⟩ : BufTy).Contents (Elt F)),
    StableHlo.binary main_v147 main_v149 main_v150 (addf : (⟨S50000x1, .f32⟩ : BufTy).Contents (Elt F) → (⟨S50000x1, .f32⟩ : BufTy).Contents (Elt F) → (⟨S50000x1, .f32⟩ : BufTy).Contents (Elt F)),
    StableHlo.nullary main_cst_25 (constant S_ .f32 0x3C23D70A#32),
    StableHlo.nullary main_call3_cst (constant S_ .f32 0x00000000#32),
    StableHlo.unary main_call3_cst main_call3_v0 (broadcastInDim S50000x1 ![] bcast_S_S50000x1 : (⟨S_, .f32⟩ : BufTy).Contents (Elt F) → (⟨S50000x1, .f32⟩ : BufTy).Contents (Elt F)),
    StableHlo.binary main_v150 main_call3_v0 main_call3_v1 (cmpf .oge : (⟨S50000x1, .f32⟩ : BufTy).Contents (Elt F) → (⟨S50000x1, .f32⟩ : BufTy).Contents (Elt F) → (⟨S50000x1, .i1⟩ : BufTy).Contents (Elt F)),
    StableHlo.unary main_cst_25 main_call3_v2 (id : (⟨S_, .f32⟩ : BufTy).Contents (Elt F) → (⟨S_, .f32⟩ : BufTy).Contents (Elt F)),
    StableHlo.unary main_call3_v2 main_call3_v3 (broadcastInDim S50000x1 ![] bcast_S_S50000x1 : (⟨S_, .f32⟩ : BufTy).Contents (Elt F) → (⟨S50000x1, .f32⟩ : BufTy).Contents (Elt F)),
    StableHlo.binary main_call3_v3 main_v150 main_call3_v4 (mulf : (⟨S50000x1, .f32⟩ : BufTy).Contents (Elt F) → (⟨S50000x1, .f32⟩ : BufTy).Contents (Elt F) → (⟨S50000x1, .f32⟩ : BufTy).Contents (Elt F)),
    StableHlo.ternary main_call3_v1 main_v150 main_call3_v4 main_v151 (select : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    StableHlo.unary main_v151 main_v152 (Host.exp : (⟨S50000x1, .f32⟩ : BufTy).Contents (Elt F) → (⟨S50000x1, .f32⟩ : BufTy).Contents (Elt F)),
    StableHlo.binary main_v97 main_arg15 main_v153 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg16 main_v154 (broadcastInDim S1x1 ![1] bcast_S1_S1x1_1 : (⟨S1, .f32⟩ : BufTy).Contents (Elt F) → (⟨S1x1, .f32⟩ : BufTy).Contents (Elt F)),
    StableHlo.unary main_v154 main_v155 (broadcastInDim S50000x1 ![0, 1] bcast_S1x1_S50000x1_0_1 : (⟨S1x1, .f32⟩ : BufTy).Contents (Elt F) → (⟨S50000x1, .f32⟩ : BufTy).Contents (Elt F)),
    StableHlo.binary main_v153 main_v155 main_v156 (addf : (⟨S50000x1, .f32⟩ : BufTy).Contents (Elt F) → (⟨S50000x1, .f32⟩ : BufTy).Contents (Elt F) → (⟨S50000x1, .f32⟩ : BufTy).Contents (Elt F)),
    StableHlo.nullary main_cst_26 (constant S_ .f32 0x3C23D70A#32),
    StableHlo.nullary main_call4_cst (constant S_ .f32 0x00000000#32),
    StableHlo.unary main_call4_cst main_call4_v0 (broadcastInDim S50000x1 ![] bcast_S_S50000x1 : (⟨S_, .f32⟩ : BufTy).Contents (Elt F) → (⟨S50000x1, .f32⟩ : BufTy).Contents (Elt F)),
    StableHlo.binary main_v156 main_call4_v0 main_call4_v1 (cmpf .oge : (⟨S50000x1, .f32⟩ : BufTy).Contents (Elt F) → (⟨S50000x1, .f32⟩ : BufTy).Contents (Elt F) → (⟨S50000x1, .i1⟩ : BufTy).Contents (Elt F)),
    StableHlo.unary main_cst_26 main_call4_v2 (id : (⟨S_, .f32⟩ : BufTy).Contents (Elt F) → (⟨S_, .f32⟩ : BufTy).Contents (Elt F)),
    StableHlo.unary main_call4_v2 main_call4_v3 (broadcastInDim S50000x1 ![] bcast_S_S50000x1 : (⟨S_, .f32⟩ : BufTy).Contents (Elt F) → (⟨S50000x1, .f32⟩ : BufTy).Contents (Elt F)),
    StableHlo.binary main_call4_v3 main_v156 main_call4_v4 (mulf : (⟨S50000x1, .f32⟩ : BufTy).Contents (Elt F) → (⟨S50000x1, .f32⟩ : BufTy).Contents (Elt F) → (⟨S50000x1, .f32⟩ : BufTy).Contents (Elt F)),
    StableHlo.ternary main_call4_v1 main_v156 main_call4_v4 main_v157 (select : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    StableHlo.unary main_v157 main_v158 (Host.exp : (⟨S50000x1, .f32⟩ : BufTy).Contents (Elt F) → (⟨S50000x1, .f32⟩ : BufTy).Contents (Elt F)),
    StableHlo.binary main_v146 main_arg15 main_v159 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg16 main_v160 (broadcastInDim S1x1 ![1] bcast_S1_S1x1_1 : (⟨S1, .f32⟩ : BufTy).Contents (Elt F) → (⟨S1x1, .f32⟩ : BufTy).Contents (Elt F)),
    StableHlo.unary main_v160 main_v161 (broadcastInDim S50000x1 ![0, 1] bcast_S1x1_S50000x1_0_1 : (⟨S1x1, .f32⟩ : BufTy).Contents (Elt F) → (⟨S50000x1, .f32⟩ : BufTy).Contents (Elt F)),
    StableHlo.binary main_v159 main_v161 main_v162 (addf : (⟨S50000x1, .f32⟩ : BufTy).Contents (Elt F) → (⟨S50000x1, .f32⟩ : BufTy).Contents (Elt F) → (⟨S50000x1, .f32⟩ : BufTy).Contents (Elt F)),
    StableHlo.nullary main_cst_27 (constant S_ .f32 0x3C23D70A#32),
    StableHlo.nullary main_call5_cst (constant S_ .f32 0x00000000#32),
    StableHlo.unary main_call5_cst main_call5_v0 (broadcastInDim S50000x1 ![] bcast_S_S50000x1 : (⟨S_, .f32⟩ : BufTy).Contents (Elt F) → (⟨S50000x1, .f32⟩ : BufTy).Contents (Elt F)),
    StableHlo.binary main_v162 main_call5_v0 main_call5_v1 (cmpf .oge : (⟨S50000x1, .f32⟩ : BufTy).Contents (Elt F) → (⟨S50000x1, .f32⟩ : BufTy).Contents (Elt F) → (⟨S50000x1, .i1⟩ : BufTy).Contents (Elt F)),
    StableHlo.unary main_cst_27 main_call5_v2 (id : (⟨S_, .f32⟩ : BufTy).Contents (Elt F) → (⟨S_, .f32⟩ : BufTy).Contents (Elt F)),
    StableHlo.unary main_call5_v2 main_call5_v3 (broadcastInDim S50000x1 ![] bcast_S_S50000x1 : (⟨S_, .f32⟩ : BufTy).Contents (Elt F) → (⟨S50000x1, .f32⟩ : BufTy).Contents (Elt F)),
    StableHlo.binary main_call5_v3 main_v162 main_call5_v4 (mulf : (⟨S50000x1, .f32⟩ : BufTy).Contents (Elt F) → (⟨S50000x1, .f32⟩ : BufTy).Contents (Elt F) → (⟨S50000x1, .f32⟩ : BufTy).Contents (Elt F)),
    StableHlo.ternary main_call5_v1 main_v162 main_call5_v4 main_v163 (select : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    StableHlo.unary main_v163 main_v164 (Host.exp : (⟨S50000x1, .f32⟩ : BufTy).Contents (Elt F) → (⟨S50000x1, .f32⟩ : BufTy).Contents (Elt F)),
    StableHlo.binary main_v152 main_v158 main_v165 (addf : (⟨S50000x1, .f32⟩ : BufTy).Contents (Elt F) → (⟨S50000x1, .f32⟩ : BufTy).Contents (Elt F) → (⟨S50000x1, .f32⟩ : BufTy).Contents (Elt F)),
    StableHlo.binary main_v165 main_v164 main_v166 (addf : (⟨S50000x1, .f32⟩ : BufTy).Contents (Elt F) → (⟨S50000x1, .f32⟩ : BufTy).Contents (Elt F) → (⟨S50000x1, .f32⟩ : BufTy).Contents (Elt F)),
    StableHlo.binary main_v152 main_v166 main_v167 (Host.divf : (⟨S50000x1, .f32⟩ : BufTy).Contents (Elt F) → (⟨S50000x1, .f32⟩ : BufTy).Contents (Elt F) → (⟨S50000x1, .f32⟩ : BufTy).Contents (Elt F)),
    StableHlo.binary main_v158 main_v166 main_v168 (Host.divf : (⟨S50000x1, .f32⟩ : BufTy).Contents (Elt F) → (⟨S50000x1, .f32⟩ : BufTy).Contents (Elt F) → (⟨S50000x1, .f32⟩ : BufTy).Contents (Elt F)),
    StableHlo.binary main_v164 main_v166 main_v169 (Host.divf : (⟨S50000x1, .f32⟩ : BufTy).Contents (Elt F) → (⟨S50000x1, .f32⟩ : BufTy).Contents (Elt F) → (⟨S50000x1, .f32⟩ : BufTy).Contents (Elt F)) ]

abbrev CB : List (HloOp τ sig (Elt F)) :=
  [ StableHlo.unary main_v167 main_v170 (broadcastInDim S50000x64 ![0, 1] bcast_S50000x1_S50000x64_0_1 : (⟨S50000x1, .f32⟩ : BufTy).Contents (Elt F) → (⟨S50000x64, .f32⟩ : BufTy).Contents (Elt F)),
    StableHlo.binary main_v48 main_v170 main_v171 (mulf : (⟨S50000x64, .f32⟩ : BufTy).Contents (Elt F) → (⟨S50000x64, .f32⟩ : BufTy).Contents (Elt F) → (⟨S50000x64, .f32⟩ : BufTy).Contents (Elt F)),
    StableHlo.unary main_v168 main_v172 (broadcastInDim S50000x64 ![0, 1] bcast_S50000x1_S50000x64_0_1 : (⟨S50000x1, .f32⟩ : BufTy).Contents (Elt F) → (⟨S50000x64, .f32⟩ : BufTy).Contents (Elt F)),
    StableHlo.binary main_v97 main_v172 main_v173 (mulf : (⟨S50000x64, .f32⟩ : BufTy).Contents (Elt F) → (⟨S50000x64, .f32⟩ : BufTy).Contents (Elt F) → (⟨S50000x64, .f32⟩ : BufTy).Contents (Elt F)),
    StableHlo.binary main_v171 main_v173 main_v174 (addf : (⟨S50000x64, .f32⟩ : BufTy).Contents (Elt F) → (⟨S50000x64, .f32⟩ : BufTy).Contents (Elt F) → (⟨S50000x64, .f32⟩ : BufTy).Contents (Elt F)),
    StableHlo.unary main_v169 main_v175 (broadcastInDim S50000x64 ![0, 1] bcast_S50000x1_S50000x64_0_1 : (⟨S50000x1, .f32⟩ : BufTy).Contents (Elt F) → (⟨S50000x64, .f32⟩ : BufTy).Contents (Elt F)),
    StableHlo.binary main_v146 main_v175 main_v176 (mulf : (⟨S50000x64, .f32⟩ : BufTy).Contents (Elt F) → (⟨S50000x64, .f32⟩ : BufTy).Contents (Elt F) → (⟨S50000x64, .f32⟩ : BufTy).Contents (Elt F)),
    StableHlo.binary main_v174 main_v176 main_v177 (addf : (⟨S50000x64, .f32⟩ : BufTy).Contents (Elt F) → (⟨S50000x64, .f32⟩ : BufTy).Contents (Elt F) → (⟨S50000x64, .f32⟩ : BufTy).Contents (Elt F)) ]

structure LayerBufs where
  f0 : TRef sig ⟨S50000x32, .f32⟩
  f1 : TRef sig ⟨S1x800000, .i32⟩
  f2 : TRef sig ⟨S800000, .i32⟩
  f3 : TRef sig ⟨S1x800000, .i32⟩
  f4 : TRef sig ⟨S800000, .i32⟩
  f5 : TRef sig ⟨S_, .f32⟩
  f6 : TRef sig ⟨S50000, .f32⟩
  f7 : TRef sig ⟨S800000x1, .i32⟩
  f8 : TRef sig ⟨S50000, .f32⟩
  f9 : TRef sig ⟨S_, .f32⟩
  f10 : TRef sig ⟨S50000, .f32⟩
  f11 : TRef sig ⟨S50000, .f32⟩
  f12 : TRef sig ⟨S50000, .f32⟩
  f13 : TRef sig ⟨S_, .i32⟩
  f14 : TRef sig ⟨S800000, .i32⟩
  f15 : TRef sig ⟨S800000, .i1⟩
  f16 : TRef sig ⟨S_, .i32⟩
  f17 : TRef sig ⟨S800000, .i32⟩
  f18 : TRef sig ⟨S800000, .i32⟩
  f19 : TRef sig ⟨S800000, .i32⟩
  f20 : TRef sig ⟨S800000x1, .i32⟩
  f21 : TRef sig ⟨S800000, .f32⟩
  f22 : TRef sig ⟨S800000, .f32⟩
  f23 : TRef sig ⟨S_, .i32⟩
  f24 : TRef sig ⟨S800000, .i32⟩
  f25 : TRef sig ⟨S800000, .i1⟩
  f26 : TRef sig ⟨S_, .i32⟩
  f27 : TRef sig ⟨S800000, .i32⟩
  f28 : TRef sig ⟨S800000, .i32⟩
  f29 : TRef sig ⟨S800000, .i32⟩
  f30 : TRef sig ⟨S800000x1, .i32⟩
  f31 : TRef sig ⟨S800000, .f32⟩
  f32 : TRef sig ⟨S800000, .f32⟩
  f33 : TRef sig ⟨S800000x1, .f32⟩
  f34 : TRef sig ⟨S_, .i32⟩
  f35 : TRef sig ⟨S800000, .i32⟩
  f36 : TRef sig ⟨S800000, .i1⟩
  f37 : TRef sig ⟨S_, .i32⟩
  f38 : TRef sig ⟨S800000, .i32⟩
  f39 : TRef sig ⟨S800000, .i32⟩
  f40 : TRef sig ⟨S800000, .i32⟩
  f41 : TRef sig ⟨S800000x1, .i32⟩
  f42 : TRef sig ⟨S800000x32, .f32⟩
  f43 : TRef sig ⟨S800000x32, .f32⟩
  f44 : TRef sig ⟨S800000x32, .f32⟩
  f45 : TRef sig ⟨S_, .f32⟩
  f46 : TRef sig ⟨S50000x32, .f32⟩
  f47 : TRef sig ⟨S800000x1, .i32⟩
  f48 : TRef sig ⟨S50000x32, .f32⟩
  f49 : TRef sig ⟨S50000, .f32⟩
  f50 : TRef sig ⟨S50000x1, .f32⟩
  f51 : TRef sig ⟨S50000x32, .f32⟩
  f52 : TRef sig ⟨S50000x32, .f32⟩
  f53 : TRef sig ⟨S50000x32, .f32⟩
  f54 : TRef sig ⟨S1x32, .f32⟩
  f55 : TRef sig ⟨S50000x32, .f32⟩
  f56 : TRef sig ⟨S50000x32, .f32⟩

abbrev LayerBufs.refs (φ : LayerBufs) : List (Ref sig .tc) :=
  [φ.f0.ref, φ.f1.ref, φ.f2.ref, φ.f3.ref, φ.f4.ref, φ.f5.ref, φ.f6.ref, φ.f7.ref, φ.f8.ref, φ.f9.ref, φ.f10.ref, φ.f11.ref, φ.f12.ref, φ.f13.ref, φ.f14.ref, φ.f15.ref, φ.f16.ref, φ.f17.ref, φ.f18.ref, φ.f19.ref, φ.f20.ref, φ.f21.ref, φ.f22.ref, φ.f23.ref, φ.f24.ref, φ.f25.ref, φ.f26.ref, φ.f27.ref, φ.f28.ref, φ.f29.ref, φ.f30.ref, φ.f31.ref, φ.f32.ref, φ.f33.ref, φ.f34.ref, φ.f35.ref, φ.f36.ref, φ.f37.ref, φ.f38.ref, φ.f39.ref, φ.f40.ref, φ.f41.ref, φ.f42.ref, φ.f43.ref, φ.f44.ref, φ.f45.ref, φ.f46.ref, φ.f47.ref, φ.f48.ref, φ.f49.ref, φ.f50.ref, φ.f51.ref, φ.f52.ref, φ.f53.ref, φ.f54.ref, φ.f55.ref, φ.f56.ref]

def layer2 (a0 : TRef sig ⟨S50000x64, .f32⟩) (a1 : TRef sig ⟨S64x32, .f32⟩) (a2 : TRef sig ⟨S2x800000, .i32⟩) (a3 : TRef sig ⟨S800000, .f32⟩) (a4 : TRef sig ⟨S32, .f32⟩) (φ : LayerBufs) : List (HloOp τ sig (Elt F)) :=
  [ TRef.binary a0 a1 φ.f0 (fun l r => Host.dotGeneral dot_S50000x64_S64x32_S50000x32_1_0_0_1_n_n none l r),
    TRef.unary a2 φ.f1 (extractStridedSlice S1x800000 ![0, 0] · slices_S2x800000_S1x800000_0_0),
    TRef.reshape φ.f1 φ.f2 rfl shapeCasts_S1x800000_S800000,
    TRef.unary a2 φ.f3 (extractStridedSlice S1x800000 ![1, 0] · slices_S2x800000_S1x800000_1_0),
    TRef.reshape φ.f3 φ.f4 rfl shapeCasts_S1x800000_S800000,
    TRef.nullary φ.f5 (constant S_ .f32 0x00000000#32),
    TRef.unary φ.f5 φ.f6 (broadcastInDim S50000 ![] bcast_S_S50000),
    TRef.unary φ.f4 φ.f7 (broadcastInDim S800000x1 ![0] bcast_S800000_S800000x1_0),
    TRef.ternary φ.f6 φ.f7 a3 φ.f8 (fun x i u => Host.scatterAdd scatter_S50000_S800000x1_S800000_n_0_0_1 x i u),
    TRef.nullary φ.f9 (constant S_ .f32 0x3F800000#32),
    TRef.unary φ.f9 φ.f10 (broadcastInDim S50000 ![] bcast_S_S50000),
    TRef.binary φ.f8 φ.f10 φ.f11 addf,
    TRef.unary φ.f11 φ.f12 Host.rsqrt,
    TRef.nullary φ.f13 (constantI S_ 32 0#32),
    TRef.unary φ.f13 φ.f14 (broadcastInDim S800000 ![] bcast_S_S800000),
    TRef.binary φ.f2 φ.f14 φ.f15 (cmpi .slt),
    TRef.nullary φ.f16 (constantI S_ 32 50000#32),
    TRef.unary φ.f16 φ.f17 (broadcastInDim S800000 ![] bcast_S_S800000),
    TRef.binary φ.f2 φ.f17 φ.f18 addi,
    TRef.ternary φ.f15 φ.f18 φ.f2 φ.f19 select,
    TRef.unary φ.f19 φ.f20 (broadcastInDim S800000x1 ![0] bcast_S800000_S800000x1_0),
    TRef.binary φ.f12 φ.f20 φ.f21 (fun x i => Host.gather gather_S50000_S800000x1_S800000_n_0_n_n_0_1_1 x i),
    TRef.binary φ.f21 a3 φ.f22 mulf,
    TRef.nullary φ.f23 (constantI S_ 32 0#32),
    TRef.unary φ.f23 φ.f24 (broadcastInDim S800000 ![] bcast_S_S800000),
    TRef.binary φ.f4 φ.f24 φ.f25 (cmpi .slt),
    TRef.nullary φ.f26 (constantI S_ 32 50000#32),
    TRef.unary φ.f26 φ.f27 (broadcastInDim S800000 ![] bcast_S_S800000),
    TRef.binary φ.f4 φ.f27 φ.f28 addi,
    TRef.ternary φ.f25 φ.f28 φ.f4 φ.f29 select,
    TRef.unary φ.f29 φ.f30 (broadcastInDim S800000x1 ![0] bcast_S800000_S800000x1_0),
    TRef.binary φ.f12 φ.f30 φ.f31 (fun x i => Host.gather gather_S50000_S800000x1_S800000_n_0_n_n_0_1_1 x i),
    TRef.binary φ.f22 φ.f31 φ.f32 mulf,
    TRef.unary φ.f32 φ.f33 (broadcastInDim S800000x1 ![0] bcast_S800000_S800000x1_0),
    TRef.nullary φ.f34 (constantI S_ 32 0#32),
    TRef.unary φ.f34 φ.f35 (broadcastInDim S800000 ![] bcast_S_S800000),
    TRef.binary φ.f2 φ.f35 φ.f36 (cmpi .slt),
    TRef.nullary φ.f37 (constantI S_ 32 50000#32),
    TRef.unary φ.f37 φ.f38 (broadcastInDim S800000 ![] bcast_S_S800000),
    TRef.binary φ.f2 φ.f38 φ.f39 addi,
    TRef.ternary φ.f36 φ.f39 φ.f2 φ.f40 select,
    TRef.unary φ.f40 φ.f41 (broadcastInDim S800000x1 ![0] bcast_S800000_S800000x1_0),
    TRef.binary φ.f0 φ.f41 φ.f42 (fun x i => Host.gather gather_S50000x32_S800000x1_S800000x32_1_0_n_n_0_1_132 x i),
    TRef.unary φ.f33 φ.f43 (broadcastInDim S800000x32 ![0, 1] bcast_S800000x1_S800000x32_0_1),
    TRef.binary φ.f43 φ.f42 φ.f44 mulf,
    TRef.nullary φ.f45 (constant S_ .f32 0x00000000#32),
    TRef.unary φ.f45 φ.f46 (broadcastInDim S50000x32 ![] bcast_S_S50000x32),
    TRef.unary φ.f4 φ.f47 (broadcastInDim S800000x1 ![0] bcast_S800000_S800000x1_0),
    TRef.ternary φ.f46 φ.f47 φ.f44 φ.f48 (fun x i u => Host.scatterAdd scatter_S50000x32_S800000x1_S800000x32_1_0_0_1 x i u),
    TRef.binary φ.f12 φ.f12 φ.f49 mulf,
    TRef.unary φ.f49 φ.f50 (broadcastInDim S50000x1 ![0] bcast_S50000_S50000x1_0),
    TRef.unary φ.f50 φ.f51 (broadcastInDim S50000x32 ![0, 1] bcast_S50000x1_S50000x32_0_1),
    TRef.binary φ.f51 φ.f0 φ.f52 mulf,
    TRef.binary φ.f48 φ.f52 φ.f53 addf,
    TRef.unary a4 φ.f54 (broadcastInDim S1x32 ![1] bcast_S32_S1x32_1),
    TRef.unary φ.f54 φ.f55 (broadcastInDim S50000x32 ![0, 1] bcast_S1x32_S50000x32_0_1),
    TRef.binary φ.f53 φ.f55 φ.f56 addf ]

theorem layer2_writes (a0 : TRef sig ⟨S50000x64, .f32⟩) (a1 : TRef sig ⟨S64x32, .f32⟩) (a2 : TRef sig ⟨S2x800000, .i32⟩) (a3 : TRef sig ⟨S800000, .f32⟩) (a4 : TRef sig ⟨S32, .f32⟩) (φ : LayerBufs) :
    Wr (F := F) (layer2 a0 a1 a2 a3 a4 φ) φ.refs := by
  unfold layer2; exact ⟨wr_at 0 rfl, wr_at 1 rfl, wr_at 2 rfl, wr_at 3 rfl, wr_at 4 rfl, wr_at 5 rfl, wr_at 6 rfl, wr_at 7 rfl, wr_at 8 rfl, wr_at 9 rfl, wr_at 10 rfl, wr_at 11 rfl, wr_at 12 rfl, wr_at 13 rfl, wr_at 14 rfl, wr_at 15 rfl, wr_at 16 rfl, wr_at 17 rfl, wr_at 18 rfl, wr_at 19 rfl, wr_at 20 rfl, wr_at 21 rfl, wr_at 22 rfl, wr_at 23 rfl, wr_at 24 rfl, wr_at 25 rfl, wr_at 26 rfl, wr_at 27 rfl, wr_at 28 rfl, wr_at 29 rfl, wr_at 30 rfl, wr_at 31 rfl, wr_at 32 rfl, wr_at 33 rfl, wr_at 34 rfl, wr_at 35 rfl, wr_at 36 rfl, wr_at 37 rfl, wr_at 38 rfl, wr_at 39 rfl, wr_at 40 rfl, wr_at 41 rfl, wr_at 42 rfl, wr_at 43 rfl, wr_at 44 rfl, wr_at 45 rfl, wr_at 46 rfl, wr_at 47 rfl, wr_at 48 rfl, wr_at 49 rfl, wr_at 50 rfl, wr_at 51 rfl, wr_at 52 rfl, wr_at 53 rfl, wr_at 54 rfl, wr_at 55 rfl, wr_at 56 rfl⟩

theorem layer2_ok (a0 : TRef sig ⟨S50000x64, .f32⟩) (a1 : TRef sig ⟨S64x32, .f32⟩) (a2 : TRef sig ⟨S2x800000, .i32⟩) (a3 : TRef sig ⟨S800000, .f32⟩) (a4 : TRef sig ⟨S32, .f32⟩) (φ : LayerBufs) : (layer2 (F := F) a0 a1 a2 a3 a4 φ).Forall Ok := by
  unfold layer2; exact ⟨⟨binary_bufs_sub .., rfl⟩, ⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨unary_bufs_sub .., rfl⟩, ⟨ternary_bufs_sub .., rfl⟩, ⟨nullary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨binary_bufs_sub .., rfl⟩⟩

def bufL1 : LayerBufs :=
  ⟨.of main_v178, .of main_v179, .of main_v180, .of main_v181, .of main_v182, .of main_cst_28, .of main_v183, .of main_v184, .of main_v185, .of main_cst_29, .of main_v186, .of main_v187, .of main_v188, .of main_c_30, .of main_v189, .of main_v190, .of main_c_31, .of main_v191, .of main_v192, .of main_v193, .of main_v194, .of main_v195, .of main_v196, .of main_c_32, .of main_v197, .of main_v198, .of main_c_33, .of main_v199, .of main_v200, .of main_v201, .of main_v202, .of main_v203, .of main_v204, .of main_v205, .of main_c_34, .of main_v206, .of main_v207, .of main_c_35, .of main_v208, .of main_v209, .of main_v210, .of main_v211, .of main_v212, .of main_v213, .of main_v214, .of main_cst_36, .of main_v215, .of main_v216, .of main_v217, .of main_v218, .of main_v219, .of main_v220, .of main_v221, .of main_v222, .of main_v223, .of main_v224, .of main_v225⟩
abbrev L1 : List (HloOp τ sig (Elt F)) := layer2 (.of main_v177) (.of main_arg17) (.of main_arg3) (.of main_arg6) (.of main_arg20) bufL1

def bufL2 : LayerBufs :=
  ⟨.of main_v226, .of main_v227, .of main_v228, .of main_v229, .of main_v230, .of main_cst_37, .of main_v231, .of main_v232, .of main_v233, .of main_cst_38, .of main_v234, .of main_v235, .of main_v236, .of main_c_39, .of main_v237, .of main_v238, .of main_c_40, .of main_v239, .of main_v240, .of main_v241, .of main_v242, .of main_v243, .of main_v244, .of main_c_41, .of main_v245, .of main_v246, .of main_c_42, .of main_v247, .of main_v248, .of main_v249, .of main_v250, .of main_v251, .of main_v252, .of main_v253, .of main_c_43, .of main_v254, .of main_v255, .of main_c_44, .of main_v256, .of main_v257, .of main_v258, .of main_v259, .of main_v260, .of main_v261, .of main_v262, .of main_cst_45, .of main_v263, .of main_v264, .of main_v265, .of main_v266, .of main_v267, .of main_v268, .of main_v269, .of main_v270, .of main_v271, .of main_v272, .of main_v273⟩
abbrev L2 : List (HloOp τ sig (Elt F)) := layer2 (.of main_v177) (.of main_arg18) (.of main_arg4) (.of main_arg7) (.of main_arg21) bufL2

def bufL3 : LayerBufs :=
  ⟨.of main_v274, .of main_v275, .of main_v276, .of main_v277, .of main_v278, .of main_cst_46, .of main_v279, .of main_v280, .of main_v281, .of main_cst_47, .of main_v282, .of main_v283, .of main_v284, .of main_c_48, .of main_v285, .of main_v286, .of main_c_49, .of main_v287, .of main_v288, .of main_v289, .of main_v290, .of main_v291, .of main_v292, .of main_c_50, .of main_v293, .of main_v294, .of main_c_51, .of main_v295, .of main_v296, .of main_v297, .of main_v298, .of main_v299, .of main_v300, .of main_v301, .of main_c_52, .of main_v302, .of main_v303, .of main_c_53, .of main_v304, .of main_v305, .of main_v306, .of main_v307, .of main_v308, .of main_v309, .of main_v310, .of main_cst_54, .of main_v311, .of main_v312, .of main_v313, .of main_v314, .of main_v315, .of main_v316, .of main_v317, .of main_v318, .of main_v319, .of main_v320, .of main_v321⟩
abbrev L3 : List (HloOp τ sig (Elt F)) := layer2 (.of main_v177) (.of main_arg19) (.of main_arg5) (.of main_arg8) (.of main_arg22) bufL3

abbrev FIN : List (HloOp τ sig (Elt F)) :=
  [ StableHlo.binary main_v225 main_v273 main_v322 (addf : (⟨S50000x32, .f32⟩ : BufTy).Contents (Elt F) → (⟨S50000x32, .f32⟩ : BufTy).Contents (Elt F) → (⟨S50000x32, .f32⟩ : BufTy).Contents (Elt F)),
    StableHlo.binary main_v322 main_v321 main_v323 (addf : (⟨S50000x32, .f32⟩ : BufTy).Contents (Elt F) → (⟨S50000x32, .f32⟩ : BufTy).Contents (Elt F) → (⟨S50000x32, .f32⟩ : BufTy).Contents (Elt F)) ]

abbrev ops : List (HloOp τ sig (Elt F)) := B1 ++ (B2 ++ (B3 ++ (AT ++ (CB ++ (L1 ++ (L2 ++ (L3 ++ (FIN))))))))

theorem main_eq (c : Dev nD) : main (F := F) c = seq ops := by
  chain_rfl

theorem AT_ok : (AT : List (HloOp τ sig (Elt F))).Forall Ok := ⟨⟨binary_bufs_sub .., rfl⟩, ⟨unary_bufs_sub .., rfl⟩, ⟨unary_bufs_sub .., rfl⟩, ⟨binary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨binary_bufs_sub .., rfl⟩⟩
theorem CB_ok : (CB : List (HloOp τ sig (Elt F))).Forall Ok := ⟨⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨binary_bufs_sub .., rfl⟩, ⟨binary_bufs_sub .., rfl⟩⟩
theorem FIN_ok : (FIN : List (HloOp τ sig (Elt F))).Forall Ok := ⟨⟨binary_bufs_sub .., rfl⟩, ⟨binary_bufs_sub .., rfl⟩⟩

theorem ops_ok : (ops : List (HloOp τ sig (Elt F))).Forall Ok :=
  List.forall_append.mpr ⟨branch_ok _ _ _ _ _ bufB1, List.forall_append.mpr ⟨branch_ok _ _ _ _ _ bufB2, List.forall_append.mpr ⟨branch_ok _ _ _ _ _ bufB3, List.forall_append.mpr ⟨AT_ok, List.forall_append.mpr ⟨CB_ok, List.forall_append.mpr ⟨layer2_ok _ _ _ _ _ bufL1, List.forall_append.mpr ⟨layer2_ok _ _ _ _ _ bufL2, List.forall_append.mpr ⟨layer2_ok _ _ _ _ _ bufL3, FIN_ok⟩⟩⟩⟩⟩⟩⟩⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq (by decide) (by decide) defs main (fun _ => ops) main_eq (fun _ => ops_ok.imp fun _ h => h.1) m ρ
    (fun _ op h => (List.forall_iff_forall_mem.mp ops_ok op h).2)

abbrev WAT : List (Ref sig .tc) :=
  [main_v147, main_v148, main_v149, main_v150, main_cst_25, main_call3_cst, main_call3_v0, main_call3_v1, main_call3_v2, main_call3_v3,
   main_call3_v4, main_v151, main_v152, main_v153, main_v154, main_v155, main_v156, main_cst_26, main_call4_cst, main_call4_v0,
   main_call4_v1, main_call4_v2, main_call4_v3, main_call4_v4, main_v157, main_v158, main_v159, main_v160, main_v161, main_v162,
   main_cst_27, main_call5_cst, main_call5_v0, main_call5_v1, main_call5_v2, main_call5_v3, main_call5_v4, main_v163, main_v164, main_v165,
   main_v166, main_v167, main_v168, main_v169]
theorem AT_writes : Wr (F := F) AT WAT := ⟨wr_at 0 rfl, wr_at 1 rfl, wr_at 2 rfl, wr_at 3 rfl, wr_at 4 rfl, wr_at 5 rfl, wr_at 6 rfl, wr_at 7 rfl, wr_at 8 rfl, wr_at 9 rfl, wr_at 10 rfl, wr_at 11 rfl, wr_at 12 rfl, wr_at 13 rfl, wr_at 14 rfl, wr_at 15 rfl, wr_at 16 rfl, wr_at 17 rfl, wr_at 18 rfl, wr_at 19 rfl, wr_at 20 rfl, wr_at 21 rfl, wr_at 22 rfl, wr_at 23 rfl, wr_at 24 rfl, wr_at 25 rfl, wr_at 26 rfl, wr_at 27 rfl, wr_at 28 rfl, wr_at 29 rfl, wr_at 30 rfl, wr_at 31 rfl, wr_at 32 rfl, wr_at 33 rfl, wr_at 34 rfl, wr_at 35 rfl, wr_at 36 rfl, wr_at 37 rfl, wr_at 38 rfl, wr_at 39 rfl, wr_at 40 rfl, wr_at 41 rfl, wr_at 42 rfl, wr_at 43 rfl⟩

abbrev WCB : List (Ref sig .tc) :=
  [main_v170, main_v171, main_v172, main_v173, main_v174, main_v175, main_v176, main_v177]
theorem CB_writes : Wr (F := F) CB WCB := ⟨wr_at 0 rfl, wr_at 1 rfl, wr_at 2 rfl, wr_at 3 rfl, wr_at 4 rfl, wr_at 5 rfl, wr_at 6 rfl, wr_at 7 rfl⟩

abbrev WFIN : List (Ref sig .tc) :=
  [main_v322, main_v323]
theorem FIN_writes : Wr (F := F) FIN WFIN := ⟨wr_at 0 rfl, wr_at 1 rfl⟩

/-- A stage leaves every reference it does not write as it found it. -/
theorem keeps {S : List (HloOp τ sig (Elt F))} {Wl : List (Ref sig .tc)} (hS : Wr S Wl) {r : Ref sig .tc} (h : r ∉ Wl)
    (W : Valuation τ sig (Elt F)) : after S W (no_index (Proc.devRef .tc r)) = W (Proc.devRef .tc r) :=
  after_of_writes_sub S W hS h

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem arg_kept (V : Valuation τ sig (Elt F)) {r : Ref sig .tc} (hr : r ∈ argRefs) :
    after ops V (Proc.devRef .tc r) = V (Proc.devRef .tc r) := by
  have h : ∀ r ∈ argRefs, r ∉ bufB1.refs ∧ r ∉ bufB2.refs ∧ r ∉ bufB3.refs ∧ r ∉ WAT ∧ r ∉ WCB ∧ r ∉ bufL1.refs ∧ r ∉ bufL2.refs ∧ r ∉ bufL3.refs ∧ r ∉ WFIN := by decide
  obtain ⟨h0, h1, h2, h3, h4, h5, h6, h7, h8⟩ := h r hr
  simp only [after_append, keeps (branch_writes _ _ _ _ _ bufB1) h0, keeps (branch_writes _ _ _ _ _ bufB2) h1, keeps (branch_writes _ _ _ _ _ bufB3) h2, keeps AT_writes h3, keeps CB_writes h4, keeps (layer2_writes _ _ _ _ _ bufL1) h5, keeps (layer2_writes _ _ _ _ _ bufL2) h6, keeps (layer2_writes _ _ _ _ _ bufL3) h7, keeps FIN_writes h8]

end Cert.ReferenceIdeal.Hand

end
-- ==== Proof.Ref.Value.lean ====
import proofs.«145333_j32066225832361_2_alg».proof.Proof.Ref.Run
import proofs.«145333_j32066225832361_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem B1_v48 (W : Valuation τ sig (Elt F)) :
    after B1 W (no_index (Proc.devRef .tc main_v48)) = Cert.Spec.emb (W (Proc.devRef .tc main_arg0)) (W (Proc.devRef .tc main_arg3)) (W (Proc.devRef .tc main_arg6)) (W (Proc.devRef .tc main_arg9)) (W (Proc.devRef .tc main_arg12)) := by
  simp only [branch, bufB1]
  after_results_simp
  rfl

theorem B2_v97 (W : Valuation τ sig (Elt F)) :
    after B2 W (no_index (Proc.devRef .tc main_v97)) = Cert.Spec.emb (W (Proc.devRef .tc main_arg1)) (W (Proc.devRef .tc main_arg4)) (W (Proc.devRef .tc main_arg7)) (W (Proc.devRef .tc main_arg10)) (W (Proc.devRef .tc main_arg13)) := by
  simp only [branch, bufB2]
  after_results_simp
  rfl

theorem B3_v146 (W : Valuation τ sig (Elt F)) :
    after B3 W (no_index (Proc.devRef .tc main_v146)) = Cert.Spec.emb (W (Proc.devRef .tc main_arg2)) (W (Proc.devRef .tc main_arg5)) (W (Proc.devRef .tc main_arg8)) (W (Proc.devRef .tc main_arg11)) (W (Proc.devRef .tc main_arg14)) := by
  simp only [branch, bufB3]
  after_results_simp
  rfl

theorem AT_v167 (W : Valuation τ sig (Elt F)) :
    after AT W (no_index (Proc.devRef .tc main_v167)) = Cert.Spec.coef (Cert.Spec.score (Cert.Spec.logit (W (Proc.devRef .tc main_v48)) (W (Proc.devRef .tc main_arg15)) (W (Proc.devRef .tc main_arg16)))) (Cert.Spec.total (Cert.Spec.score (Cert.Spec.logit (W (Proc.devRef .tc main_v48)) (W (Proc.devRef .tc main_arg15)) (W (Proc.devRef .tc main_arg16)))) (Cert.Spec.score (Cert.Spec.logit (W (Proc.devRef .tc main_v97)) (W (Proc.devRef .tc main_arg15)) (W (Proc.devRef .tc main_arg16)))) (Cert.Spec.score (Cert.Spec.logit (W (Proc.devRef .tc main_v146)) (W (Proc.devRef .tc main_arg15)) (W (Proc.devRef .tc main_arg16))))) := by
  after_results_simp
  rfl

theorem AT_v168 (W : Valuation τ sig (Elt F)) :
    after AT W (no_index (Proc.devRef .tc main_v168)) = Cert.Spec.coef (Cert.Spec.score (Cert.Spec.logit (W (Proc.devRef .tc main_v97)) (W (Proc.devRef .tc main_arg15)) (W (Proc.devRef .tc main_arg16)))) (Cert.Spec.total (Cert.Spec.score (Cert.Spec.logit (W (Proc.devRef .tc main_v48)) (W (Proc.devRef .tc main_arg15)) (W (Proc.devRef .tc main_arg16)))) (Cert.Spec.score (Cert.Spec.logit (W (Proc.devRef .tc main_v97)) (W (Proc.devRef .tc main_arg15)) (W (Proc.devRef .tc main_arg16)))) (Cert.Spec.score (Cert.Spec.logit (W (Proc.devRef .tc main_v146)) (W (Proc.devRef .tc main_arg15)) (W (Proc.devRef .tc main_arg16))))) := by
  after_results_simp
  rfl

theorem AT_v169 (W : Valuation τ sig (Elt F)) :
    after AT W (no_index (Proc.devRef .tc main_v169)) = Cert.Spec.coef (Cert.Spec.score (Cert.Spec.logit (W (Proc.devRef .tc main_v146)) (W (Proc.devRef .tc main_arg15)) (W (Proc.devRef .tc main_arg16)))) (Cert.Spec.total (Cert.Spec.score (Cert.Spec.logit (W (Proc.devRef .tc main_v48)) (W (Proc.devRef .tc main_arg15)) (W (Proc.devRef .tc main_arg16)))) (Cert.Spec.score (Cert.Spec.logit (W (Proc.devRef .tc main_v97)) (W (Proc.devRef .tc main_arg15)) (W (Proc.devRef .tc main_arg16)))) (Cert.Spec.score (Cert.Spec.logit (W (Proc.devRef .tc main_v146)) (W (Proc.devRef .tc main_arg15)) (W (Proc.devRef .tc main_arg16))))) := by
  after_results_simp
  rfl

theorem CB_v177 (W : Valuation τ sig (Elt F)) :
    after CB W (no_index (Proc.devRef .tc main_v177)) = Cert.Spec.combine (W (Proc.devRef .tc main_v48)) (W (Proc.devRef .tc main_v97)) (W (Proc.devRef .tc main_v146)) (W (Proc.devRef .tc main_v167)) (W (Proc.devRef .tc main_v168)) (W (Proc.devRef .tc main_v169)) := by
  after_results_simp
  rfl

theorem L1_v225 (W : Valuation τ sig (Elt F)) :
    after L1 W (no_index (Proc.devRef .tc main_v225)) = Cert.Spec.out2 (W (Proc.devRef .tc main_v177)) (W (Proc.devRef .tc main_arg3)) (W (Proc.devRef .tc main_arg6)) (W (Proc.devRef .tc main_arg17)) (W (Proc.devRef .tc main_arg20)) := by
  simp only [layer2, bufL1]
  after_results_simp
  rfl

theorem L2_v273 (W : Valuation τ sig (Elt F)) :
    after L2 W (no_index (Proc.devRef .tc main_v273)) = Cert.Spec.out2 (W (Proc.devRef .tc main_v177)) (W (Proc.devRef .tc main_arg4)) (W (Proc.devRef .tc main_arg7)) (W (Proc.devRef .tc main_arg18)) (W (Proc.devRef .tc main_arg21)) := by
  simp only [layer2, bufL2]
  after_results_simp
  rfl

theorem L3_v321 (W : Valuation τ sig (Elt F)) :
    after L3 W (no_index (Proc.devRef .tc main_v321)) = Cert.Spec.out2 (W (Proc.devRef .tc main_v177)) (W (Proc.devRef .tc main_arg5)) (W (Proc.devRef .tc main_arg8)) (W (Proc.devRef .tc main_arg19)) (W (Proc.devRef .tc main_arg22)) := by
  simp only [layer2, bufL3]
  after_results_simp
  rfl

theorem FIN_v323 (W : Valuation τ sig (Elt F)) :
    after FIN W (no_index (Proc.devRef .tc main_v323)) = addf (addf (W (Proc.devRef .tc main_v225)) (W (Proc.devRef .tc main_v273))) (W (Proc.devRef .tc main_v321)) := by
  after_results_simp

/-- Each result is the specification's function of the arguments: each stage's value over what the earlier stages left. -/
theorem val_out (V : Valuation τ sig (Elt F)) :
    after ops V (Proc.devRef .tc main_v323) = Cert.Spec.OUT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  simp only [ops, after_append]
  simp (disch := decide) only [FIN_v323, L3_v321, L2_v273, L1_v225, CB_v177, AT_v167, AT_v168, AT_v169, B3_v146, B2_v97, B1_v48,
    keeps (branch_writes _ _ _ _ _ bufB1), keeps (branch_writes _ _ _ _ _ bufB2), keeps (branch_writes _ _ _ _ _ bufB3), keeps AT_writes, keeps CB_writes, keeps (layer2_writes _ _ _ _ _ bufL1), keeps (layer2_writes _ _ _ _ _ bufL2), keeps (layer2_writes _ _ _ _ _ bufL3), keeps FIN_writes]
  rfl

theorem val_k1 (V : Valuation τ sig (Elt F)) :
    after ops V (Proc.devRef .tc main_v167) = Cert.Spec.K1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [ops, after_append]
  simp (disch := decide) only [FIN_v323, L3_v321, L2_v273, L1_v225, CB_v177, AT_v167, AT_v168, AT_v169, B3_v146, B2_v97, B1_v48,
    keeps (branch_writes _ _ _ _ _ bufB1), keeps (branch_writes _ _ _ _ _ bufB2), keeps (branch_writes _ _ _ _ _ bufB3), keeps AT_writes, keeps CB_writes, keeps (layer2_writes _ _ _ _ _ bufL1), keeps (layer2_writes _ _ _ _ _ bufL2), keeps (layer2_writes _ _ _ _ _ bufL3), keeps FIN_writes]
  rfl

theorem val_k2 (V : Valuation τ sig (Elt F)) :
    after ops V (Proc.devRef .tc main_v168) = Cert.Spec.K2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [ops, after_append]
  simp (disch := decide) only [FIN_v323, L3_v321, L2_v273, L1_v225, CB_v177, AT_v167, AT_v168, AT_v169, B3_v146, B2_v97, B1_v48,
    keeps (branch_writes _ _ _ _ _ bufB1), keeps (branch_writes _ _ _ _ _ bufB2), keeps (branch_writes _ _ _ _ _ bufB3), keeps AT_writes, keeps CB_writes, keeps (layer2_writes _ _ _ _ _ bufL1), keeps (layer2_writes _ _ _ _ _ bufL2), keeps (layer2_writes _ _ _ _ _ bufL3), keeps FIN_writes]
  rfl

theorem val_k3 (V : Valuation τ sig (Elt F)) :
    after ops V (Proc.devRef .tc main_v169) = Cert.Spec.K3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [ops, after_append]
  simp (disch := decide) only [FIN_v323, L3_v321, L2_v273, L1_v225, CB_v177, AT_v167, AT_v168, AT_v169, B3_v146, B2_v97, B1_v48,
    keeps (branch_writes _ _ _ _ _ bufB1), keeps (branch_writes _ _ _ _ _ bufB2), keeps (branch_writes _ _ _ _ _ bufB3), keeps AT_writes, keeps CB_writes, keeps (layer2_writes _ _ _ _ _ bufL1), keeps (layer2_writes _ _ _ _ _ bufL2), keeps (layer2_writes _ _ _ _ _ bufL3), keeps FIN_writes]
  rfl

end Cert.ReferenceIdeal.Hand

end
-- ==== Proof.PreFacts.lean ====
import proofs.«145333_j32066225832361_2_alg».proof.Pre_finite_inputs
import proofs.«145333_j32066225832361_2_alg».proof.Proof.Gen.Pre_finite_inputs
import proofs.«145333_j32066225832361_2_alg».proof.Proof.Gen.ReferenceIdeal
import proofs.«145333_j32066225832361_2_alg».proof.Proof.Spec
import Idealize.ShloMosaic.Lib.ReduceAll
import Idealize.ShloMosaic.Lib.StableHlo.Predicate
import Idealize.ShloMosaic.Lib.ValueIdx
import Idealize.ShloMosaic.Lib.IdealHost
import Idealize.ShloMosaic.PureOps.Ideal.Laws

noncomputable section

namespace Cert.Hand.Pre

open Idealize.ShloMosaic Cert.ReferenceIdeal Cert.Spec

instance : Subsingleton S_.Idx := ⟨fun a b => funext fun d => d.elim0⟩

variable [Cert.ReferenceIdeal.Facts₀] [Cert.Pre_finite_inputs.Facts]

theorem fin_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) (i : s.Idx) : x i ≠ ⊤ ∧ x i ≠ ⊥ := by
  have h1 := Host.reduce_andi_all _ _ hr hu j e i
  have htop : Ideal.ofBits .f32 0x7F800000#32 = ⊤ := by simp [Ideal.ofBits, Ideal.ieee]
  change Ideal.cmp .olt (max (x i) (-(x i))) (Ideal.ofBits .f32 0x7F800000#32) = 1#1 at h1
  rw [htop] at h1
  unfold Ideal.cmp at h1
  have h2 : max (x i) (-(x i)) < ⊤ := by
    by_contra hn
    simp [hn] at h1
  rw [max_lt_iff] at h2
  refine ⟨ne_of_lt h2.1, fun hb' => ?_⟩
  rw [hb'] at h2
  simp at h2

theorem pos_of_all {s : Shape} {axes : List (Fin s.rank)} (v : FVec Ideal s .f32)
    (hb : S_.BroadcastsInDim s (![] : Fin 0 → Fin s.rank)) (hr : s.ReducesTo axes S_) (hu : 0 < S_.numel) (j : S_.Idx)
    (e : Host.reduce IntOp.andi (cmpf .ogt v (broadcastInDim s ![] hb (constant S_ .f32 0x00000000#32)))
          (constantI S_ 1 1#1) hr hu j = 1#1) (i : s.Idx) : 0 < v i := by
  have h1 := Host.reduce_andi_all _ _ hr hu j e i
  change Ideal.cmp .ogt (v i) (Ideal.ofBits .f32 0x00000000#32) = 1#1 at h1
  rw [Ideal.ofBits_zero_f32] at h1
  unfold Ideal.cmp at h1
  by_contra hn
  simp [hn] at h1

structure FinInputs (x1 x2 x3 : FA (F := Ideal) S50000x256)
    (ew1 ew2 ew3 : FA (F := Ideal) S800000) (W1 W2 W3 : FA (F := Ideal) S256x64) (b1 b2 b3 : FA (F := Ideal) S64)
    (fcw : FA (F := Ideal) S64x1) (fcb : FA (F := Ideal) S1) (W11 W22 W33 : FA (F := Ideal) S64x32)
    (b11 b22 b33 : FA (F := Ideal) S32) : Prop where
  hx1 : ∀ i, x1 i ≠ ⊤ ∧ x1 i ≠ ⊥
  hx2 : ∀ i, x2 i ≠ ⊤ ∧ x2 i ≠ ⊥
  hx3 : ∀ i, x3 i ≠ ⊤ ∧ x3 i ≠ ⊥
  hew1 : ∀ i, ew1 i ≠ ⊤ ∧ ew1 i ≠ ⊥
  hew2 : ∀ i, ew2 i ≠ ⊤ ∧ ew2 i ≠ ⊥
  hew3 : ∀ i, ew3 i ≠ ⊤ ∧ ew3 i ≠ ⊥
  hW1 : ∀ i, W1 i ≠ ⊤ ∧ W1 i ≠ ⊥
  hW2 : ∀ i, W2 i ≠ ⊤ ∧ W2 i ≠ ⊥
  hW3 : ∀ i, W3 i ≠ ⊤ ∧ W3 i ≠ ⊥
  hb1 : ∀ i, b1 i ≠ ⊤ ∧ b1 i ≠ ⊥
  hb2 : ∀ i, b2 i ≠ ⊤ ∧ b2 i ≠ ⊥
  hb3 : ∀ i, b3 i ≠ ⊤ ∧ b3 i ≠ ⊥
  hfcw : ∀ i, fcw i ≠ ⊤ ∧ fcw i ≠ ⊥
  hfcb : ∀ i, fcb i ≠ ⊤ ∧ fcb i ≠ ⊥
  hW11 : ∀ i, W11 i ≠ ⊤ ∧ W11 i ≠ ⊥
  hW22 : ∀ i, W22 i ≠ ⊤ ∧ W22 i ≠ ⊥
  hW33 : ∀ i, W33 i ≠ ⊤ ∧ W33 i ≠ ⊥
  hb11 : ∀ i, b11 i ≠ ⊤ ∧ b11 i ≠ ⊥
  hb22 : ∀ i, b22 i ≠ ⊤ ∧ b22 i ≠ ⊥
  hb33 : ∀ i, b33 i ≠ ⊤ ∧ b33 i ≠ ⊥

variable (x1 x2 x3 : FA (F := Ideal) S50000x256) (ei1 ei2 ei3 : IA (F := Ideal) S2x800000)
    (ew1 ew2 ew3 : FA (F := Ideal) S800000) (W1 W2 W3 : FA (F := Ideal) S256x64) (b1 b2 b3 : FA (F := Ideal) S64)
    (fcw : FA (F := Ideal) S64x1) (fcb : FA (F := Ideal) S1) (W11 W22 W33 : FA (F := Ideal) S64x32)
    (b11 b22 b33 : FA (F := Ideal) S32)
    (h : Cert.Pre_finite_inputs.fn (F := Ideal) x1 x2 x3 ei1 ei2 ei3 ew1 ew2 ew3 W1 W2 W3 b1 b2 b3 fcw fcb W11 W22 W33 b11 b22 b33
      = fun _ => 1#1)
include h

theorem fin_and_deg_of_pre :
    FinInputs x1 x2 x3 ew1 ew2 ew3 W1 W2 W3 b1 b2 b3 fcw fcb W11 W22 W33 b11 b22 b33
      ∧ (∀ i, 0 < Spec.deg ei1 ew1 i) ∧ (∀ i, 0 < Spec.deg ei2 ew2 i) ∧ (∀ i, 0 < Spec.deg ei3 ew3 i) := by
  have e := congrFun h ValueIdx.ix0
  simp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7] at e
  simp only [andi, IntOp.andi_eq_one] at e
  obtain ⟨⟨⟨⟨⟨⟨⟨⟨⟨⟨⟨⟨⟨⟨⟨⟨⟨⟨⟨⟨⟨⟨c_x1, c_x2⟩, c_x3⟩, c_ew1⟩, c_ew2⟩, c_ew3⟩, c_W1⟩, c_W2⟩, c_W3⟩, c_b1⟩, c_b2⟩, c_b3⟩, c_fcw⟩, c_fcb⟩, c_W11⟩, c_W22⟩, c_W33⟩, c_b11⟩, c_b22⟩, c_b33⟩, d1⟩, d2⟩, d3⟩ := e
  refine ⟨⟨fin_of_all _ _ _ _ _ c_x1, fin_of_all _ _ _ _ _ c_x2, fin_of_all _ _ _ _ _ c_x3, fin_of_all _ _ _ _ _ c_ew1, fin_of_all _ _ _ _ _ c_ew2, fin_of_all _ _ _ _ _ c_ew3, fin_of_all _ _ _ _ _ c_W1, fin_of_all _ _ _ _ _ c_W2, fin_of_all _ _ _ _ _ c_W3, fin_of_all _ _ _ _ _ c_b1, fin_of_all _ _ _ _ _ c_b2, fin_of_all _ _ _ _ _ c_b3, fin_of_all _ _ _ _ _ c_fcw, fin_of_all _ _ _ _ _ c_fcb, fin_of_all _ _ _ _ _ c_W11, fin_of_all _ _ _ _ _ c_W22, fin_of_all _ _ _ _ _ c_W33, fin_of_all _ _ _ _ _ c_b11, fin_of_all _ _ _ _ _ c_b22, fin_of_all _ _ _ _ _ c_b33⟩, ?_, ?_, ?_⟩
  · exact fun i => pos_of_all _ _ _ _ _ d1 i
  · exact fun i => pos_of_all _ _ _ _ _ d2 i
  · exact fun i => pos_of_all _ _ _ _ _ d3 i

theorem fin_of_pre :
    FinInputs x1 x2 x3 ew1 ew2 ew3 W1 W2 W3 b1 b2 b3 fcw fcb W11 W22 W33 b11 b22 b33 :=
  (fin_and_deg_of_pre x1 x2 x3 ei1 ei2 ei3 ew1 ew2 ew3 W1 W2 W3 b1 b2 b3 fcw fcb W11 W22 W33 b11 b22 b33 h).1

theorem deg_pos_of_pre :
    (∀ i, 0 < Spec.deg ei1 ew1 i) ∧ (∀ i, 0 < Spec.deg ei2 ew2 i) ∧ (∀ i, 0 < Spec.deg ei3 ew3 i) :=
  (fin_and_deg_of_pre x1 x2 x3 ei1 ei2 ei3 ew1 ew2 ew3 W1 W2 W3 b1 b2 b3 fcw fcb W11 W22 W33 b11 b22 b33 h).2

end Cert.Hand.Pre

end
-- ==== Proof.Finite.lean ====
import proofs.«145333_j32066225832361_2_alg».proof.Proof.Gen.ReferenceIdeal
import proofs.«145333_j32066225832361_2_alg».proof.Proof.Spec
import Idealize.ShloMosaic.Lib.ValueIdx
import Idealize.ShloMosaic.Lib.IdealHost
import Idealize.ShloMosaic.PureOps.Ideal.Laws

noncomputable section

namespace Cert.Hand.Fin

open Idealize.ShloMosaic Cert.ReferenceIdeal Cert.Spec
open scoped BigOperators

def IsFin (x : EReal) : Prop := ∃ r : ℝ, x = (r : EReal)

theorem isFin_of_ne {x : EReal} (h : x ≠ ⊤ ∧ x ≠ ⊥) : IsFin x := ⟨x.toReal, (EReal.coe_toReal h.1 h.2).symm⟩

theorem isFin_zero : IsFin 0 := ⟨0, by norm_cast⟩

theorem isFin_one : IsFin 1 := ⟨1, by norm_cast⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.max {x y : EReal} (hx : IsFin x) (hy : IsFin y) : IsFin (max x y) := by
  rcases max_choice x y with h | h <;> rw [h] <;> assumption

theorem isFin_sum {ι : Type} (s : Finset ι) (f : ι → EReal) (h : ∀ k ∈ s, IsFin (f k)) : IsFin (∑ k ∈ s, f k) :=
  Finset.sum_induction f IsFin (fun _ _ ha hb => ha.add hb) isFin_zero h

theorem rsqrt_pos_real {x : EReal} (hx : IsFin x) (hpos : 0 < x) : ∃ r : ℝ, 0 < r ∧ Ideal.rsqrt x = (r : EReal) := by
  obtain ⟨a, rfl⟩ := hx
  have ha : 0 < a := EReal.coe_pos.mp hpos
  refine ⟨(Real.sqrt a)⁻¹, inv_pos.mpr (Real.sqrt_pos.mpr ha), ?_⟩
  show (if a < 0 then (⊥ : EReal) else if a = 0 then ⊤ else (((Real.sqrt a)⁻¹ : ℝ) : EReal)) = _
  rw [if_neg (not_lt.mpr ha.le), if_neg ha.ne']

theorem exp_pos_real {x : EReal} (hx : IsFin x) : ∃ r : ℝ, 0 < r ∧ Ideal.exp x = (r : EReal) := by
  obtain ⟨a, rfl⟩ := hx
  exact ⟨Real.exp a, Real.exp_pos a, rfl⟩

def AllFin {s : Shape} (v : s.Idx → EReal) : Prop := ∀ i, IsFin (v i)

variable {s t : Shape}

theorem AllFin.addf {x y : FVec Ideal s .f32} (hx : AllFin x) (hy : AllFin y) : AllFin (addf x y) :=
  fun i => (hx i).add (hy i)

theorem AllFin.mulf {x y : FVec Ideal s .f32} (hx : AllFin x) (hy : AllFin y) : AllFin (mulf x y) :=
  fun i => (hx i).mul (hy i)

theorem AllFin.maximumf {x y : FVec Ideal s .f32} (hx : AllFin x) (hy : AllFin y) : AllFin (maximumf x y) :=
  fun i => (hx i).max (hy i)

theorem AllFin.broadcastInDim {x : s.Idx → EReal} (hx : AllFin x) (dims : Fin s.rank → Fin t.rank)
    (h : s.BroadcastsInDim t dims) : AllFin (broadcastInDim t dims h x) :=
  fun _ => hx _

theorem AllFin.gather {si : Shape} {w : Nat} {x : s.Idx → EReal} (hx : AllFin x) (d : GatherDims s si t) (idx : IVec si w) :
    AllFin (Host.gather d x idx) :=
  fun _ => hx _

theorem allFin_zero : AllFin (constant (F := Ideal) s .f32 0x00000000#32) :=
  fun _ => by show IsFin (Ideal.ofBits .f32 0x00000000#32); rw [Ideal.ofBits_zero_f32]; exact isFin_zero

theorem allFin_one : AllFin (constant (F := Ideal) s .f32 0x3F800000#32) :=
  fun _ => by show IsFin (Ideal.ofBits .f32 0x3F800000#32); rw [Ideal.ofBits_one_f32]; exact isFin_one

theorem AllFin.scatterAdd {si u : Shape} {w : Nat} {x : FVec Ideal s .f32} {upd : FVec Ideal u .f32} (hx : AllFin x)
    (hu : AllFin upd) (d : ScatterDims s si u) (idx : IVec si w) : AllFin (Host.scatterAdd d x idx upd) :=
  fun i => (hx i).add (isFin_sum _ _ fun j _ => hu j)

theorem AllFin.dotGeneral {sl sr so : Shape} {x : FVec Ideal sl .f32} {y : FVec Ideal sr .f32} (hx : AllFin x) (hy : AllFin y)
    (d : DotDims sl sr so) : AllFin (Host.dotGeneral d none x y) := fun j => by
  show IsFin (FloatOps.dotGeneral d none .single x y j)
  rw [Ideal.dotGeneral_apply]
  exact isFin_sum _ _ fun k _ => (hx _).mul (hy _)

theorem IsFin.select {c : BitVec 1} {a b : EReal} (ha : IsFin a) (hb : IsFin b) : IsFin (Scalar.select c a b) := by
  unfold Scalar.select; split <;> assumption

theorem isFin_ieee (e m : Nat) {w : Nat} (b : BitVec w) (h : (b.extractLsb' m e).toNat ≠ 2 ^ e - 1) :
    IsFin (Ideal.ieee e m b) := by
  unfold Ideal.ieee
  simp only [if_neg h]
  split <;> exact ⟨_, rfl⟩

theorem isFin_slope : IsFin (Ideal.ofBits .f32 0x3C23D70A#32) := by
  show IsFin (Ideal.ieee 8 23 (0x3C23D70A#32 : BitVec 32))
  exact isFin_ieee 8 23 _ (by decide)

theorem rsqrt_apply_pos_real {d : FVec Ideal s .f32} (i : s.Idx) (hd : IsFin (d i)) (hpos : 0 < d i) :
    ∃ r : ℝ, 0 < r ∧ Host.rsqrt d i = (r : EReal) :=
  rsqrt_pos_real hd hpos

theorem exp_apply_pos_real {v : FVec Ideal s .f32} (i : s.Idx) (hv : IsFin (v i)) :
    ∃ r : ℝ, 0 < r ∧ Host.exp v i = (r : EReal) :=
  exp_pos_real hv

theorem AllFin.select {c : IVec s 1} {a b : s.Idx → EReal} (ha : AllFin a) (hb : AllFin b) : AllFin (select c a b) :=
  fun i => IsFin.select (ha i) (hb i)

variable [Cert.ReferenceIdeal.Facts₀]

theorem allFin_mm1 {x : FA (F := Ideal) S50000x256} {W : FA (F := Ideal) S256x64} (hx : AllFin x) (hW : AllFin W) :
    AllFin (Spec.mm1 x W) := by
  unfold Spec.mm1; exact hx.dotGeneral hW _

theorem allFin_deg (ei : IA (F := Ideal) S2x800000) {ew : FA (F := Ideal) S800000} (hw : AllFin ew) :
    AllFin (Spec.deg ei ew) := by
  unfold Spec.deg
  exact ((allFin_zero.broadcastInDim _ _).scatterAdd hw _ _).addf (allFin_one.broadcastInDim _ _)

theorem dinv_pos_real (ei : IA (F := Ideal) S2x800000) {ew : FA (F := Ideal) S800000} (hw : AllFin ew)
    (hpos : ∀ i, 0 < Spec.deg ei ew i) (i : S50000.Idx) : ∃ r : ℝ, 0 < r ∧ Spec.dinv ei ew i = (r : EReal) := by
  unfold Spec.dinv
  exact rsqrt_apply_pos_real i (allFin_deg ei hw i) (hpos i)

theorem allFin_dinv (ei : IA (F := Ideal) S2x800000) {ew : FA (F := Ideal) S800000} (hw : AllFin ew)
    (hpos : ∀ i, 0 < Spec.deg ei ew i) : AllFin (Spec.dinv ei ew) := fun i => by
  obtain ⟨r, -, h⟩ := dinv_pos_real ei hw hpos i
  exact ⟨r, h⟩

theorem allFin_norm (ei : IA (F := Ideal) S2x800000) {ew : FA (F := Ideal) S800000} (hw : AllFin ew)
    (hpos : ∀ i, 0 < Spec.deg ei ew i) : AllFin (Spec.norm ei ew) := by
  have hd := allFin_dinv ei hw hpos
  unfold Spec.norm
  exact ((hd.gather _ _).mulf hw).mulf (hd.gather _ _)

theorem allFin_agg64 (ei : IA (F := Ideal) S2x800000) {nrm : FA (F := Ideal) S800000} {h : FA (F := Ideal) S50000x64}
    (hn : AllFin nrm) (hh : AllFin h) : AllFin (Spec.agg64 ei nrm h) := by
  unfold Spec.agg64
  exact (allFin_zero.broadcastInDim _ _).scatterAdd
    (((hn.broadcastInDim _ _).broadcastInDim _ _).mulf (hh.gather _ _)) _ _

theorem allFin_fin64 {a : FA (F := Ideal) S50000x64} {dv : FA (F := Ideal) S50000} {h : FA (F := Ideal) S50000x64}
    {b : FA (F := Ideal) S64} (ha : AllFin a) (hdv : AllFin dv) (hh : AllFin h) (hb : AllFin b) :
    AllFin (Spec.fin64 a dv h b) := by
  unfold Spec.fin64
  exact (ha.addf ((((hdv.mulf hdv).broadcastInDim _ _).broadcastInDim _ _).mulf hh)).addf
    ((hb.broadcastInDim _ _).broadcastInDim _ _)

theorem allFin_relu64 {v : FA (F := Ideal) S50000x64} (hv : AllFin v) : AllFin (Spec.relu64 v) := by
  unfold Spec.relu64
  exact hv.maximumf (allFin_zero.broadcastInDim _ _)

theorem allFin_emb {x : FA (F := Ideal) S50000x256} (ei : IA (F := Ideal) S2x800000) {ew : FA (F := Ideal) S800000}
    {W : FA (F := Ideal) S256x64} {b : FA (F := Ideal) S64} (hx : AllFin x) (hw : AllFin ew) (hW : AllFin W) (hb : AllFin b)
    (hpos : ∀ i, 0 < Spec.deg ei ew i) : AllFin (Spec.emb x ei ew W b) := by
  unfold Spec.emb
  exact allFin_relu64 (allFin_fin64 (allFin_agg64 ei (allFin_norm ei hw hpos) (allFin_mm1 hx hW)) (allFin_dinv ei hw hpos)
    (allFin_mm1 hx hW) hb)

theorem allFin_logit {e : FA (F := Ideal) S50000x64} {fcw : FA (F := Ideal) S64x1} {fcb : FA (F := Ideal) S1}
    (he : AllFin e) (hfw : AllFin fcw) (hfb : AllFin fcb) : AllFin (Spec.logit e fcw fcb) := by
  unfold Spec.logit
  exact (he.dotGeneral hfw _).addf ((hfb.broadcastInDim _ _).broadcastInDim _ _)

theorem score_pos_real {s : FA (F := Ideal) S50000x1} (hs : AllFin s) (i : S50000x1.Idx) :
    ∃ r : ℝ, 0 < r ∧ Spec.score s i = (r : EReal) := by
  unfold Spec.score
  exact exp_apply_pos_real i (AllFin.select hs (AllFin.mulf (AllFin.broadcastInDim (fun _ => isFin_slope) _ _) hs) i)

theorem total_pos_real {c1 c2 c3 : FA (F := Ideal) S50000x1} (i : S50000x1.Idx)
    (h1 : ∃ r : ℝ, 0 < r ∧ c1 i = (r : EReal)) (h2 : ∃ r : ℝ, 0 < r ∧ c2 i = (r : EReal))
    (h3 : ∃ r : ℝ, 0 < r ∧ c3 i = (r : EReal)) : ∃ r : ℝ, 0 < r ∧ Spec.total c1 c2 c3 i = (r : EReal) := by
  obtain ⟨a, ha, e1⟩ := h1
  obtain ⟨b, hb, e2⟩ := h2
  obtain ⟨c, hc, e3⟩ := h3
  refine ⟨a + b + c, by positivity, ?_⟩
  show c1 i + c2 i + c3 i = _
  rw [e1, e2, e3, EReal.coe_add, EReal.coe_add]

section Branches

variable (x1 x2 x3 : FA (F := Ideal) S50000x256) (ei1 ei2 ei3 : IA (F := Ideal) S2x800000) (ew1 ew2 ew3 : FA (F := Ideal) S800000)
  (W1 W2 W3 : FA (F := Ideal) S256x64) (b1 b2 b3 : FA (F := Ideal) S64) (fcw : FA (F := Ideal) S64x1) (fcb : FA (F := Ideal) S1)

theorem C_pos_real (hx : ∀ i, x1 i ≠ ⊤ ∧ x1 i ≠ ⊥) (hw : ∀ i, ew1 i ≠ ⊤ ∧ ew1 i ≠ ⊥) (hW : ∀ i, W1 i ≠ ⊤ ∧ W1 i ≠ ⊥)
    (hb : ∀ i, b1 i ≠ ⊤ ∧ b1 i ≠ ⊥) (hfw : ∀ i, fcw i ≠ ⊤ ∧ fcw i ≠ ⊥) (hfb : ∀ i, fcb i ≠ ⊤ ∧ fcb i ≠ ⊥)
    (hpos : ∀ i, 0 < Spec.deg ei1 ew1 i) (i : S50000x1.Idx) :
    ∃ r : ℝ, 0 < r ∧ Spec.C x1 ei1 ew1 W1 b1 fcw fcb i = (r : EReal) := by
  unfold Spec.C
  exact score_pos_real (allFin_logit (allFin_emb ei1 (fun i => isFin_of_ne (hx i)) (fun i => isFin_of_ne (hw i))
    (fun i => isFin_of_ne (hW i)) (fun i => isFin_of_ne (hb i)) hpos) (fun i => isFin_of_ne (hfw i))
    (fun i => isFin_of_ne (hfb i))) i

variable (hx1 : ∀ i, x1 i ≠ ⊤ ∧ x1 i ≠ ⊥) (hx2 : ∀ i, x2 i ≠ ⊤ ∧ x2 i ≠ ⊥) (hx3 : ∀ i, x3 i ≠ ⊤ ∧ x3 i ≠ ⊥)
  (hew1 : ∀ i, ew1 i ≠ ⊤ ∧ ew1 i ≠ ⊥) (hew2 : ∀ i, ew2 i ≠ ⊤ ∧ ew2 i ≠ ⊥) (hew3 : ∀ i, ew3 i ≠ ⊤ ∧ ew3 i ≠ ⊥)
  (hW1 : ∀ i, W1 i ≠ ⊤ ∧ W1 i ≠ ⊥) (hW2 : ∀ i, W2 i ≠ ⊤ ∧ W2 i ≠ ⊥) (hW3 : ∀ i, W3 i ≠ ⊤ ∧ W3 i ≠ ⊥)
  (hb1 : ∀ i, b1 i ≠ ⊤ ∧ b1 i ≠ ⊥) (hb2 : ∀ i, b2 i ≠ ⊤ ∧ b2 i ≠ ⊥) (hb3 : ∀ i, b3 i ≠ ⊤ ∧ b3 i ≠ ⊥)
  (hfcw : ∀ i, fcw i ≠ ⊤ ∧ fcw i ≠ ⊥) (hfcb : ∀ i, fcb i ≠ ⊤ ∧ fcb i ≠ ⊥)
  (hd1 : ∀ i, 0 < Spec.deg ei1 ew1 i) (hd2 : ∀ i, 0 < Spec.deg ei2 ew2 i) (hd3 : ∀ i, 0 < Spec.deg ei3 ew3 i)

include hx1 hx2 hx3 hew1 hew2 hew3 hW1 hW2 hW3 hb1 hb2 hb3 hfcw hfcb hd1 hd2 hd3

theorem T_ne_zero (i : S50000x1.Idx) : Spec.T x1 x2 x3 ei1 ei2 ei3 ew1 ew2 ew3 W1 W2 W3 b1 b2 b3 fcw fcb i ≠ 0 := by
  unfold Spec.T
  obtain ⟨r, hr, e⟩ := total_pos_real i (C_pos_real x1 ei1 ew1 W1 b1 fcw fcb hx1 hew1 hW1 hb1 hfcw hfcb hd1 i)
    (C_pos_real x2 ei2 ew2 W2 b2 fcw fcb hx2 hew2 hW2 hb2 hfcw hfcb hd2 i)
    (C_pos_real x3 ei3 ew3 W3 b3 fcw fcb hx3 hew3 hW3 hb3 hfcw hfcb hd3 i)
  rw [e]
  exact (EReal.coe_pos.mpr hr).ne'

end Branches

end Cert.Hand.Fin

end
-- ==== Proof.lean ====
import proofs.«145333_j32066225832361_2_alg».proof.Defs
import proofs.«145333_j32066225832361_2_alg».proof.Proof.Gen.Kernel
import proofs.«145333_j32066225832361_2_alg».proof.Proof.Gen.KernelIdeal
import proofs.«145333_j32066225832361_2_alg».proof.Proof.Gen.ReferenceIdeal
import proofs.«145333_j32066225832361_2_alg».proof.Proof.Gen.Pre_finite_inputs
import proofs.«145333_j32066225832361_2_alg».proof.Proof.KI.KVal2
import proofs.«145333_j32066225832361_2_alg».proof.Proof.K.KRun
import proofs.«145333_j32066225832361_2_alg».proof.Proof.Ref.Value
import proofs.«145333_j32066225832361_2_alg».proof.Proof.PreFacts
import proofs.«145333_j32066225832361_2_alg».proof.Proof.Finite
import Idealize.ShloMosaic.Adequacy
import Idealize.ShloMosaic.Init

set_option maxRecDepth 16384

noncomputable section

namespace Cert.Proof

open Idealize.ShloMosaic Idealize.SL.Sem

theorem frame_k : Cert.frame_Kernel := fun m g _ =>
  (θ_run _ _ _).mono (fun r h c => by
    repeat' apply And.intro
    all_goals exact Cert.Kernel.Hand.arg_kept m g r h c _ (by decide)) (Cert.Kernel.Hand.run_main (F := Bits) m g)

theorem frame_ki : Cert.frame_KernelIdeal := fun m g _ =>
  (θ_run _ _ _).mono (fun r h c => by
    repeat' apply And.intro
    all_goals exact Cert.KernelIdeal.Hand.arg_kept m g r h c _ (by decide)) (Cert.KernelIdeal.Hand.run_main (F := Ideal) m g)

theorem frame_ri : Cert.frame_ReferenceIdeal := fun m g _ =>
  (θ_run _ _ _).mono (fun r h c => by
    repeat' apply And.intro
    all_goals exact (h c _).trans (Cert.ReferenceIdeal.Hand.arg_kept _ (by decide))) (Cert.ReferenceIdeal.Hand.run_main m g)

/-- Under the precondition the scores' total is never zero, so the kernel's four results are the specification's functions
    of its arguments; the reference's are the same functions of its own arguments, which are the kernel's. -/
theorem algebraic : Cert.algebraic_KernelIdeal_ReferenceIdeal := by
  intro m g m' g' hpre hagree
  have hfin := fun c => Cert.Hand.Pre.fin_of_pre _ _ _ _ _ _ _ _ _ _ _ _ _ _ _ _ _ _ _ _ _ _ _ (hpre c)
  have hdeg := fun c => Cert.Hand.Pre.deg_pos_of_pre _ _ _ _ _ _ _ _ _ _ _ _ _ _ _ _ _ _ _ _ _ _ _ (hpre c)
  have hT := fun c => Cert.Hand.Fin.T_ne_zero _ _ _ _ _ _ _ _ _ _ _ _ _ _ _ _ _ (hfin c).hx1 (hfin c).hx2 (hfin c).hx3 (hfin c).hew1 (hfin c).hew2 (hfin c).hew3
    (hfin c).hW1 (hfin c).hW2 (hfin c).hW3 (hfin c).hb1 (hfin c).hb2 (hfin c).hb3 (hfin c).hfcw (hfin c).hfcb
    (hdeg c).1 (hdeg c).2.1 (hdeg c).2.2
  exact ⟨_, _, _, _,
    (θ_run _ _ _).mono (fun r h c => ⟨(h c _ (Cert.KernelIdeal.Hand.mem_uc Cert.KernelIdeal.main_v213 (by decide))).trans (Cert.KernelIdeal.Hand.K_out m g c (hT c)),
      (h c _ (Cert.KernelIdeal.Hand.mem_uc Cert.KernelIdeal.main_v153 (by decide))).trans (Cert.KernelIdeal.Hand.K_k1 m g c (hT c)),
      (h c _ (Cert.KernelIdeal.Hand.mem_uc Cert.KernelIdeal.main_v154 (by decide))).trans (Cert.KernelIdeal.Hand.K_k2 m g c (hT c)),
      (h c _ (Cert.KernelIdeal.Hand.mem_uc Cert.KernelIdeal.main_v155 (by decide))).trans (Cert.KernelIdeal.Hand.K_k3 m g c (hT c)), by
        repeat' apply And.intro
        all_goals exact Cert.KernelIdeal.Hand.arg_kept m g r h c _ (by decide)⟩) (Cert.KernelIdeal.Hand.run_main (F := Ideal) m g),
    by
      refine (θ_run _ _ _).mono (fun r h c => ?_) (Cert.ReferenceIdeal.Hand.run_main m' g')
      obtain ⟨e0, e1, e2, e3, e4, e5, e6, e7, e8, e9, e10, e11, e12, e13, e14, e15, e16, e17, e18, e19, e20, e21, e22⟩ := hagree c
      refine ⟨(h c _).trans ((Cert.ReferenceIdeal.Hand.val_out _).trans ?_), (h c _).trans ((Cert.ReferenceIdeal.Hand.val_k1 _).trans ?_),
        (h c _).trans ((Cert.ReferenceIdeal.Hand.val_k2 _).trans ?_), (h c _).trans ((Cert.ReferenceIdeal.Hand.val_k3 _).trans ?_), ?_⟩
      iterate 4 (simp only [← e0, ← e1, ← e2, ← e3, ← e4, ← e5, ← e6, ← e7, ← e8, ← e9, ← e10, ← e11, ← e12, ← e13, ← e14, ← e15, ← e16, ← e17, ← e18, ← e19, ← e20, ← e21, ← e22] <;> rfl)
      repeat' apply And.intro
      all_goals exact (h c _).trans (Cert.ReferenceIdeal.Hand.arg_kept _ (by decide))⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
